-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  IdealRules.named_const.Statement Cert.KernelIdeal.κ "inv_10000" .f32 0x38D1B717#32 ((1 / 10000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S32 : Shape := ⟨1, ![32]⟩
abbrev S512x128 : Shape := ⟨2, ![512, 128]⟩
abbrev S256x128 : Shape := ⟨2, ![256, 128]⟩
abbrev S128 : Shape := ⟨1, ![128]⟩
abbrev S2x128x128 : Shape := ⟨3, ![2, 128, 128]⟩
abbrev S2x128 : Shape := ⟨2, ![2, 128]⟩
abbrev S128x256 : Shape := ⟨2, ![128, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S32 : S_.BroadcastsInDim S32 (![] : Fin 0 → Fin S32.rank)
  reducesTo_S32_S_d0 : S32.ReducesTo [0] S_

variable [Facts]

def fn_part3 {F : FTy → Type} [FloatOps F] (main_arg1 : IVec S32 32) (main_arg12 : FVec F S256 .f32) (main_v48 : IVec S_ 1) (main_v49 : FVec F S128x256 .f32) (main_v50 : FVec F S128x256 .f32) : IVec S_ 1 :=
  let main_v51 : IVec S128x256 1 := cmpf .olt main_v49 main_v50
  let main_c_19 : IVec S_ 1 := constantI S_ 1 1#1
  let main_v52 : IVec S_ 1 := (fun x v => Host.reduce IntOp.andi x v reducesTo_S128x256_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_c_22 : IVec S_ 32 := constantI S_ 32 0#32
  let main_v59 : IVec S32 32 := broadcastInDim S32 ![] bcast_S_S32 main_c_22
  let main_v60 : IVec S32 1 := cmpi .sge main_arg1 main_v59
  let main_c_23 : IVec S_ 32 := constantI S_ 32 512#32
  let main_v61 : IVec S32 32 := broadcastInDim S32 ![] bcast_S_S32 main_c_23
  let main_v62 : IVec S32 1 := cmpi .slt main_arg1 main_v61
  let main_v63 : IVec S32 1 := andi main_v60 main_v62
  let main_c_24 : IVec S_ 1 := constantI S_ 1 1#1
  let main_v64 : IVec S_ 1 := (fun x v => Host.reduce IntOp.andi x v reducesTo_S32_S_d0 h_S_) main_v63 main_c_24
  let main_v65 : IVec S_ 1 := andi main_v58 main_v64
  main_v65

def fn_part2 {F : FTy → Type} [FloatOps F] (main_arg1 : IVec S32 32) (main_arg8 : FVec F S2x128x128 .f32) (main_arg9 : FVec F S2x128x128 .f32) (main_arg10 : FVec F S2x128 .f32) (main_arg11 : FVec F S128x256 .f32) (main_arg12 : FVec F S256 .f32) (main_v33 : IVec S_ 1) : IVec S_ 1 :=
  let main_v34 : FVec F S2x128x128 .f32 := Host.absf main_arg8
  let main_cst_12 : FVec F S_ .f32 := constant S_ .f32 0x7F800000#32
  let main_v35 : FVec F S2x128x128 .f32 := broadcastInDim S2x128x128 ![] bcast_S_S2x128x128 main_cst_12
  let main_v36 : IVec S2x128x128 1 := cmpf .olt main_v34 main_v35
  let main_c_13 : IVec S_ 1 := constantI S_ 1 1#1
  let main_v37 : IVec S_ 1 := (fun x v => Host.reduce IntOp.andi x v reducesTo_S2x128x128_S_d0_1_2 h_S_) main_v36 main_c_13
  let main_v38 : IVec S_ 1 := andi main_v33 main_v37
  let main_v39 : FVec F S2x128x128 .f32 := Host.absf main_arg9
  let main_cst_14 : FVec F S_ .f32 := constant S_ .f32 0x7F800000#32
  let main_v40 : FVec F S2x128x128 .f32 := broadcastInDim S2x128x128 ![] bcast_S_S2x128x128 main_cst_14
  let main_v41 : IVec S2x128x128 1 := cmpf .olt main_v39 main_v40
  let main_c_15 : IVec S_ 1 := constantI S_ 1 1#1
  let main_v42 : IVec S_ 1 := (fun x v => Host.reduce IntOp.andi x v reducesTo_S2x128x128_S_d0_1_2 h_S_) main_v41 main_c_15
  let main_v43 : IVec S_ 1 := andi main_v38 main_v42
  let main_v44 : FVec F S2x128 .f32 := Host.absf main_arg10
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  let main_v49 : FVec F S128x256 .f32 := Host.absf main_arg11
  let main_cst_18 : FVec F S_ .f32 := constant S_ .f32 0x7F800000#32
  let main_v50 : FVec F S128x256 .f32 := broadcastInDim S128x256 ![] bcast_S_S128x256 main_cst_18
  fn_part3 (F := F) main_arg1 main_arg12 main_v48 main_v49 main_v50

def fn_part1 {F : FTy → Type} [FloatOps F] (main_arg1 : IVec S32 32) (main_arg5 : FVec F S2x128x128 .f32) (main_arg6 : FVec F S2x128x128 .f32) (main_arg7 : FVec F S2x128 .f32) (main_arg8 : FVec F S2x128x128 .f32) (main_arg9 : FVec F S2x128x128 .f32) (main_arg10 : FVec F S2x128 .f32) (main_arg11 : FVec F S128x256 .f32) (main_arg12 : FVec F S256 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S2x128x128 .f32 := Host.absf main_arg5
  let main_cst_6 : FVec F S_ .f32 := constant S_ .f32 0x7F800000#32
  let main_v20 : FVec F S2x128x128 .f32 := broadcastInDim S2x128x128 ![] bcast_S_S2x128x128 main_cst_6
  let main_v21 : IVec S2x128x128 1 := cmpf .olt main_v19 main_v20
  let main_c_7 : IVec S_ 1 := constantI S_ 1 1#1
  let main_v22 : IVec S_ 1 := (fun x v => Host.reduce IntOp.andi x v reducesTo_S2x128x128_S_d0_1_2 h_S_) main_v21 main_c_7
  let main_v23 : IVec S_ 1 := andi main_v18 main_v22
  let main_v24 : FVec F S2x128x128 .f32 := Host.absf main_arg6
  let main_cst_8 : FVec F S_ .f32 := constant S_ .f32 0x7F800000#32
  let main_v25 : FVec F S2x128x128 .f32 := broadcastInDim S2x128x128 ![] bcast_S_S2x128x128 main_cst_8
  let main_v26 : IVec S2x128x128 1 := cmpf .olt main_v24 main_v25
  let main_c_9 : IVec S_ 1 := constantI S_ 1 1#1
  let main_v27 : IVec S_ 1 := (fun x v => Host.reduce IntOp.andi x v reducesTo_S2x128x128_S_d0_1_2 h_S_) main_v26 main_c_9
  let main_v28 : IVec S_ 1 := andi main_v23 main_v27
  let main_v29 : FVec F S2x128 .f32 := Host.absf main_arg7
  let main_cst_10 : FVec F S_ .f32 := constant S_ .f32 0x7F800000#32
  let main_v30 : FVec F S2x128 .f32 := broadcastInDim S2x128 ![] bcast_S_S2x128 main_cst_10
  let main_v31 : IVec S2x128 1 := cmpf .olt main_v29 main_v30
  let main_c_11 : IVec S_ 1 := constantI S_ 1 1#1
  let main_v32 : IVec S_ 1 := (fun x v => Host.reduce IntOp.andi x v reducesTo_S2x128_S_d0_1 h_S_) main_v31 main_c_11
  let main_v33 : IVec S_ 1 := andi main_v28 main_v32
  fn_part2 (F := F) main_arg1 main_arg8 main_arg9 main_arg10 main_arg11 main_arg12 main_v33

def fn {F : FTy → Type} [FloatOps F] (main_arg0 : FVec F S10000x256 .f32) (main_arg1 : IVec S32 32) (main_arg2 : FVec F S512x128 .f32) (main_arg3 : FVec F S256x128 .f32) (main_arg4 : FVec F S128 .f32) (main_arg5 : FVec F S2x128x128 .f32) (main_arg6 : FVec F S2x128x128 .f32) (main_arg7 : FVec F S2x128 .f32) (main_arg8 : FVec F S2x128x128 .f32) (main_arg9 : FVec F S2x128x128 .f32) (main_arg10 : FVec F S2x128 .f32) (main_arg11 : FVec F S128x256 .f32) (main_arg12 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_arg11 main_arg12 main_v13 main_v16
-- ==== Kernel.lean ====
abbrev S10000x256 : Shape := ⟨2, ![10000, 256]⟩
abbrev S32 : Shape := ⟨1, ![32]⟩
abbrev S512x128 : Shape := ⟨2, ![512, 128]⟩
abbrev S256x128 : Shape := ⟨2, ![256, 128]⟩
abbrev S128 : Shape := ⟨1, ![128]⟩
abbrev S2x128x128 : Shape := ⟨3, ![2, 128, 128]⟩
abbrev S2x128 : Shape := ⟨2, ![2, 128]⟩
abbrev S128x256 : Shape := ⟨2, ![128, 256]⟩
abbrev S256 : Shape := ⟨1, ![256]⟩
abbrev S32x1 : Shape := ⟨2, ![32, 1]⟩
abbrev S1x128 : Shape := ⟨2, ![1, 128]⟩
abbrev S1x256 : Shape := ⟨2, ![1, 256]⟩
abbrev S1x128x128 : Shape := ⟨3, ![1, 128, 128]⟩
abbrev S128x128 : Shape := ⟨2, ![128, 128]⟩
abbrev S1000x256 : Shape := ⟨2, ![1000, 256]⟩
abbrev S32x512 : Shape := ⟨2, ![32, 512]⟩
abbrev S32x128 : Shape := ⟨2, ![32, 128]⟩
abbrev S1000x128 : Shape := ⟨2, ![1000, 128]⟩

abbrev nBuf : Space → Nat
  | .hbm => 33
  | .vmem => 25
  | .smem => 0
  | _ => 0

abbrev bufTy : (tb : Table) → Fin (tcTables nBuf tb) → BufTy
  | .hbm, ⟨0, _⟩ => ⟨S10000x256, .f32⟩
  | .hbm, ⟨1, _⟩ => ⟨S32, .i32⟩
  | .hbm, ⟨2, _⟩ => ⟨S512x128, .f32⟩
  | .hbm, ⟨3, _⟩ => ⟨S256x128, .f32⟩
  | .hbm, ⟨4, _⟩ => ⟨S128, .f32⟩
  | .hbm, ⟨5, _⟩ => ⟨S2x128x128, .f32⟩
  | .hbm, ⟨6, _⟩ => ⟨S2x128x128, .f32⟩
  | .hbm, ⟨7, _⟩ => ⟨S2x128, .f32⟩
  | .hbm, ⟨8, _⟩ => ⟨S2x128x128, .f32⟩
  | .hbm, ⟨9, _⟩ => ⟨S2x128x128, .f32⟩
  | .hbm, ⟨10, _⟩ => ⟨S2x128, .f32⟩
  | .hbm, ⟨11, _⟩ => ⟨S128x256, .f32⟩
  | .hbm, ⟨12, _⟩ => ⟨S256, .f32⟩
  | .hbm, ⟨13, _⟩ => ⟨S32x1, .i32⟩
  | .hbm, ⟨14, _⟩ => ⟨S1x128, .f32⟩
  | .hbm, ⟨15, _⟩ => ⟨S1x128, .f32⟩
  | .hbm, ⟨16, _⟩ => ⟨S128, .f32⟩
  | .hbm, ⟨17, _⟩ => ⟨S1x128, .f32⟩
  | .hbm, ⟨18, _⟩ => ⟨S1x256, .f32⟩
  | .hbm, ⟨19, _⟩ => ⟨S1x128x128, .f32⟩
  | .hbm, ⟨20, _⟩ => ⟨S128x128, .f32⟩
  | .hbm, ⟨21, _⟩ => ⟨S1x128x128, .f32⟩
  | .hbm, ⟨22, _⟩ => ⟨S128x128, .f32⟩
  | .hbm, ⟨23, _⟩ => ⟨S1x128x128, .f32⟩
  | .hbm, ⟨24, _⟩ => ⟨S128x128, .f32⟩
  | .hbm, ⟨25, _⟩ => ⟨S1x128x128, .f32⟩
  | .hbm, ⟨26, _⟩ => ⟨S128x128, .f32⟩
  | .hbm, ⟨27, _⟩ => ⟨S2x128, .f32⟩
  | .hbm, ⟨28, _⟩ => ⟨S1x128x128, .f32⟩
  | .hbm, ⟨29, _⟩ => ⟨S128x128, .f32⟩
  | .hbm, ⟨30, _⟩ => ⟨S1x128x128, .f32⟩
  | .hbm, ⟨31, _⟩ => ⟨S128x128, .f32⟩
  | .hbm, ⟨32, _⟩ => ⟨S10000x256, .f32⟩
  | .local _ .vmem, ⟨0, _⟩ => ⟨S1000x256, .f32⟩
  | .local _ .vmem, ⟨1, _⟩ => ⟨S1000x256, .f32⟩
  | .local _ .vmem, ⟨2, _⟩ => ⟨S32x1, .i32⟩
  | .local _ .vmem, ⟨3, _⟩ => ⟨S512x128, .f32⟩
  | .local _ .vmem, ⟨4, _⟩ => ⟨S256x128, .f32⟩
  | .local _ .vmem, ⟨5, _⟩ => ⟨S1x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S128x128, .f32⟩
  | .local _ .vmem, ⟨10, _⟩ => ⟨S128x128, .f32⟩
  | .local _ .vmem, ⟨11, _⟩ => ⟨S2x128, .f32⟩
  | .local _ .vmem, ⟨12, _⟩ => ⟨S2x128, .f32⟩
  | .local _ .vmem, ⟨13, _⟩ => ⟨S1x256, .f32⟩
  | .local _ .vmem, ⟨14, _⟩ => ⟨S1000x256, .f32⟩
  | .local _ .vmem, ⟨15, _⟩ => ⟨S1000x256, .f32⟩
  | .local _ .vmem, ⟨16, _⟩ => ⟨S256x128, .f32⟩
  | .local _ .vmem, ⟨17, _⟩ => ⟨S1x128, .f32⟩
  | .local _ .vmem, ⟨18, _⟩ => ⟨S128x128, .f32⟩
  | .local _ .vmem, ⟨19, _⟩ => ⟨S128x128, .f32⟩
  | .local _ .vmem, ⟨20, _⟩ => ⟨S2x128, .f32⟩
  | .local _ .vmem, ⟨21, _⟩ => ⟨S128x256, .f32⟩
  | .local _ .vmem, ⟨22, _⟩ => ⟨S1x256, .f32⟩
  | .local _ .vmem, ⟨23, _⟩ => ⟨S1000x256, .f32⟩
  | .local _ .vmem, ⟨24, _⟩ => ⟨S1000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_call0_v16 : Ref sig .tc := ⟨.hbm, 29, rfl⟩
abbrev main_call0_v17 : Ref sig .tc := ⟨.hbm, 30, rfl⟩
abbrev main_call0_v18 : Ref sig .tc := ⟨.hbm, 31, rfl⟩
abbrev main_v0 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_scratch0 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg8_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v11 : BitVec 1 := Scalar.cmpi .eq arg0 c9_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1000x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  shapeCasts_S32_S32x1 : S32.ShapeCasts S32x1
  shapeCasts_S128_S1x128 : S128.ShapeCasts S1x128
  slices_S2x128_S1x128_0_0 : S2x128.Slices ![0, 0] S1x128
  shapeCasts_S1x128_S128 : S1x128.ShapeCasts S128
  shapeCasts_S256_S1x256 : S256.ShapeCasts S1x256
  slices_S2x128x128_S1x128x128_0_0_0 : S2x128x128.Slices ![0, 0, 0] S1x128x128
  shapeCasts_S1x128x128_S128x128 : S1x128x128.ShapeCasts S128x128
  slices_S2x128x128_S1x128x128_1_0_0 : S2x128x128.Slices ![1, 0, 0] S1x128x128
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1000x256_S1000x256_0_0 : ∀ a, (![0, 0] : Fin 2 → Nat) a + S1000x256.size a ≤ S1000x256.size a
  h_S1000x256 : 0 < S1000x256.numel
  reduces_S1000x256_S256 : S1000x256.Reduces [0] S256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  iota_S32x512_d1_w32 : S32x512.Iotas .tc 32 [1]
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x512 : S32x1.Broadcasts S32x512
  natLt_1_32 : 1 < 32
  inb_S512x128_S512x128_0_0 : ∀ a, (![0, 0] : Fin 2 → Nat) a + S512x128.size a ≤ S512x128.size a
  h_S512x128 : 0 < S512x128.numel
  reduces_S32x128_S128 : S32x128.Reduces [0] S128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S32x128 : S1x128.Broadcasts S32x128
  inb_S2x128_S1x128_0_0 : ∀ a, (![0, 0] : Fin 2 → Nat) a + S1x128.size a ≤ S2x128.size a
  inb_S2x128_S1x128_1_0 : ∀ a, (![1, 0] : Fin 2 → Nat) a + S1x128.size a ≤ S2x128.size a
  concatenates_S1x128_S1x128_S2x128_d0 : Shape.Concatenates [S1x128, S1x128] S2x128 0
  inb_S2x128_S2x128_0_0 : ∀ a, (![0, 0] : Fin 2 → Nat) a + S2x128.size a ≤ S2x128.size a
  h_S2x128 : 0 < S2x128.numel
  broadcasts_S1x128_S1000x128 : S1x128.Broadcasts S1000x128
  inb_S128x256_S128x256_0_0 : ∀ a, (![0, 0] : Fin 2 → Nat) a + S128x256.size a ≤ S128x256.size a
  h_S128x256 : 0 < S128x256.numel
  broadcasts_S1x256_S1000x256 : S1x256.Broadcasts S1000x256
  dot_S1x256_S256x128_S1x128_1_0_0_1_n_n_wf : DotDims.WF S1x256 S256x128 S1x128 [1] [0] [0] [1] [] []
  dot_S32x512_S512x128_S32x128_1_0_0_1_n_n_wf : DotDims.WF S32x512 S512x128 S32x128 [1] [0] [0] [1] [] []
  dot_S1x128_S128x128_S1x128_1_0_0_1_n_n_wf : DotDims.WF S1x128 S128x128 S1x128 [1] [0] [0] [1] [] []
  dot_S32x128_S128x128_S32x128_1_0_0_1_n_n_wf : DotDims.WF S32x128 S128x128 S32x128 [1] [0] [0] [1] [] []
  dot_S1000x256_S256x128_S1000x128_1_0_0_1_n_n_wf : DotDims.WF S1000x256 S256x128 S1000x128 [1] [0] [0] [1] [] []
  dot_S1000x128_S128x128_S1000x128_1_0_0_1_n_n_wf : DotDims.WF S1000x128 S128x128 S1000x128 [1] [0] [0] [1] [] []
  dot_S1000x128_S128x256_S1000x256_1_0_0_1_n_n_wf : DotDims.WF S1000x128 S128x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S10000x256.size a
  hwx0_0 : ∀ i : grid0.Coords, EltTy.bits .f32 = 32 ∨ (Rect.block (s := S10000x256) S1000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x1.size a ≤ S32x1.size a
  hwx0_1 : ∀ i : grid0.Coords, EltTy.bits .i32 = 32 ∨ (Rect.block (s := S32x1) S32x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .f32 = 32 ∨ (Rect.block (s := S512x128) S512x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2x128.size a ≤ S2x128.size a
  hwx0_10 : ∀ i : grid0.Coords, EltTy.bits .f32 = 32 ∨ (Rect.block (s := S2x128) S2x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S2x128.size a ≤ S2x128.size a
  hwx0_11 : ∀ i : grid0.Coords, EltTy.bits .f32 = 32 ∨ (Rect.block (s := S2x128) S2x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S10000x256.size a
  hwx1_0 : ∀ i : grid1.Coords, EltTy.bits .f32 = 32 ∨ (Rect.block (s := S10000x256) S1000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2x128.size a ≤ S2x128.size a
  hwx1_5 : ∀ i : grid1.Coords, EltTy.bits .f32 = 32 ∨ (Rect.block (s := S2x128) S2x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x256.size a ≤ S128x256.size a
  hwx1_6 : ∀ i : grid1.Coords, EltTy.bits .f32 = 32 ∨ (Rect.block (s := S128x256) S128x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1000x256.size a ≤ S10000x256.size a
  hwx1_8 : ∀ i : grid1.Coords, EltTy.bits .f32 = 32 ∨ (Rect.block (s := S10000x256) S1000x256.size (cc1_transform_8 i) (hinb1_8 i)).WholeWords (EltTy.packing .f32)

variable [Facts₀]

def dot_S1x256_S256x128_S1x128_1_0_0_1_n_n : DotDims S1x256 S256x128 S1x128 where
  lhsContracting := [1]
  rhsContracting := [0]
  lhsNonContracting := [0]
  rhsNonContracting := [1]
  lhsBatch := []
  rhsBatch := []
  wf := dot_S1x256_S256x128_S1x128_1_0_0_1_n_n_wf
def dot_S32x512_S512x128_S32x128_1_0_0_1_n_n : DotDims S32x512 S512x128 S32x128 where
  lhsContracting := [1]
  rhsContracting := [0]
  lhsNonContracting := [0]
  rhsNonContracting := [1]
  lhsBatch := []
  rhsBatch := []
  wf := dot_S32x512_S512x128_S32x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S32x128_S128x128_S32x128_1_0_0_1_n_n : DotDims S32x128 S128x128 S32x128 where
  lhsContracting := [1]
  rhsContracting := [0]
  lhsNonContracting := [0]
  rhsNonContracting := [1]
  lhsBatch := []
  rhsBatch := []
  wf := dot_S32x128_S128x128_S32x128_1_0_0_1_n_n_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S32x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v7) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v9) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v4) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v11) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v13) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S2x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_call0_v14) S2x128.size cc0_transform_11 reads0_11 true true 1 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k0_cond2 i == 1#1) | ⟨_ + 12, h⟩ => absurd h (Nat.not_lt.2 (Nat.le_add_left _ _))

abbrev win1_0 : Pipeline.Window sig grid1 :=
  Pipeline.Window.ofSpec (Memref.whole main_arg0) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v1) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v16) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v18) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v14) S2x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg11) S128x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_call0_v5) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v0) S1000x256.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S10000x256 : Shape := ⟨2, ![10000, 256]⟩
abbrev S32 : Shape := ⟨1, ![32]⟩
abbrev S512x128 : Shape := ⟨2, ![512, 128]⟩
abbrev S256x128 : Shape := ⟨2, ![256, 128]⟩
abbrev S128 : Shape := ⟨1, ![128]⟩
abbrev S2x128x128 : Shape := ⟨3, ![2, 128, 128]⟩
abbrev S2x128 : Shape := ⟨2, ![2, 128]⟩
abbrev S128x256 : Shape := ⟨2, ![128, 256]⟩
abbrev S256 : Shape := ⟨1, ![256]⟩
abbrev S_ : Shape := ⟨0, ![]⟩
abbrev S32x1 : Shape := ⟨2, ![32, 1]⟩
abbrev S1 : Shape := ⟨1, ![1]⟩
abbrev S1x1 : Shape := ⟨2, ![1, 1]⟩
abbrev S32x128 : Shape := ⟨2, ![32, 128]⟩
abbrev S10000 : Shape := ⟨1, ![10000]⟩
abbrev S10000x32 : Shape := ⟨2, ![10000, 32]⟩
abbrev S320000 : Shape := ⟨1, ![320000]⟩
abbrev S1x32 : Shape := ⟨2, ![1, 32]⟩
abbrev S10000x128 : Shape := ⟨2, ![10000, 128]⟩
abbrev S1x128 : Shape := ⟨2, ![1, 128]⟩
abbrev S320000x1 : Shape := ⟨2, ![320000, 1]⟩
abbrev S320000x128 : Shape := ⟨2, ![320000, 128]⟩
abbrev S1x128x128 : Shape := ⟨3, ![1, 128, 128]⟩
abbrev S128x128 : Shape := ⟨2, ![128, 128]⟩
abbrev S1x256 : Shape := ⟨2, ![1, 256]⟩

abbrev nBuf : Space → Nat
  | .hbm => 231
  | .vmem => 0
  | .smem => 0
  | _ => 0

abbrev hbmTy0_0 (i : Nat) : BufTy := match i % 128 with
  | 0 => ⟨S10000x256, .f32⟩
  | 1 => ⟨S32, .i32⟩
  | 2 => ⟨S512x128, .f32⟩
  | 3 => ⟨S256x128, .f32⟩
  | 4 => ⟨S128, .f32⟩
  | 5 => ⟨S2x128x128, .f32⟩
  | 6 => ⟨S2x128x128, .f32⟩
  | 7 => ⟨S2x128, .f32⟩
  | 8 => ⟨S2x128x128, .f32⟩
  | 9 => ⟨S2x128x128, .f32⟩
  | 10 => ⟨S2x128, .f32⟩
  | 11 => ⟨S128x256, .f32⟩
  | 12 => ⟨S256, .f32⟩
  | 13 => ⟨S_, .i32⟩
  | 14 => ⟨S32, .i32⟩
  | 15 => ⟨S32, .i1⟩
  | 16 => ⟨S_, .i32⟩
  | 17 => ⟨S32, .i32⟩
  | 18 => ⟨S32, .i32⟩
  | 19 => ⟨S32, .i32⟩
  | 20 => ⟨S32x1, .i32⟩
  | 21 => ⟨S1, .i32⟩
  | 22 => ⟨S_, .i32⟩
  | 23 => ⟨S32x1, .i32⟩
  | 24 => ⟨S32x1, .i1⟩
  | 25 => ⟨S1x1, .i32⟩
  | 26 => ⟨S32x1, .i32⟩
  | 27 => ⟨S32x1, .i1⟩
  | 28 => ⟨S32x1, .i1⟩
  | 29 => ⟨S_, .i1⟩
  | 30 => ⟨S32, .i1⟩
  | 31 => ⟨S32x128, .f32⟩
  | 32 => ⟨S32x128, .i1⟩
  | 33 => ⟨S_, .f32⟩
  | 34 => ⟨S32x128, .f32⟩
  | 35 => ⟨S32x128, .f32⟩
  | 36 => ⟨S10000, .i32⟩
  | 37 => ⟨S10000x32, .i32⟩
  | 38 => ⟨S320000, .i32⟩
  | 39 => ⟨S32, .i32⟩
  | 40 => ⟨S1x32, .i32⟩
  | 41 => ⟨S10000x32, .i32⟩
  | 42 => ⟨S320000, .i32⟩
  | 43 => ⟨S10000x128, .f32⟩
  | 44 => ⟨S1x128, .f32⟩
  | 45 => ⟨S10000x128, .f32⟩
  | 46 => ⟨S10000x128, .f32⟩
  | 47 => ⟨S_, .i32⟩
  | 48 => ⟨S320000, .i32⟩
  | 49 => ⟨S320000, .i1⟩
  | 50 => ⟨S_, .i32⟩
  | 51 => ⟨S320000, .i32⟩
  | 52 => ⟨S320000, .i32⟩
  | 53 => ⟨S320000, .i32⟩
  | 54 => ⟨S320000x1, .i32⟩
  | 55 => ⟨S1, .i32⟩
  | 56 => ⟨S_, .i32⟩
  | 57 => ⟨S320000x1, .i32⟩
  | 58 => ⟨S320000x1, .i1⟩
  | 59 => ⟨S1x1, .i32⟩
  | 60 => ⟨S320000x1, .i32⟩
  | 61 => ⟨S320000x1, .i1⟩
  | 62 => ⟨S320000x1, .i1⟩
  | 63 => ⟨S_, .i1⟩
  | 64 => ⟨S320000, .i1⟩
  | 65 => ⟨S320000x128, .f32⟩
  | 66 => ⟨S320000x128, .i1⟩
  | 67 => ⟨S_, .f32⟩
  | 68 => ⟨S320000x128, .f32⟩
  | 69 => ⟨S320000x128, .f32⟩
  | 70 => ⟨S_, .f32⟩
  | 71 => ⟨S32x128, .f32⟩
  | 72 => ⟨S320000x1, .i32⟩
  | 73 => ⟨S32x128, .f32⟩
  | 74 => ⟨S_, .f32⟩
  | 75 => ⟨S32x128, .f32⟩
  | 76 => ⟨S32x128, .f32⟩
  | 77 => ⟨S_, .i32⟩
  | 78 => ⟨S320000, .i32⟩
  | 79 => ⟨S320000, .i1⟩
  | 80 => ⟨S_, .i32⟩
  | 81 => ⟨S320000, .i32⟩
  | 82 => ⟨S320000, .i32⟩
  | 83 => ⟨S320000, .i32⟩
  | 84 => ⟨S320000x1, .i32⟩
  | 85 => ⟨S1, .i32⟩
  | 86 => ⟨S_, .i32⟩
  | 87 => ⟨S320000x1, .i32⟩
  | 88 => ⟨S320000x1, .i1⟩
  | 89 => ⟨S1x1, .i32⟩
  | 90 => ⟨S320000x1, .i32⟩
  | 91 => ⟨S320000x1, .i1⟩
  | 92 => ⟨S320000x1, .i1⟩
  | 93 => ⟨S_, .i1⟩
  | 94 => ⟨S320000, .i1⟩
  | 95 => ⟨S320000x128, .f32⟩
  | 96 => ⟨S320000x128, .i1⟩
  | 97 => ⟨S_, .f32⟩
  | 98 => ⟨S320000x128, .f32⟩
  | 99 => ⟨S320000x128, .f32⟩
  | 100 => ⟨S_, .f32⟩
  | 101 => ⟨S10000x128, .f32⟩
  | 102 => ⟨S320000x1, .i32⟩
  | 103 => ⟨S10000x128, .f32⟩
  | 104 => ⟨S_, .f32⟩
  | 105 => ⟨S10000x128, .f32⟩
  | 106 => ⟨S10000x128, .f32⟩
  | 107 => ⟨S1x128x128, .f32⟩
  | 108 => ⟨S128x128, .f32⟩
  | 109 => ⟨S32x128, .f32⟩
  | 110 => ⟨S1x128x128, .f32⟩
  | 111 => ⟨S128x128, .f32⟩
  | 112 => ⟨S32x128, .f32⟩
  | 113 => ⟨S32x128, .f32⟩
  | 114 => ⟨S1x128, .f32⟩
  | 115 => ⟨S128, .f32⟩
  | 116 => ⟨S1x128, .f32⟩
  | 117 => ⟨S32x128, .f32⟩
  | 118 => ⟨S32x128, .f32⟩
  | 119 => ⟨S_, .f32⟩
  | 120 => ⟨S32x128, .f32⟩
  | 121 => ⟨S32x128, .f32⟩
  | 122 => ⟨S1x128x128, .f32⟩
  | 123 => ⟨S128x128, .f32⟩
  | 124 => ⟨S10000x128, .f32⟩
  | 125 => ⟨S1x128x128, .f32⟩
  | 126 => ⟨S128x128, .f32⟩
  | 127 => ⟨S10000x128, .f32⟩
  | _ => ⟨S10000x256, .f32⟩

abbrev hbmTy0_1 (i : Nat) : BufTy := match i % 128 with
  | 0 => ⟨S10000x128, .f32⟩
  | 1 => ⟨S1x128, .f32⟩
  | 2 => ⟨S128, .f32⟩
  | 3 => ⟨S1x128, .f32⟩
  | 4 => ⟨S10000x128, .f32⟩
  | 5 => ⟨S10000x128, .f32⟩
  | 6 => ⟨S_, .f32⟩
  | 7 => ⟨S10000x128, .f32⟩
  | 8 => ⟨S10000x128, .f32⟩
  | 9 => ⟨S_, .i32⟩
  | 10 => ⟨S320000, .i32⟩
  | 11 => ⟨S320000, .i1⟩
  | 12 => ⟨S_, .i32⟩
  | 13 => ⟨S320000, .i32⟩
  | 14 => ⟨S320000, .i32⟩
  | 15 => ⟨S320000, .i32⟩
  | 16 => ⟨S320000x1, .i32⟩
  | 17 => ⟨S1, .i32⟩
  | 18 => ⟨S_, .i32⟩
  | 19 => ⟨S320000x1, .i32⟩
  | 20 => ⟨S320000x1, .i1⟩
  | 21 => ⟨S1x1, .i32⟩
  | 22 => ⟨S320000x1, .i32⟩
  | 23 => ⟨S320000x1, .i1⟩
  | 24 => ⟨S320000x1, .i1⟩
  | 25 => ⟨S_, .i1⟩
  | 26 => ⟨S320000, .i1⟩
  | 27 => ⟨S320000x128, .f32⟩
  | 28 => ⟨S320000x128, .i1⟩
  | 29 => ⟨S_, .f32⟩
  | 30 => ⟨S320000x128, .f32⟩
  | 31 => ⟨S320000x128, .f32⟩
  | 32 => ⟨S_, .f32⟩
  | 33 => ⟨S32x128, .f32⟩
  | 34 => ⟨S320000x1, .i32⟩
  | 35 => ⟨S32x128, .f32⟩
  | 36 => ⟨S_, .f32⟩
  | 37 => ⟨S32x128, .f32⟩
  | 38 => ⟨S32x128, .f32⟩
  | 39 => ⟨S_, .i32⟩
  | 40 => ⟨S320000, .i32⟩
  | 41 => ⟨S320000, .i1⟩
  | 42 => ⟨S_, .i32⟩
  | 43 => ⟨S320000, .i32⟩
  | 44 => ⟨S320000, .i32⟩
  | 45 => ⟨S320000, .i32⟩
  | 46 => ⟨S320000x1, .i32⟩
  | 47 => ⟨S1, .i32⟩
  | 48 => ⟨S_, .i32⟩
  | 49 => ⟨S320000x1, .i32⟩
  | 50 => ⟨S320000x1, .i1⟩
  | 51 => ⟨S1x1, .i32⟩
  | 52 => ⟨S320000x1, .i32⟩
  | 53 => ⟨S320000x1, .i1⟩
  | 54 => ⟨S320000x1, .i1⟩
  | 55 => ⟨S_, .i1⟩
  | 56 => ⟨S320000, .i1⟩
  | 57 => ⟨S320000x128, .f32⟩
  | 58 => ⟨S320000x128, .i1⟩
  | 59 => ⟨S_, .f32⟩
  | 60 => ⟨S320000x128, .f32⟩
  | 61 => ⟨S320000x128, .f32⟩
  | 62 => ⟨S_, .f32⟩
  | 63 => ⟨S10000x128, .f32⟩
  | 64 => ⟨S320000x1, .i32⟩
  | 65 => ⟨S10000x128, .f32⟩
  | 66 => ⟨S_, .f32⟩
  | 67 => ⟨S10000x128, .f32⟩
  | 68 => ⟨S10000x128, .f32⟩
  | 69 => ⟨S1x128x128, .f32⟩
  | 70 => ⟨S128x128, .f32⟩
  | 71 => ⟨S32x128, .f32⟩
  | 72 => ⟨S1x128x128, .f32⟩
  | 73 => ⟨S128x128, .f32⟩
  | 74 => ⟨S32x128, .f32⟩
  | 75 => ⟨S32x128, .f32⟩
  | 76 => ⟨S1x128, .f32⟩
  | 77 => ⟨S128, .f32⟩
  | 78 => ⟨S1x128, .f32⟩
  | 79 => ⟨S32x128, .f32⟩
  | 80 => ⟨S32x128, .f32⟩
  | 81 => ⟨S_, .f32⟩
  | 82 => ⟨S32x128, .f32⟩
  | 83 => ⟨S32x128, .f32⟩
  | 84 => ⟨S1x128x128, .f32⟩
  | 85 => ⟨S128x128, .f32⟩
  | 86 => ⟨S10000x128, .f32⟩
  | 87 => ⟨S1x128x128, .f32⟩
  | 88 => ⟨S128x128, .f32⟩
  | 89 => ⟨S10000x128, .f32⟩
  | 90 => ⟨S10000x128, .f32⟩
  | 91 => ⟨S1x128, .f32⟩
  | 92 => ⟨S128, .f32⟩
  | 93 => ⟨S1x128, .f32⟩
  | 94 => ⟨S10000x128, .f32⟩
  | 95 => ⟨S10000x128, .f32⟩
  | 96 => ⟨S_, .f32⟩
  | 97 => ⟨S10000x128, .f32⟩
  | 98 => ⟨S10000x128, .f32⟩
  | 99 => ⟨S10000x256, .f32⟩
  | 100 => ⟨S1x256, .f32⟩
  | 101 => ⟨S10000x256, .f32⟩
  | 102 => ⟨S10000x256, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v0 : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_call1_cst : Ref sig .tc := ⟨.hbm, 67, rfl⟩
abbrev main_call1_v15 : Ref sig .tc := ⟨.hbm, 68, rfl⟩
abbrev main_v12 : Ref sig .tc := ⟨.hbm, 69, rfl⟩
abbrev main_cst : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_cst_0 : Ref sig .tc := ⟨.hbm, 74, rfl⟩
abbrev main_v16 : Ref sig .tc := ⟨.hbm, 75, rfl⟩
abbrev main_v17 : Ref sig .tc := ⟨.hbm, 76, rfl⟩
abbrev main_call2_c : Ref sig .tc := ⟨.hbm, 77, rfl⟩
abbrev main_call2_v0 : Ref sig .tc := ⟨.hbm, 78, rfl⟩
abbrev main_call2_v1 : Ref sig .tc := ⟨.hbm, 79, rfl⟩
abbrev main_call2_c_0 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_v5 : Ref sig .tc := ⟨.hbm, 84, rfl⟩
abbrev main_call2_c_1 : Ref sig .tc := ⟨.hbm, 85, rfl⟩
abbrev main_call2_c_2 : Ref sig .tc := ⟨.hbm, 86, rfl⟩
abbrev main_call2_v6 : Ref sig .tc := ⟨.hbm, 87, rfl⟩
abbrev main_call2_v7 : Ref sig .tc := ⟨.hbm, 88, rfl⟩
abbrev main_call2_v8 : Ref sig .tc := ⟨.hbm, 89, rfl⟩
abbrev main_call2_v9 : Ref sig .tc := ⟨.hbm, 90, rfl⟩
abbrev main_call2_v10 : Ref sig .tc := ⟨.hbm, 91, rfl⟩
abbrev main_call2_v11 : Ref sig .tc := ⟨.hbm, 92, rfl⟩
abbrev main_call2_c_3 : Ref sig .tc := ⟨.hbm, 93, rfl⟩
abbrev main_call2_v12 : Ref sig .tc := ⟨.hbm, 94, rfl⟩
abbrev main_call2_v13 : Ref sig .tc := ⟨.hbm, 95, rfl⟩
abbrev main_call2_v14 : Ref sig .tc := ⟨.hbm, 96, rfl⟩
abbrev main_call2_cst : Ref sig .tc := ⟨.hbm, 97, rfl⟩
abbrev main_call2_v15 : Ref sig .tc := ⟨.hbm, 98, rfl⟩
abbrev main_v18 : Ref sig .tc := ⟨.hbm, 99, rfl⟩
abbrev main_cst_1 : Ref sig .tc := ⟨.hbm, 100, rfl⟩
abbrev main_v19 : Ref sig .tc := ⟨.hbm, 101, rfl⟩
abbrev main_v20 : Ref sig .tc := ⟨.hbm, 102, rfl⟩
abbrev main_v21 : Ref sig .tc := ⟨.hbm, 103, rfl⟩
abbrev main_cst_2 : Ref sig .tc := ⟨.hbm, 104, rfl⟩
abbrev main_v22 : Ref sig .tc := ⟨.hbm, 105, rfl⟩
abbrev main_v23 : Ref sig .tc := ⟨.hbm, 106, rfl⟩
abbrev main_v24 : Ref sig .tc := ⟨.hbm, 107, rfl⟩
abbrev main_v25 : Ref sig .tc := ⟨.hbm, 108, rfl⟩
abbrev main_v26 : Ref sig .tc := ⟨.hbm, 109, rfl⟩
abbrev main_v27 : Ref sig .tc := ⟨.hbm, 110, rfl⟩
abbrev main_v28 : Ref sig .tc := ⟨.hbm, 111, rfl⟩
abbrev main_v29 : Ref sig .tc := ⟨.hbm, 112, rfl⟩
abbrev main_v30 : Ref sig .tc := ⟨.hbm, 113, rfl⟩
abbrev main_v31 : Ref sig .tc := ⟨.hbm, 114, rfl⟩
abbrev main_v32 : Ref sig .tc := ⟨.hbm, 115, rfl⟩
abbrev main_v33 : Ref sig .tc := ⟨.hbm, 116, rfl⟩
abbrev main_v34 : Ref sig .tc := ⟨.hbm, 117, rfl⟩
abbrev main_v35 : Ref sig .tc := ⟨.hbm, 118, rfl⟩
abbrev main_call3_cst : Ref sig .tc := ⟨.hbm, 119, rfl⟩
abbrev main_call3_v0 : Ref sig .tc := ⟨.hbm, 120, rfl⟩
abbrev main_v36 : Ref sig .tc := ⟨.hbm, 121, rfl⟩
abbrev main_v37 : Ref sig .tc := ⟨.hbm, 122, rfl⟩
abbrev main_v38 : Ref sig .tc := ⟨.hbm, 123, rfl⟩
abbrev main_v39 : Ref sig .tc := ⟨.hbm, 124, rfl⟩
abbrev main_v40 : Ref sig .tc := ⟨.hbm, 125, rfl⟩
abbrev main_v41 : Ref sig .tc := ⟨.hbm, 126, rfl⟩
abbrev main_v42 : Ref sig .tc := ⟨.hbm, 127, rfl⟩
abbrev main_v43 : Ref sig .tc := ⟨.hbm, 128, rfl⟩
abbrev main_v44 : Ref sig .tc := ⟨.hbm, 129, rfl⟩
abbrev main_v45 : Ref sig .tc := ⟨.hbm, 130, rfl⟩
abbrev main_v46 : Ref sig .tc := ⟨.hbm, 131, rfl⟩
abbrev main_v47 : Ref sig .tc := ⟨.hbm, 132, rfl⟩
abbrev main_v48 : Ref sig .tc := ⟨.hbm, 133, rfl⟩
abbrev main_call4_cst : Ref sig .tc := ⟨.hbm, 134, rfl⟩
abbrev main_call4_v0 : Ref sig .tc := ⟨.hbm, 135, rfl⟩
abbrev main_v49 : Ref sig .tc := ⟨.hbm, 136, rfl⟩
abbrev main_call5_c : Ref sig .tc := ⟨.hbm, 137, rfl⟩
abbrev main_call5_v0 : Ref sig .tc := ⟨.hbm, 138, rfl⟩
abbrev main_call5_v1 : Ref sig .tc := ⟨.hbm, 139, rfl⟩
abbrev main_call5_c_0 : Ref sig .tc := ⟨.hbm, 140, rfl⟩
abbrev main_call5_v2 : Ref sig .tc := ⟨.hbm, 141, rfl⟩
abbrev main_call5_v3 : Ref sig .tc := ⟨.hbm, 142, rfl⟩
abbrev main_call5_v4 : Ref sig .tc := ⟨.hbm, 143, rfl⟩
abbrev main_call5_v5 : Ref sig .tc := ⟨.hbm, 144, rfl⟩
abbrev main_call5_c_1 : Ref sig .tc := ⟨.hbm, 145, rfl⟩
abbrev main_call5_c_2 : Ref sig .tc := ⟨.hbm, 146, rfl⟩
abbrev main_call5_v6 : Ref sig .tc := ⟨.hbm, 147, rfl⟩
abbrev main_call5_v7 : Ref sig .tc := ⟨.hbm, 148, rfl⟩
abbrev main_call5_v8 : Ref sig .tc := ⟨.hbm, 149, rfl⟩
abbrev main_call5_v9 : Ref sig .tc := ⟨.hbm, 150, rfl⟩
abbrev main_call5_v10 : Ref sig .tc := ⟨.hbm, 151, rfl⟩
abbrev main_call5_v11 : Ref sig .tc := ⟨.hbm, 152, rfl⟩
abbrev main_call5_c_3 : Ref sig .tc := ⟨.hbm, 153, rfl⟩
abbrev main_call5_v12 : Ref sig .tc := ⟨.hbm, 154, rfl⟩
abbrev main_call5_v13 : Ref sig .tc := ⟨.hbm, 155, rfl⟩
abbrev main_call5_v14 : Ref sig .tc := ⟨.hbm, 156, rfl⟩
abbrev main_call5_cst : Ref sig .tc := ⟨.hbm, 157, rfl⟩
abbrev main_call5_v15 : Ref sig .tc := ⟨.hbm, 158, rfl⟩
abbrev main_v50 : Ref sig .tc := ⟨.hbm, 159, rfl⟩
abbrev main_cst_3 : Ref sig .tc := ⟨.hbm, 160, rfl⟩
abbrev main_v51 : Ref sig .tc := ⟨.hbm, 161, rfl⟩
abbrev main_v52 : Ref sig .tc := ⟨.hbm, 162, rfl⟩
abbrev main_v53 : Ref sig .tc := ⟨.hbm, 163, rfl⟩
abbrev main_cst_4 : Ref sig .tc := ⟨.hbm, 164, rfl⟩
abbrev main_v54 : Ref sig .tc := ⟨.hbm, 165, rfl⟩
abbrev main_v55 : Ref sig .tc := ⟨.hbm, 166, rfl⟩
abbrev main_call6_c : Ref sig .tc := ⟨.hbm, 167, rfl⟩
abbrev main_call6_v0 : Ref sig .tc := ⟨.hbm, 168, rfl⟩
abbrev main_call6_v1 : Ref sig .tc := ⟨.hbm, 169, rfl⟩
abbrev main_call6_c_0 : Ref sig .tc := ⟨.hbm, 170, rfl⟩
abbrev main_call6_v2 : Ref sig .tc := ⟨.hbm, 171, rfl⟩
abbrev main_call6_v3 : Ref sig .tc := ⟨.hbm, 172, rfl⟩
abbrev main_call6_v4 : Ref sig .tc := ⟨.hbm, 173, rfl⟩
abbrev main_call6_v5 : Ref sig .tc := ⟨.hbm, 174, rfl⟩
abbrev main_call6_c_1 : Ref sig .tc := ⟨.hbm, 175, rfl⟩
abbrev main_call6_c_2 : Ref sig .tc := ⟨.hbm, 176, rfl⟩
abbrev main_call6_v6 : Ref sig .tc := ⟨.hbm, 177, rfl⟩
abbrev main_call6_v7 : Ref sig .tc := ⟨.hbm, 178, rfl⟩
abbrev main_call6_v8 : Ref sig .tc := ⟨.hbm, 179, rfl⟩
abbrev main_call6_v9 : Ref sig .tc := ⟨.hbm, 180, rfl⟩
abbrev main_call6_v10 : Ref sig .tc := ⟨.hbm, 181, rfl⟩
abbrev main_call6_v11 : Ref sig .tc := ⟨.hbm, 182, rfl⟩
abbrev main_call6_c_3 : Ref sig .tc := ⟨.hbm, 183, rfl⟩
abbrev main_call6_v12 : Ref sig .tc := ⟨.hbm, 184, rfl⟩
abbrev main_call6_v13 : Ref sig .tc := ⟨.hbm, 185, rfl⟩
abbrev main_call6_v14 : Ref sig .tc := ⟨.hbm, 186, rfl⟩
abbrev main_call6_cst : Ref sig .tc := ⟨.hbm, 187, rfl⟩
abbrev main_call6_v15 : Ref sig .tc := ⟨.hbm, 188, rfl⟩
abbrev main_v56 : Ref sig .tc := ⟨.hbm, 189, rfl⟩
abbrev main_cst_5 : Ref sig .tc := ⟨.hbm, 190, rfl⟩
abbrev main_v57 : Ref sig .tc := ⟨.hbm, 191, rfl⟩
abbrev main_v58 : Ref sig .tc := ⟨.hbm, 192, rfl⟩
abbrev main_v59 : Ref sig .tc := ⟨.hbm, 193, rfl⟩
abbrev main_cst_6 : Ref sig .tc := ⟨.hbm, 194, rfl⟩
abbrev main_v60 : Ref sig .tc := ⟨.hbm, 195, rfl⟩
abbrev main_v61 : Ref sig .tc := ⟨.hbm, 196, rfl⟩
abbrev main_v62 : Ref sig .tc := ⟨.hbm, 197, rfl⟩
abbrev main_v63 : Ref sig .tc := ⟨.hbm, 198, rfl⟩
abbrev main_v64 : Ref sig .tc := ⟨.hbm, 199, rfl⟩
abbrev main_v65 : Ref sig .tc := ⟨.hbm, 200, rfl⟩
abbrev main_v66 : Ref sig .tc := ⟨.hbm, 201, rfl⟩
abbrev main_v67 : Ref sig .tc := ⟨.hbm, 202, rfl⟩
abbrev main_v68 : Ref sig .tc := ⟨.hbm, 203, rfl⟩
abbrev main_v69 : Ref sig .tc := ⟨.hbm, 204, rfl⟩
abbrev main_v70 : Ref sig .tc := ⟨.hbm, 205, rfl⟩
abbrev main_v71 : Ref sig .tc := ⟨.hbm, 206, rfl⟩
abbrev main_v72 : Ref sig .tc := ⟨.hbm, 207, rfl⟩
abbrev main_v73 : Ref sig .tc := ⟨.hbm, 208, rfl⟩
abbrev main_call7_cst : Ref sig .tc := ⟨.hbm, 209, rfl⟩
abbrev main_call7_v0 : Ref sig .tc := ⟨.hbm, 210, rfl⟩
abbrev main_v74 : Ref sig .tc := ⟨.hbm, 211, rfl⟩
abbrev main_v75 : Ref sig .tc := ⟨.hbm, 212, rfl⟩
abbrev main_v76 : Ref sig .tc := ⟨.hbm, 213, rfl⟩
abbrev main_v77 : Ref sig .tc := ⟨.hbm, 214, rfl⟩
abbrev main_v78 : Ref sig .tc := ⟨.hbm, 215, rfl⟩
abbrev main_v79 : Ref sig .tc := ⟨.hbm, 216, rfl⟩
abbrev main_v80 : Ref sig .tc := ⟨.hbm, 217, rfl⟩
abbrev main_v81 : Ref sig .tc := ⟨.hbm, 218, rfl⟩
abbrev main_v82 : Ref sig .tc := ⟨.hbm, 219, rfl⟩
abbrev main_v83 : Ref sig .tc := ⟨.hbm, 220, rfl⟩
abbrev main_v84 : Ref sig .tc := ⟨.hbm, 221, rfl⟩
abbrev main_v85 : Ref sig .tc := ⟨.hbm, 222, rfl⟩
abbrev main_v86 : Ref sig .tc := ⟨.hbm, 223, rfl⟩
abbrev main_call8_cst : Ref sig .tc := ⟨.hbm, 224, rfl⟩
abbrev main_call8_v0 : Ref sig .tc := ⟨.hbm, 225, rfl⟩
abbrev main_v87 : Ref sig .tc := ⟨.hbm, 226, rfl⟩
abbrev main_v88 : Ref sig .tc := ⟨.hbm, 227, rfl⟩
abbrev main_v89 : Ref sig .tc := ⟨.hbm, 228, rfl⟩
abbrev main_v90 : Ref sig .tc := ⟨.hbm, 229, rfl⟩
abbrev main_v91 : Ref sig .tc := ⟨.hbm, 230, rfl⟩

abbrev nD : Nat := 1
abbrev τ : Topo := Topo.v7x

variable {F : FTy → Type} [FloatOps F]

class Facts₀ : Prop where
  bcast_S_S32 : S_.BroadcastsInDim S32 (![] : Fin 0 → Fin S32.rank)
  bcast_S32_S32x1_0 : S32.BroadcastsInDim S32x1 (![0] : Fin 1 → Fin S32x1.rank)
  bcast_S_S32x1 : S_.BroadcastsInDim S32x1 (![] : Fin 0 → Fin S32x1.rank)
  bcast_S1_S1x1_1 : S1.BroadcastsInDim S1x1 (![1] : Fin 1 → Fin S1x1.rank)
  bcast_S1x1_S32x1_0_1 : S1x1.BroadcastsInDim S32x1 (![0, 1] : Fin 2 → Fin S32x1.rank)
  reducesTo_S32x1_S32_d1 : S32x1.ReducesTo [1] S32
  h_S_ : 0 < S_.numel
  bcast_S32_S32x128_0 : S32.BroadcastsInDim S32x128 (![0] : Fin 1 → Fin S32x128.rank)
  bcast_S_S32x128 : S_.BroadcastsInDim S32x128 (![] : Fin 0 → Fin S32x128.rank)
  bcast_S10000_S10000x32_0 : S10000.BroadcastsInDim S10000x32 (![0] : Fin 1 → Fin S10000x32.rank)
  shapeCasts_S10000x32_S320000 : S10000x32.ShapeCasts S320000
  shapeCasts_S32_S1x32 : S32.ShapeCasts S1x32
  bcast_S1x32_S10000x32_0_1 : S1x32.BroadcastsInDim S10000x32 (![0, 1] : Fin 2 → Fin S10000x32.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1x1_S320000x1_0_1 : S1x1.BroadcastsInDim S320000x1 (![0, 1] : Fin 2 → Fin S320000x1.rank)
  reducesTo_S320000x1_S320000_d1 : S320000x1.ReducesTo [1] S320000
  bcast_S320000_S320000x128_0 : S320000.BroadcastsInDim S320000x128 (![0] : Fin 1 → Fin S320000x128.rank)
  bcast_S_S320000x128 : S_.BroadcastsInDim S320000x128 (![] : Fin 0 → Fin S320000x128.rank)
  bcast_S_S10000x128 : S_.BroadcastsInDim S10000x128 (![] : Fin 0 → Fin S10000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  bcast_S1x128_S32x128_0_1 : S1x128.BroadcastsInDim S32x128 (![0, 1] : Fin 2 → Fin S32x128.rank)
  slices_S2x128x128_S1x128x128_1_0_0 : S2x128x128.Slices ![1, 0, 0] S1x128x128
  slices_S2x128_S1x128_1_0 : S2x128.Slices ![1, 0] S1x128
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  gather_S512x128_S32x1_S32x128_1_0_n_n_0_1_1128_wf : GatherDims.WF S512x128 S32x1 S32x128 [1] [0] [] [0] [] 1 ![1, 128]
  dot_S10000x256_S256x128_S10000x128_1_0_0_1_n_n_wf : DotDims.WF S10000x256 S256x128 S10000x128 [1] [0] [0] [1] [] []
  gather_S10000x128_S320000x1_S320000x128_1_0_n_n_0_1_1128_wf : GatherDims.WF S10000x128 S320000x1 S320000x128 [1] [0] [] [0] [] 1 ![1, 128]
  scatter_S32x128_S320000x1_S320000x128_1_0_0_1_wf : ScatterDims.WF S32x128 S320000x1 S320000x128 [1] [0] [0] 1
  gather_S32x128_S320000x1_S320000x128_1_0_n_n_0_1_1128_wf : GatherDims.WF S32x128 S320000x1 S320000x128 [1] [0] [] [0] [] 1 ![1, 128]
  scatter_S10000x128_S320000x1_S320000x128_1_0_0_1_wf : ScatterDims.WF S10000x128 S320000x1 S320000x128 [1] [0] [0] 1
  dot_S32x128_S128x128_S32x128_1_0_0_1_n_n_wf : DotDims.WF S32x128 S128x128 S32x128 [1] [0] [0] [1] [] []
  dot_S10000x128_S128x128_S10000x128_1_0_0_1_n_n_wf : DotDims.WF S10000x128 S128x128 S10000x128 [1] [0] [0] [1] [] []
  dot_S10000x128_S128x256_S10000x256_1_0_0_1_n_n_wf : DotDims.WF S10000x128 S128x256 S10000x256 [1] [0] [0] [1] [] []

variable [Facts₀]

def gather_S512x128_S32x1_S32x128_1_0_n_n_0_1_1128 : GatherDims S512x128 S32x1 S32x128 where
  offsetDims := [1]
  collapsedSliceDims := [0]
  operandBatchingDims := []
  startIndicesBatchingDims := []
  startIndexMap := [0]
  indexVectorDim := 1
  sliceSizes := ![1, 128]
  wf := gather_S512x128_S32x1_S32x128_1_0_n_n_0_1_1128_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def scatter_S32x128_S320000x1_S320000x128_1_0_0_1 : ScatterDims S32x128 S320000x1 S320000x128 where
  updateWindowDims := [1]
  insertedWindowDims := [0]
  scatterDimsToOperandDims := [0]
  indexVectorDim := 1
  wf := scatter_S32x128_S320000x1_S320000x128_1_0_0_1_wf
def gather_S32x128_S320000x1_S320000x128_1_0_n_n_0_1_1128 : GatherDims S32x128 S320000x1 S320000x128 where
  offsetDims := [1]
  collapsedSliceDims := [0]
  operandBatchingDims := []
  startIndicesBatchingDims := []
  startIndexMap := [0]
  indexVectorDim := 1
  sliceSizes := ![1, 128]
  wf := gather_S32x128_S320000x1_S320000x128_1_0_n_n_0_1_1128_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def dot_S32x128_S128x128_S32x128_1_0_0_1_n_n : DotDims S32x128 S128x128 S32x128 where
  lhsContracting := [1]
  rhsContracting := [0]
  lhsNonContracting := [0]
  rhsNonContracting := [1]
  lhsBatch := []
  rhsBatch := []
  wf := dot_S32x128_S128x128_S32x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf

class Facts : Prop extends Facts₀ where

variable [Facts]
-- ==== Proof.K.R0Runs.lean ====
import proofs.«101073_g24988119728772_cont_9to1_1483_2_alg».proof.Proof.Gen.Kernel.Launch
import proofs.«101073_g24988119728772_cont_9to1_1483_2_alg».proof.Proof.Gen.Kernel.Skeleton
import proofs.«101073_g24988119728772_cont_9to1_1483_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Entry

variable (V : (c : Dev nD) → (b : Ref sig .tc) → Buf (Elt F) ((c : Thread nD τ).loc b))

/-- Window `w`'s block at grid point `t`, read off its array as the call finds it. -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

end Entry

/-- The body's two branches: the carried row is reset at grid point 0, the result is computed and stored at grid point 9. -/
noncomputable abbrev cond0_0 (i : grid0.Coords) : Prop := (Scalar.cmpi .ne (Scalar.extui (Scalar.cmpi .eq (BitVec.ofNat 32 (i 0).val) 0#32)) 0#32) = 1#1

theorem hcond0_0 : ∀ t : Fin cfg0.N, cond0_0 (grid0.coords t) ↔ t.val = 0 :=
  (by decide +kernel : ∀ t : Fin grid0.N, cond0_0 (grid0.coords t) ↔ t.val = 0)

noncomputable abbrev cond0_1 (i : grid0.Coords) : Prop := k0_cond2 i = 1#1

theorem hcond0_1 : ∀ t : Fin cfg0.N, cond0_1 (grid0.coords t) ↔ t.val = 9 :=
  (by decide +kernel : ∀ t : Fin grid0.N, cond0_1 (grid0.coords t) ↔ t.val = 9)

/-- Away from grid point 9 the body stores nothing into the result window. -/
theorem idleAt0_11 : ∀ t : Fin cfg0.N, ¬cond0_1 (grid0.coords t) → cfg0.idle 11 (grid0.coords t) = true := by decide +kernel
theorem noFlush0_11 : ∀ t : Fin cfg0.N, ¬cond0_1 (grid0.coords t) → (cfg0.win 11).flush t = false := by decide +kernel

theorem liveAt0_11 : ∀ t : Fin cfg0.N, cond0_1 (grid0.coords t) → cfg0.idle 11 (grid0.coords t) = false := by decide +kernel

noncomputable abbrev VO0_11 : View sig .tc .vmem S2x128 .f32 := (Memref.whole cc0_stg11_0 : Memref sig .tc .vmem S2x128 .f32).view
noncomputable abbrev ms0_0 (t : Fin cfg0.N) : Memref sig .tc .vmem S1000x256 .f32 := win0_0.stage (cfg0.slots t 0)
noncomputable abbrev hs0_0 (t : Fin cfg0.N) : (ms0_0 t).IsWhole := hstage0_0 ((cfg0.slots t 0).cast nbuf0_0)
noncomputable abbrev ms0_1 (t : Fin cfg0.N) : Memref sig .tc .vmem S32x1 .i32 := win0_1.stage (cfg0.slots t 1)
noncomputable abbrev hs0_1 (t : Fin cfg0.N) : (ms0_1 t).IsWhole := hstage0_1 ((cfg0.slots t 1).cast nbuf0_1)
noncomputable abbrev ms0_2 (t : Fin cfg0.N) : Memref sig .tc .vmem S512x128 .f32 := win0_2.stage (cfg0.slots t 2)
noncomputable abbrev hs0_2 (t : Fin cfg0.N) : (ms0_2 t).IsWhole := hstage0_2 ((cfg0.slots t 2).cast nbuf0_2)
noncomputable abbrev ms0_3 (t : Fin cfg0.N) : Memref sig .tc .vmem S256x128 .f32 := win0_3.stage (cfg0.slots t 3)
noncomputable abbrev hs0_3 (t : Fin cfg0.N) : (ms0_3 t).IsWhole := hstage0_3 ((cfg0.slots t 3).cast nbuf0_3)
noncomputable abbrev ms0_4 (t : Fin cfg0.N) : Memref sig .tc .vmem S1x128 .f32 := win0_4.stage (cfg0.slots t 4)
noncomputable abbrev hs0_4 (t : Fin cfg0.N) : (ms0_4 t).IsWhole := hstage0_4 ((cfg0.slots t 4).cast nbuf0_4)
noncomputable abbrev ms0_5 (t : Fin cfg0.N) : Memref sig .tc .vmem S128x128 .f32 := win0_5.stage (cfg0.slots t 5)
noncomputable abbrev hs0_5 (t : Fin cfg0.N) : (ms0_5 t).IsWhole := hstage0_5 ((cfg0.slots t 5).cast nbuf0_5)
noncomputable abbrev ms0_6 (t : Fin cfg0.N) : Memref sig .tc .vmem S128x128 .f32 := win0_6.stage (cfg0.slots t 6)
noncomputable abbrev hs0_6 (t : Fin cfg0.N) : (ms0_6 t).IsWhole := hstage0_6 ((cfg0.slots t 6).cast nbuf0_6)
noncomputable abbrev ms0_7 (t : Fin cfg0.N) : Memref sig .tc .vmem S1x128 .f32 := win0_7.stage (cfg0.slots t 7)
noncomputable abbrev hs0_7 (t : Fin cfg0.N) : (ms0_7 t).IsWhole := hstage0_7 ((cfg0.slots t 7).cast nbuf0_7)
noncomputable abbrev ms0_8 (t : Fin cfg0.N) : Memref sig .tc .vmem S128x128 .f32 := win0_8.stage (cfg0.slots t 8)
noncomputable abbrev hs0_8 (t : Fin cfg0.N) : (ms0_8 t).IsWhole := hstage0_8 ((cfg0.slots t 8).cast nbuf0_8)
noncomputable abbrev ms0_9 (t : Fin cfg0.N) : Memref sig .tc .vmem S128x128 .f32 := win0_9.stage (cfg0.slots t 9)
noncomputable abbrev hs0_9 (t : Fin cfg0.N) : (ms0_9 t).IsWhole := hstage0_9 ((cfg0.slots t 9).cast nbuf0_9)
noncomputable abbrev ms0_10 (t : Fin cfg0.N) : Memref sig .tc .vmem S2x128 .f32 := win0_10.stage (cfg0.slots t 10)
noncomputable abbrev hs0_10 (t : Fin cfg0.N) : (ms0_10 t).IsWhole := hstage0_10 ((cfg0.slots t 10).cast nbuf0_10)
noncomputable abbrev ms0_11 (t : Fin cfg0.N) : Memref sig .tc .vmem S2x128 .f32 := win0_11.stage (cfg0.slots t 11)
noncomputable abbrev hs0_11 (t : Fin cfg0.N) : (ms0_11 t).IsWhole := hstage0_11 ((cfg0.slots t 11).cast nbuf0_11)

noncomputable abbrev scM0_0 : Memref sig .tc .vmem S1x256 .f32 := Memref.whole cc0_scratch0

noncomputable abbrev VS0_0 : View sig .tc .vmem S1x256 .f32 := scM0_0.view

/-- The thirteen whole buffers the first kernel function is called on. -/
structure Bufs0 where
  a1 : Memref sig .tc .vmem S1000x256 .f32
  h1 : a1.IsWhole
  a2 : Memref sig .tc .vmem S32x1 .i32
  h2 : a2.IsWhole
  a3 : Memref sig .tc .vmem S512x128 .f32
  h3 : a3.IsWhole
  a4 : Memref sig .tc .vmem S256x128 .f32
  h4 : a4.IsWhole
  a5 : Memref sig .tc .vmem S1x128 .f32
  h5 : a5.IsWhole
  a6 : Memref sig .tc .vmem S128x128 .f32
  h6 : a6.IsWhole
  a7 : Memref sig .tc .vmem S128x128 .f32
  h7 : a7.IsWhole
  a8 : Memref sig .tc .vmem S1x128 .f32
  h8 : a8.IsWhole
  a9 : Memref sig .tc .vmem S128x128 .f32
  h9 : a9.IsWhole
  a10 : Memref sig .tc .vmem S128x128 .f32
  h10 : a10.IsWhole
  a11 : Memref sig .tc .vmem S2x128 .f32
  h11 : a11.IsWhole
  a12 : Memref sig .tc .vmem S2x128 .f32
  h12 : a12.IsWhole
  a13 : Memref sig .tc .vmem S1x256 .f32
  h13 : a13.IsWhole

/-- The eleven input windows' blocks. -/
structure Ins0 (F : FTy → Type) where
  x0 : Vec F S1000x256 .f32
  x1 : Vec F S32x1 .i32
  x2 : Vec F S512x128 .f32
  x3 : Vec F S256x128 .f32
  x4 : Vec F S1x128 .f32
  x5 : Vec F S128x128 .f32
  x6 : Vec F S128x128 .f32
  x7 : Vec F S1x128 .f32
  x8 : Vec F S128x128 .f32
  x9 : Vec F S128x128 .f32
  x10 : Vec F S2x128 .f32

/-- The buffers at grid point `t`. -/
noncomputable abbrev bufs0 (t : Fin cfg0.N) : Bufs0 :=
  ⟨ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, ms0_9 t, hs0_9 t, ms0_10 t, hs0_10 t, ms0_11 t, hs0_11 t, scM0_0, Memref.isWhole_whole _⟩

/-- The other call's buffers, which this call never touches, each at some contents. -/
noncomputable def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f))

/-- What the call is entered with: the carried row at some contents, beside what it never touches. -/
theorem PhiA0_eq (c : Dev nD) :
    (Pipeline.ΦA spec0 c : sProp 𝕄)
      = iprop(iprop((∃ d, owns (c : Thread nD τ) scM0_0 fullShare d) ∗ rest0 (F := F) c) ∗ (∃ r, prngReg c r)) := by
  unfold Pipeline.ΦA rest0; rw [scopedRest0_eq]; simp only [scM0_0, owns_whole]; try rfl

end Cert.Kernel.Hand

end
-- ==== Proof.K.R0RunA.lean ====
import proofs.«101073_g24988119728772_cont_9to1_1483_2_alg».proof.Proof.K.R0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- Grid point 0: the carried row is reset and the block's column sums are added to it; what the run stores into the row it finds as a list of pieces. -/
noncomputable def kernelRun0_A (c : Dev nD) (i : grid0.Coords) (b : Bufs0) (hc0 : cond0_0 i) (hc1 : ¬cond0_1 i)
    (x0 : Vec F S1000x256 .f32) :
    { LS0 : List (View.Piece (Elt F) S1x256 .f32) //
      ∀ (E : Set ℕ) (K : PUnit → sProp 𝕄),
        iprop(owns (c : Thread nD τ) b.a1 fullShare x0 ∗ (∃ d, owns (c : Thread nD τ) b.a13 fullShare d)
            ∗ (iprop(owns (c : Thread nD τ) b.a1 fullShare x0 ∗ (∃ f, b.a13.view.loc (c : Thread nD τ) ↦[b.a13.view.set]{fullShare} b.a13.view.writes (Elt F) f LS0)) -∗ K ⟨⟩))
          ⊢ wp frame (wpE (defs₀ (F := F)) Variants.none c none) E (cc0__prep_kernel i b.a1 b.h1 b.a2 b.h2 b.a3 b.h3 b.a4 b.h4 b.a5 b.h5 b.a6 b.h6 b.a7 b.h7 b.a8 b.h8 b.a9 b.h9 b.a10 b.h10 b.a11 b.h11 b.a12 b.h12 b.a13 b.h13) K } := by
  refine ⟨?_, fun E K => ?run⟩
  case run =>
    simp only [cc0__prep_kernel_eq_skeleton]; unfold cc0__prep_kernel_skel
    simp only [k0_part1_eq_skeleton]
    unfold owns
    iintro ⟨⟨%f0, %hf0, H0⟩, ⟨%ds0, %fs0, -, HS0⟩, Hk⟩
    obtain rfl := b.h1.eq_unread hf0
    sl_exec (disch := first | exact hc0 | exact hc1)
    sl_step
    iapply Hk
    isplitl [H0]
    · iexists _; isplitr; · ipureintro; exact b.h1.read_unread _
      iexact H0
    iexists _; iexact HS0

end Cert.Kernel.Hand

end
-- ==== Proof.K.R0RunB.lean ====
import proofs.«101073_g24988119728772_cont_9to1_1483_2_alg».proof.Proof.K.R0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- Grid points 1 to 8: the block's column sums are added to the carried row. -/
noncomputable def kernelRun0_B (c : Dev nD) (i : grid0.Coords) (b : Bufs0) (hc0 : ¬cond0_0 i) (hc1 : ¬cond0_1 i)
    (x0 : Vec F S1000x256 .f32) (xs0 : Vec F S1x256 .f32) :
    { LS0 : List (View.Piece (Elt F) S1x256 .f32) //
      ∀ (E : Set ℕ) (K : PUnit → sProp 𝕄),
        iprop(owns (c : Thread nD τ) b.a1 fullShare x0 ∗ owns (c : Thread nD τ) b.a13 fullShare xs0
            ∗ (iprop(owns (c : Thread nD τ) b.a1 fullShare x0 ∗ (∃ f, b.a13.view.loc (c : Thread nD τ) ↦[b.a13.view.set]{fullShare} b.a13.view.writes (Elt F) f LS0)) -∗ K ⟨⟩))
          ⊢ wp frame (wpE (defs₀ (F := F)) Variants.none c none) E (cc0__prep_kernel i b.a1 b.h1 b.a2 b.h2 b.a3 b.h3 b.a4 b.h4 b.a5 b.h5 b.a6 b.h6 b.a7 b.h7 b.a8 b.h8 b.a9 b.h9 b.a10 b.h10 b.a11 b.h11 b.a12 b.h12 b.a13 b.h13) K } := by
  refine ⟨?_, fun E K => ?run⟩
  case run =>
    simp only [cc0__prep_kernel_eq_skeleton]; unfold cc0__prep_kernel_skel
    simp only [k0_part1_eq_skeleton]
    unfold owns
    iintro ⟨⟨%f0, %hf0, H0⟩, ⟨%fs0, %hfs0, HS0⟩, Hk⟩
    obtain rfl := b.h1.eq_unread hf0; obtain rfl := b.h13.eq_unread hfs0
    sl_exec (disch := first | exact hc0 | exact hc1)
    sl_step
    iapply Hk
    isplitl [H0]
    · iexists _; isplitr; · ipureintro; exact b.h1.read_unread _
      iexact H0
    iexists _; iexact HS0

end Cert.Kernel.Hand

end
-- ==== Proof.K.R0RunC.lean ====
import proofs.«101073_g24988119728772_cont_9to1_1483_2_alg».proof.Proof.K.R0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- Grid point 9: the last column sums are added, then the two result rows are computed from the finished sums and the ten small operands and stored. -/
noncomputable def kernelRun0_C (c : Dev nD) (i : grid0.Coords) (b : Bufs0) (hc0 : ¬cond0_0 i) (hc1 : cond0_1 i)
    (x : Ins0 F) (xs0 : Vec F S1x256 .f32) :
    Σ' (L11 : List (View.Piece (Elt F) S2x128 .f32)), { LS0 : List (View.Piece (Elt F) S1x256 .f32) //
      ∀ (E : Set ℕ) (K : PUnit → sProp 𝕄),
        iprop(owns (c : Thread nD τ) b.a1 fullShare x.x0 ∗ owns (c : Thread nD τ) b.a2 fullShare x.x1 ∗ owns (c : Thread nD τ) b.a3 fullShare x.x2 ∗ owns (c : Thread nD τ) b.a4 fullShare x.x3 ∗ owns (c : Thread nD τ) b.a5 fullShare x.x4 ∗ owns (c : Thread nD τ) b.a6 fullShare x.x5 ∗ owns (c : Thread nD τ) b.a7 fullShare x.x6 ∗ owns (c : Thread nD τ) b.a8 fullShare x.x7 ∗ owns (c : Thread nD τ) b.a9 fullShare x.x8 ∗ owns (c : Thread nD τ) b.a10 fullShare x.x9 ∗ owns (c : Thread nD τ) b.a11 fullShare x.x10 ∗ (∃ d, owns (c : Thread nD τ) b.a12 fullShare d) ∗ owns (c : Thread nD τ) b.a13 fullShare xs0
            ∗ (iprop(owns (c : Thread nD τ) b.a1 fullShare x.x0 ∗ owns (c : Thread nD τ) b.a2 fullShare x.x1 ∗ owns (c : Thread nD τ) b.a3 fullShare x.x2 ∗ owns (c : Thread nD τ) b.a4 fullShare x.x3 ∗ owns (c : Thread nD τ) b.a5 fullShare x.x4 ∗ owns (c : Thread nD τ) b.a6 fullShare x.x5 ∗ owns (c : Thread nD τ) b.a7 fullShare x.x6 ∗ owns (c : Thread nD τ) b.a8 fullShare x.x7 ∗ owns (c : Thread nD τ) b.a9 fullShare x.x8 ∗ owns (c : Thread nD τ) b.a10 fullShare x.x9 ∗ owns (c : Thread nD τ) b.a11 fullShare x.x10 ∗ (∃ f, b.a12.view.loc (c : Thread nD τ) ↦[b.a12.view.set]{fullShare} b.a12.view.writes (Elt F) f L11) ∗ (∃ f, b.a13.view.loc (c : Thread nD τ) ↦[b.a13.view.set]{fullShare} b.a13.view.writes (Elt F) f LS0)) -∗ K ⟨⟩))
          ⊢ wp frame (wpE (defs₀ (F := F)) Variants.none c none) E (cc0__prep_kernel i b.a1 b.h1 b.a2 b.h2 b.a3 b.h3 b.a4 b.h4 b.a5 b.h5 b.a6 b.h6 b.a7 b.h7 b.a8 b.h8 b.a9 b.h9 b.a10 b.h10 b.a11 b.h11 b.a12 b.h12 b.a13 b.h13) K } := by
  refine ⟨?_, ?_, fun E K => ?run⟩
  case run =>
    simp only [cc0__prep_kernel_eq_skeleton]; unfold cc0__prep_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs0, %hfs0, HS0⟩, Hk⟩
    obtain rfl := b.h1.eq_unread hf0; obtain rfl := b.h2.eq_unread hf1; obtain rfl := b.h3.eq_unread hf2; obtain rfl := b.h4.eq_unread hf3; obtain rfl := b.h5.eq_unread hf4; obtain rfl := b.h6.eq_unread hf5; obtain rfl := b.h7.eq_unread hf6; obtain rfl := b.h8.eq_unread hf7; obtain rfl := b.h9.eq_unread hf8; obtain rfl := b.h10.eq_unread hf9; obtain rfl := b.h11.eq_unread hf10; obtain rfl := b.h13.eq_unread hfs0
    sl_exec (disch := first | exact hc0 | exact hc1)
    sl_step
    iapply Hk
    isplitl [H0]
    · iexists _; isplitr; · ipureintro; exact b.h1.read_unread _
      iexact H0
    isplitl [H1]
    · iexists _; isplitr; · ipureintro; exact b.h2.read_unread _
      iexact H1
    isplitl [H2]
    · iexists _; isplitr; · ipureintro; exact b.h3.read_unread _
      iexact H2
    isplitl [H3]
    · iexists _; isplitr; · ipureintro; exact b.h4.read_unread _
      iexact H3
    isplitl [H4]
    · iexists _; isplitr; · ipureintro; exact b.h5.read_unread _
      iexact H4
    isplitl [H5]
    · iexists _; isplitr; · ipureintro; exact b.h6.read_unread _
      iexact H5
    isplitl [H6]
    · iexists _; isplitr; · ipureintro; exact b.h7.read_unread _
      iexact H6
    isplitl [H7]
    · iexists _; isplitr; · ipureintro; exact b.h8.read_unread _
      iexact H7
    isplitl [H8]
    · iexists _; isplitr; · ipureintro; exact b.h9.read_unread _
      iexact H8
    isplitl [H9]
    · iexists _; isplitr; · ipureintro; exact b.h10.read_unread _
      iexact H9
    isplitl [H10]
    · iexists _; isplitr; · ipureintro; exact b.h11.read_unread _
      iexact H10
    isplitl [H11]; · iexists _; iexact H11
    iexists _; iexact HS0

end Cert.Kernel.Hand

end
-- ==== Proof.K.R0.lean ====
import proofs.«101073_g24988119728772_cont_9to1_1483_2_alg».proof.Proof.K.R0RunA
import proofs.«101073_g24988119728772_cont_9to1_1483_2_alg».proof.Proof.K.R0RunB
import proofs.«101073_g24988119728772_cont_9to1_1483_2_alg».proof.Proof.K.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The pieces a run stores into a buffer tile it; read back, they are what the run leaves there. -/
theorem scover0_A_0 (c : Dev nD) (i : grid0.Coords) (b : Bufs0) (hc0 : cond0_0 i) (hc1 : ¬cond0_1 i)
    (x0 : Vec F S1000x256 .f32) (y : S1x256.Idx) :
    ∃ pc ∈ (kernelRun0_A c i b hc0 hc1 x0).1, y ∈ pc.1.set :=
  View.cover_of_tiledL (kernelRun0_A c i b hc0 hc1 x0).1 S1x256.size (by sl_kernel_rfl) y

noncomputable def sout0_A_0 (c : Dev nD) (i : grid0.Coords) (b : Bufs0) (hc0 : cond0_0 i) (hc1 : ¬cond0_1 i)
    (x0 : Vec F S1000x256 .f32) : Vec F S1x256 .f32 :=
  VS0_0.read (Elt F) (VS0_0.writes (Elt F) VS0_0.junk (kernelRun0_A c i b hc0 hc1 x0).1)

theorem scover0_B_0 (c : Dev nD) (i : grid0.Coords) (b : Bufs0) (hc0 : ¬cond0_0 i) (hc1 : ¬cond0_1 i)
    (x0 : Vec F S1000x256 .f32) (xs0 : Vec F S1x256 .f32) (y : S1x256.Idx) :
    ∃ pc ∈ (kernelRun0_B c i b hc0 hc1 x0 xs0).1, y ∈ pc.1.set :=
  View.cover_of_tiledL (kernelRun0_B c i b hc0 hc1 x0 xs0).1 S1x256.size (by sl_kernel_rfl) y

noncomputable def sout0_B_0 (c : Dev nD) (i : grid0.Coords) (b : Bufs0) (hc0 : ¬cond0_0 i) (hc1 : ¬cond0_1 i)
    (x0 : Vec F S1000x256 .f32) (xs0 : Vec F S1x256 .f32) : Vec F S1x256 .f32 :=
  VS0_0.read (Elt F) (VS0_0.writes (Elt F) VS0_0.junk (kernelRun0_B c i b hc0 hc1 x0 xs0).1)

theorem cover0_C_11 (c : Dev nD) (i : grid0.Coords) (b : Bufs0) (hc0 : ¬cond0_0 i) (hc1 : cond0_1 i)
    (x : Ins0 F) (xs0 : Vec F S1x256 .f32) (y : S2x128.Idx) :
    ∃ pc ∈ (kernelRun0_C c i b hc0 hc1 x xs0).1, y ∈ pc.1.set :=
  View.cover_of_tiledL (kernelRun0_C c i b hc0 hc1 x xs0).1 S2x128.size (by sl_kernel_rfl) y

noncomputable def out0_C_11 (c : Dev nD) (i : grid0.Coords) (b : Bufs0) (hc0 : ¬cond0_0 i) (hc1 : cond0_1 i)
    (x : Ins0 F) (xs0 : Vec F S1x256 .f32) : Vec F S2x128 .f32 :=
  VO0_11.read (Elt F) (VO0_11.writes (Elt F) VO0_11.junk (kernelRun0_C c i b hc0 hc1 x xs0).1)

theorem scover0_C_0 (c : Dev nD) (i : grid0.Coords) (b : Bufs0) (hc0 : ¬cond0_0 i) (hc1 : cond0_1 i)
    (x : Ins0 F) (xs0 : Vec F S1x256 .f32) (y : S1x256.Idx) :
    ∃ pc ∈ (kernelRun0_C c i b hc0 hc1 x xs0).2.1, y ∈ pc.1.set :=
  View.cover_of_tiledL (kernelRun0_C c i b hc0 hc1 x xs0).2.1 S1x256.size (by sl_kernel_rfl) y

noncomputable def sout0_C_0 (c : Dev nD) (i : grid0.Coords) (b : Bufs0) (hc0 : ¬cond0_0 i) (hc1 : cond0_1 i)
    (x : Ins0 F) (xs0 : Vec F S1x256 .f32) : Vec F S1x256 .f32 :=
  VS0_0.read (Elt F) (VS0_0.writes (Elt F) VS0_0.junk (kernelRun0_C c i b hc0 hc1 x xs0).2.1)

/-- At the grid points where the body stores nothing into the result window, a placeholder stands for its contents. -/
noncomputable def out0_idle_11 : Vec F S2x128 .f32 := VO0_11.read (Elt F) VO0_11.junk

variable (V : (c : Dev nD) → (b : Ref sig .tc) → Buf (Elt F) ((c : Thread nD τ).loc b))

/-- The input blocks at grid point `t`. -/
noncomputable abbrev ins0 (c : Dev nD) (t : Fin cfg0.N) : Ins0 F :=
  ⟨iblk0 V c 0 t, iblk0 V c 1 t, iblk0 V c 2 t, iblk0 V c 3 t, iblk0 V c 4 t, iblk0 V c 5 t, iblk0 V c 6 t, iblk0 V c 7 t, iblk0 V c 8 t, iblk0 V c 9 t, iblk0 V c 10 t⟩

/-- The result window's buffer and the carried row after each grid point: the first case at 0, the last at 9, the middle one between, each over what the point before left. -/
noncomputable def outsAt0 (c : Dev nD) : (n : ℕ) → n < cfg0.N → Vec F S2x128 .f32 × Vec F S1x256 .f32
  | 0, hn => (out0_idle_11, sout0_A_0 c (grid0.coords ⟨0, hn⟩) (bufs0 ⟨0, hn⟩) ((hcond0_0 ⟨0, hn⟩).mpr rfl) (fun h => absurd (show (0 : ℕ) = 9 from (hcond0_1 ⟨0, hn⟩).mp h) (by decide)) (iblk0 V c 0 ⟨0, hn⟩))
  | n + 1, hn =>
    if h1 : n + 1 = 9 then
      (out0_C_11 c (grid0.coords ⟨n + 1, hn⟩) (bufs0 ⟨n + 1, hn⟩) (fun h => Nat.succ_ne_zero n ((hcond0_0 ⟨n + 1, hn⟩).mp h)) ((hcond0_1 ⟨n + 1, hn⟩).mpr h1) (ins0 V c ⟨n + 1, hn⟩) (outsAt0 c n (Nat.lt_of_succ_lt hn)).2,
       sout0_C_0 c (grid0.coords ⟨n + 1, hn⟩) (bufs0 ⟨n + 1, hn⟩) (fun h => Nat.succ_ne_zero n ((hcond0_0 ⟨n + 1, hn⟩).mp h)) ((hcond0_1 ⟨n + 1, hn⟩).mpr h1) (ins0 V c ⟨n + 1, hn⟩) (outsAt0 c n (Nat.lt_of_succ_lt hn)).2)
    else
      (out0_idle_11, sout0_B_0 c (grid0.coords ⟨n + 1, hn⟩) (bufs0 ⟨n + 1, hn⟩) (fun h => Nat.succ_ne_zero n ((hcond0_0 ⟨n + 1, hn⟩).mp h)) (fun h => h1 ((hcond0_1 ⟨n + 1, hn⟩).mp h)) (iblk0 V c 0 ⟨n + 1, hn⟩) (outsAt0 c n (Nat.lt_of_succ_lt hn)).2)

theorem outsAt0_A (c : Dev nD) (t : Fin cfg0.N) (h0 : t.val = 0) :
    outsAt0 V c t.val t.isLt = (out0_idle_11, sout0_A_0 c (grid0.coords t) (bufs0 t) ((hcond0_0 t).mpr h0) (fun h => absurd (h0.symm.trans ((hcond0_1 t).mp h)) (by decide)) (iblk0 V c 0 t)) := by
  obtain ⟨n, hn⟩ := t
  cases n with
  | zero => exact rfl
  | succ n => exact absurd h0 (Nat.succ_ne_zero n)

theorem outsAt0_B (c : Dev nD) (t : Fin cfg0.N) (h0 : ¬t.val = 0) (h1 : ¬t.val = 9) :
    outsAt0 V c t.val t.isLt = (out0_idle_11, sout0_B_0 c (grid0.coords t) (bufs0 t) (fun h => h0 ((hcond0_0 t).mp h)) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact absurd rfl h0
  | succ n => exact (dif_neg h1).trans rfl

theorem outsAt0_C (c : Dev nD) (t : Fin cfg0.N) (h1 : t.val = 9) :
    outsAt0 V c t.val t.isLt = (out0_C_11 c (grid0.coords t) (bufs0 t) (fun h => absurd (h1.symm.trans ((hcond0_0 t).mp h)) (by decide)) ((hcond0_1 t).mpr h1) (ins0 V c t) (outsAt0 V c (t.val - 1) (Nat.lt_of_le_of_lt (Nat.sub_le _ _) t.isLt)).2,
      sout0_C_0 c (grid0.coords t) (bufs0 t) (fun h => absurd (h1.symm.trans ((hcond0_0 t).mp h)) (by decide)) ((hcond0_1 t).mpr h1) (ins0 V c t) (outsAt0 V c (t.val - 1) (Nat.lt_of_le_of_lt (Nat.sub_le _ _) t.isLt)).2) := by
  obtain ⟨n, hn⟩ := t
  cases n with
  | zero => exact absurd (show (0 : ℕ) = 9 from h1) (by decide)
  | succ n => exact (dif_pos h1).trans rfl

/-- Before grid point `n > 0` the carried row holds what point `n - 1` left in it. -/
noncomputable def PhiS0 (c : Dev nD) : (n : ℕ) → n ≤ cfg0.N → sProp 𝕄
  | 0, _ => (Pipeline.ΦA spec0 c : sProp 𝕄)
  | n + 1, hn => iprop(iprop(owns (c : Thread nD τ) scM0_0 fullShare ((outsAt0 V c n hn).2) ∗ rest0 (F := F) c) ∗ (∃ r, prngReg c r))

theorem PhiS0_zero (c : Dev nD) (n : ℕ) (h : n ≤ cfg0.N) (hz : n = 0) : PhiS0 V c n h = (Pipeline.ΦA spec0 c : sProp 𝕄) := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 (F := F) c) ∗ (∃ r, prngReg c r)) := by
  cases n with
  | zero => exact absurd rfl hz
  | succ n => rfl

noncomputable def after0 (c : Dev nD) (w : Fin cfg0.W) (t : Fin cfg0.N) : (cfg0.win w).block.Idx → Elt F (cfg0.win w).elt :=
  match w with
  | ⟨0, _⟩ => iblk0 V c 0 t
  | ⟨1, _⟩ => iblk0 V c 1 t
  | ⟨2, _⟩ => iblk0 V c 2 t
  | ⟨3, _⟩ => iblk0 V c 3 t
  | ⟨4, _⟩ => iblk0 V c 4 t
  | ⟨5, _⟩ => iblk0 V c 5 t
  | ⟨6, _⟩ => iblk0 V c 6 t
  | ⟨7, _⟩ => iblk0 V c 7 t
  | ⟨8, _⟩ => iblk0 V c 8 t
  | ⟨9, _⟩ => iblk0 V c 9 t
  | ⟨10, _⟩ => iblk0 V c 10 t
  | ⟨11, _⟩ => (outsAt0 V c t.val t.isLt).1

noncomputable def Phi0 (c : Dev nD) (t : Fin (cfg0.N + 1)) : sProp 𝕄 := PhiS0 V c t.val (Nat.le_of_lt_succ t.isLt)

/-- The call's proof data: the arrays as the call finds them, each input's buffer at its block, the result's and the carried row at `outsAt0`. -/
noncomputable def dat0 (c : Dev nD) : Dat τ (Elt F) Unit ℕ (Pipeline.UD sig nD τ) ℕ cfg0 c where
  A w := V c (Pipeline.arrRef spec0 w)
  after := after0 V c
  Φ := Phi0 V c
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0, Phi0]; simp only [Fin.coe_castSucc]

theorem after0_11 (c : Dev nD) (t : Fin cfg0.N) : (dat0 V c).after 11 t = (outsAt0 V c t.val t.isLt).1 := by dsimp only [dat0, after0]

/-- An input window's buffer holds the window's block at every grid point. -/
theorem before0_in (c : Dev nD) (t : Fin cfg0.N) :
    ∀ (w : Fin cfg0.W), w ≠ 11 → ∀ d, (dat0 V c).before w t d = (dat0 V c).after w t
  | ⟨0, _⟩, _, d | ⟨1, _⟩, _, d | ⟨2, _⟩, _, d | ⟨3, _⟩, _, d | ⟨4, _⟩, _, d | ⟨5, _⟩, _, d | ⟨6, _⟩, _, d | ⟨7, _⟩, _, d | ⟨8, _⟩, _, d | ⟨9, _⟩, _, d | ⟨10, _⟩, _, d =>
    ((dat0 V c).before_in_eq_fetched _ rfl (fun _ => rfl) (fun _ _ _ => rfl) (fun _ => rfl) t d).trans rfl
  | ⟨11, _⟩, h, _ => absurd rfl h

noncomputable def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d)))

noncomputable def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t)
    ∗ owns (c : Thread nD τ) (ms0_10 t) fullShare ((dat0 V c).after 10 t)
    ∗ (dat0 V c).leavesExact 11 t)

set_option maxHeartbeats 4800000 in

/-- At every grid point the point's case applies; what the case does not touch passes around it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_in V c t 0 (by decide), before0_in V c t 1 (by decide), before0_in V c t 2 (by decide), before0_in V c t 3 (by decide), before0_in V c t 4 (by decide), before0_in V c t 5 (by decide), before0_in V c t 6 (by decide), before0_in V c t 7 (by decide), before0_in V c t 8 (by decide), before0_in V c t 9 (by decide), before0_in V c t 10 (by decide)]
  rw [show (dat0 V c).owesAt () t.succ = (dat0 V c).owesAt () t.castSucc from rfl]
  rw [show (dat0 V c).Φ t.succ = PhiS0 V c (t.val + 1) t.isLt from rfl, PhiS0_succ]
  by_cases h0 : t.val = 0
  · have h1 : ¬t.val = 9 := by omega
    have hc1 : ¬cond0_1 (grid0.coords t) := fun h => h1 ((hcond0_1 t).mp h)
    rw [Dat.leavesExact_idle (dat0 V c) 11 t (idleAt0_11 t hc1) (noFlush0_11 t hc1)]
    rw [outsAt0_A V c t h0]
    unfold sout0_A_0; (try dsimp only)
    rw [PhiS0_castSucc V c t, PhiS0_zero V c _ _ h0, PhiA0_eq]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11⟩
    iapply ((kernelRun0_A c (grid0.coords t) (bufs0 t) ((hcond0_0 t).mpr h0) hc1 (iblk0 V c 0 t)).2 Set.univ _)
    isplitl [H0]; · iexact H0
    isplitl [HS0]; · iexact HS0
    iintro ⟨H0, ⟨%es0, HS0⟩⟩
    iframe HR Hg Ho H1 H2 H3 H4 H5 H6 H7 H8 H9 H10 H11
    isplitl [HS0]
    · unfold owns; iexists _; isplitr
      swap; · iexact HS0
      ipureintro; exact View.read_writes_of_cover _ _ _ _ _ (scover0_A_0 c _ _ _ _ _)
    iexact H0
  · by_cases h1 : t.val = 9
    · have hc0 : ¬cond0_0 (grid0.coords t) := fun h => h0 ((hcond0_0 t).mp h)
      have hc1 : cond0_1 (grid0.coords t) := (hcond0_1 t).mpr h1
      rw [show (dat0 V c).leavesExact 11 t = owns (c : Thread nD τ) (ms0_11 t) fullShare ((dat0 V c).after 11 t) from by
        unfold Dat.leavesExact; rw [liveAt0_11 t hc1], after0_11]
      rw [outsAt0_C V c t h1]
      unfold out0_C_11 sout0_C_0; (try dsimp only)
      rw [PhiS0_castSucc V c t, PhiS0_pos V c _ _ h0]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_C c (grid0.coords t) (bufs0 t) hc0 hc1 (ins0 V c t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS0]; · iexact HS0
      iintro ⟨H0, H1, H2, H3, H4, H5, H6, H7, H8, H9, H10, ⟨%e11, H11⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      unfold owns; iexists _; isplitr
      swap; · iexact H11
      ipureintro; exact View.read_writes_of_cover _ _ _ _ _ (cover0_C_11 c _ _ _ _ _ _)
    · have hc0 : ¬cond0_0 (grid0.coords t) := fun h => h0 ((hcond0_0 t).mp h)
      have hc1 : ¬cond0_1 (grid0.coords t) := fun h => h1 ((hcond0_1 t).mp h)
      rw [Dat.leavesExact_idle (dat0 V c) 11 t (idleAt0_11 t hc1) (noFlush0_11 t hc1)]
      rw [outsAt0_B V c t h0 h1]
      unfold sout0_B_0; (try dsimp only)
      rw [PhiS0_castSucc V c t, PhiS0_pos V c _ _ h0]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11⟩
      iapply ((kernelRun0_B c (grid0.coords t) (bufs0 t) hc0 hc1 (iblk0 V c 0 t) _).2 Set.univ _)
      isplitl [H0]; · iexact H0
      isplitl [HS0]; · iexact HS0
      iintro ⟨H0, ⟨%es0, HS0⟩⟩
      iframe HR Hg Ho H1 H2 H3 H4 H5 H6 H7 H8 H9 H10 H11
      isplitl [HS0]
      · unfold owns; iexists _; isplitr
        swap; · iexact HS0
        ipureintro; exact View.read_writes_of_cover _ _ _ _ _ (scover0_B_0 c _ _ _ _ _ _)
      iexact H0

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After any point the carried row's contents can be forgotten. -/
theorem Phi_out0 (c : Dev nD) (t : Fin (cfg0.N + 1)) (ht : t.val ≠ 0) : (dat0 V c).Φ t ⊢ (Pipeline.ΦA spec0 c : sProp 𝕄) := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

theorem hout0 (c : Dev nD) : (dat0 V c).Φ (Fin.last cfg0.N) ⊢ (Pipeline.ΦA spec0 c : sProp 𝕄) :=
  Phi_out0 V c _ (by rw [Fin.val_last]; have : cfg0.N = 10 := N_0; omega)

end Cert.Kernel.Hand

end
-- ==== Proof.K.R1.lean ====
import proofs.«101073_g24988119728772_cont_9to1_1483_2_alg».proof.Proof.Gen.Kernel.Launch
import proofs.«101073_g24988119728772_cont_9to1_1483_2_alg».proof.Proof.Gen.Kernel.Skeleton
import proofs.«101073_g24988119728772_cont_9to1_1483_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at grid point `t`, read off its array as the call finds it. -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

noncomputable abbrev r1_a : Rect S1000x256 := Rect.unit (s := S1000x256) ![0, 0] S1000x256.size inb_S1000x256_S1000x256_0_0
noncomputable abbrev r1_b : Rect S256x128 := Rect.unit (s := S256x128) ![0, 0] S256x128.size inb_S256x128_S256x128_0_0
noncomputable abbrev r1_c : Rect S1x128 := Rect.unit (s := S1x128) ![0, 0] S1x128.size inb_S1x128_S1x128_0_0
noncomputable abbrev r1_d : Rect S128x128 := Rect.unit (s := S128x128) ![0, 0] S128x128.size inb_S128x128_S128x128_0_0

noncomputable abbrev r1_row0 : Rect S2x128 := Rect.unit (s := S2x128) ![0, 0] S1x128.size inb_S2x128_S1x128_0_0
noncomputable abbrev r1_row1 : Rect S2x128 := Rect.unit (s := S2x128) ![1, 0] S1x128.size inb_S2x128_S1x128_1_0
noncomputable abbrev r1_e : Rect S128x256 := Rect.unit (s := S128x256) ![0, 0] S128x256.size inb_S128x256_S128x256_0_0
noncomputable abbrev r1_f : Rect S1x256 := Rect.unit (s := S1x256) ![0, 0] S1x256.size inb_S1x256_S1x256_0_0

/-- What the body stores over the whole output block: the chain of four matrix products on the point's blocks. -/
noncomputable def out1_8 (x0 : Vec F S1000x256 .f32) (x1 : Vec F S256x128 .f32) (x2 : Vec F S1x128 .f32) (x3 x4 : Vec F S128x128 .f32)
    (x5 : Vec F S2x128 .f32) (x6 : Vec F S128x256 .f32) (x7 : Vec F S1x256 .f32) : Vec F S1000x256 .f32 :=
  View.canon [⟨r1_a, k1_pay1 (View.ld x0 r1_a) (View.ld x1 r1_b) (View.ld x2 r1_c) (View.ld x3 r1_d) (View.ld x5 r1_row0)
    (View.ld x4 r1_d) (View.ld x5 r1_row1) (View.ld x6 r1_e) (View.ld x7 r1_f)⟩]

theorem cover1_8 (p0 : Vec F S1000x256 .f32) (y : S1000x256.Idx) :
    ∃ pc ∈ ([⟨r1_a, p0⟩] : List (View.Piece (Elt F) S1000x256 .f32)), y ∈ pc.1.set :=
  View.cover_of_tiled [⟨r1_a, p0⟩] S1000x256.size (by rfl) y

set_option maxHeartbeats 1000000 in

/-- The body on whole buffers: it loads the eight inputs and stores the result over the output's buffer, leaving every input as it was. -/
theorem sound_kernel1 (c : Dev nD) (E : Set ℕ) (i : grid1.Coords)
    (arg1 : Memref sig .tc .vmem S1000x256 .f32) (harg1 : arg1.IsWhole) (arg2 : Memref sig .tc .vmem S256x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S2x128 .f32) (harg6 : arg6.IsWhole)
    (arg7 : Memref sig .tc .vmem S128x256 .f32) (harg7 : arg7.IsWhole) (arg8 : Memref sig .tc .vmem S1x256 .f32) (harg8 : arg8.IsWhole)
    (arg9 : Memref sig .tc .vmem S1000x256 .f32) (harg9 : arg9.IsWhole)
    (x0 : Vec F S1000x256 .f32) (x1 : Vec F S256x128 .f32) (x2 : Vec F S1x128 .f32) (x3 x4 : Vec F S128x128 .f32)
    (x5 : Vec F S2x128 .f32) (x6 : Vec F S128x256 .f32) (x7 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out1_8 x0 x1 x2 x3 x4 x5 x6 x7)) -∗ K ⟨⟩))
      ⊢ wp frame (wpE (defs₀ (F := F)) Variants.none c none) E
          (cc1__main_kernel i arg1 harg1 arg2 harg2 arg3 harg3 arg4 harg4 arg5 harg5 arg6 harg6 arg7 harg7 arg8 harg8 arg9 harg9) K := by
  simp only [cc1__main_kernel_eq_skeleton]; unfold cc1__main_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover1_8 _)

noncomputable def after1 (c : Dev nD) (w : Fin cfg1.W) (t : Fin cfg1.N) : (cfg1.win w).block.Idx → Elt F (cfg1.win w).elt :=
  match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)

/-- The call's proof data: the arrays as the call finds them, each input's buffer at its block, the output's at `out1_8` of the blocks. -/
noncomputable def dat1 (c : Dev nD) : Dat τ (Elt F) Unit ℕ (Pipeline.UD sig nD τ) ℕ cfg1 c where
  A w := V c (Pipeline.arrRef spec1 w)
  after := after1 V c
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1, after1]

/-- An input window's buffer holds the window's block at every grid point. -/
theorem before1_in (c : Dev nD) (t : Fin cfg1.N) :
    ∀ (w : Fin cfg1.W), w ≠ 8 → ∀ d, (dat1 V c).before w t d = (dat1 V c).after w t
  | ⟨0, _⟩, _, d | ⟨1, _⟩, _, d | ⟨2, _⟩, _, d | ⟨3, _⟩, _, d | ⟨4, _⟩, _, d | ⟨5, _⟩, _, d | ⟨6, _⟩, _, d | ⟨7, _⟩, _, d =>
    ((dat1 V c).before_in_eq_fetched _ rfl (fun _ => rfl) (fun _ _ _ => rfl) (fun _ => rfl) t d).trans rfl
  | ⟨8, _⟩, h, _ => absurd rfl h

noncomputable def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

noncomputable def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_in V c t 0 (by decide), before1_in V c t 1 (by decide), before1_in V c t 2 (by decide), before1_in V c t 3 (by decide), before1_in V c t 4 (by decide), before1_in V c t 5 (by decide), before1_in V c t 6 (by decide), before1_in V c t 7 (by decide)]
  rw [show (dat1 V c).Φ t.succ = (dat1 V c).Φ t.castSucc from rfl,
    show (dat1 V c).owesAt () t.succ = (dat1 V c).owesAt () t.castSucc from rfl, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ (grid1.coords t) _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  iframe HΦ Ho H8
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
import proofs.«101073_g24988119728772_cont_9to1_1483_2_alg».proof.Proof.K.R0
import proofs.«101073_g24988119728772_cont_9to1_1483_2_alg».proof.Proof.K.R1
import proofs.«101073_g24988119728772_cont_9to1_1483_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

noncomputable abbrev W0 : Dev nD → Valuation τ sig (Elt F) := fun c b => (s₀ m ρ).mem ((c : Dev nD), b)

/-- The buffers of core `c` at the four boundaries of @main: after each stretch of host operations and after each kernel call. -/
noncomputable abbrev W1 : Dev nD → Valuation τ sig (Elt F) := fun c => StableHlo.after hostOps0 (W0 m ρ c)

noncomputable abbrev V1 : (c : Dev nD) → (b : Ref sig .tc) → Buf (Elt F) ((c : Thread nD τ).loc b) := fun c b => W1 m ρ c b

noncomputable def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

noncomputable abbrev V2 : (c : Dev nD) → (b : Ref sig .tc) → Buf (Elt F) ((c : Thread nD τ).loc b) := fun c b => W2 m ρ c b

theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

noncomputable abbrev W3 : Dev nD → Valuation τ sig (Elt F) := fun c => StableHlo.after hostOps1 (W2 m ρ c)

noncomputable abbrev V3 : (c : Dev nD) → (b : Ref sig .tc) → Buf (Elt F) ((c : Thread nD τ).loc b) := fun c b => W3 m ρ c b

noncomputable def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

noncomputable abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

theorem V1_def (c : Dev nD) (b : Ref sig .tc) : V1 m ρ c b = StableHlo.after hostOps0 (W0 m ρ c) (Proc.devRef .tc b) := rfl
theorem V3_def (c : Dev nD) (b : Ref sig .tc) : V3 m ρ c b = StableHlo.after hostOps1 (W2 m ρ c) (Proc.devRef .tc b) := rfl

/-- A stretch of host operations changes only the references it writes; a kernel call changes only its output's array. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))

theorem W2_of (c : Dev nD) (r : Ref sig .tc) (h : r ≠ main_call0_v14) :
    W2 m ρ c (Proc.devRef .tc r) = W1 m ρ c (Proc.devRef .tc r) := by
  by_cases hr : ∃ w, Pipeline.arrRef spec0 w = r
  · obtain ⟨w, rfl⟩ := hr
    have hin : (cfg0.win w).isOut = false := by
      revert h; revert w; decide
    exact W2_in m ρ c w hin
  · exact W2_of_ne m ρ c r fun w e => hr ⟨w, e⟩

theorem W4_of (c : Dev nD) (r : Ref sig .tc) (h : r ≠ main_v0) :
    W4 m ρ c (Proc.devRef .tc r) = W3 m ρ c (Proc.devRef .tc r) := by
  by_cases hr : ∃ w, Pipeline.arrRef spec1 w = r
  · obtain ⟨w, rfl⟩ := hr
    have hin : (cfg1.win w).isOut = false := by
      revert h; revert w; decide
    exact W4_in m ρ c w hin
  · exact W4_of_ne m ρ c r fun w e => hr ⟨w, e⟩

/-- So a reference that no stretch and no call writes holds its launch contents at every boundary. -/
theorem W1_kept (c : Dev nD) (r : Ref sig .tc) (h0 : r ∉ hostOps0_W) :
    W1 m ρ c (Proc.devRef .tc r) = m ((c : Thread nD τ).loc r) :=
  (W1_of m ρ c r h0).trans rfl
theorem W2_kept (c : Dev nD) (r : Ref sig .tc) (h0 : r ∉ hostOps0_W) (h1 : r ≠ main_call0_v14) :
    W2 m ρ c (Proc.devRef .tc r) = m ((c : Thread nD τ).loc r) :=
  (W2_of m ρ c r h1).trans (W1_kept m ρ c r h0)
theorem W3_kept (c : Dev nD) (r : Ref sig .tc) (h0 : r ∉ hostOps0_W) (h1 : r ≠ main_call0_v14) (h2 : r ∉ hostOps1_W) :
    W3 m ρ c (Proc.devRef .tc r) = m ((c : Thread nD τ).loc r) :=
  (W3_of m ρ c r h2).trans (W2_kept m ρ c r h0 h1)
theorem W4_kept (c : Dev nD) (r : Ref sig .tc)
    (h : r ∉ hostOps0_W ∧ r ≠ main_call0_v14 ∧ r ∉ hostOps1_W ∧ r ≠ main_v0) :
    W4 m ρ c (Proc.devRef .tc r) = m ((c : Thread nD τ).loc r) :=
  (W4_of m ρ c r h.2.2.2).trans (W3_kept m ρ c r h.1 h.2.1 h.2.2.1)

theorem W4_main_v0 (c : Dev nD) : W4 m ρ c (Proc.devRef .tc main_v0) = (dat1 (V3 m ρ) c).arrAt 8 cfg1.N :=
  W4_arr m ρ c 8

theorem V3_c (c : Dev nD) : V3 m ρ c main_call0_v14 = (dat0 (V1 m ρ) c).arrAt 11 cfg0.N :=
  (W3_of m ρ c main_call0_v14 (by decide)).trans (W2_arr m ρ c 11)

theorem V3_main_call0_v1 (c : Dev nD) :
    V3 m ρ c main_call0_v1 = StableHlo.after hostOps0 (W0 m ρ c) (Proc.devRef .tc main_call0_v1) :=
  (W3_of m ρ c main_call0_v1 (by decide)).trans (W2_of m ρ c main_call0_v1 (by decide))
theorem V3_main_call0_v5 (c : Dev nD) :
    V3 m ρ c main_call0_v5 = StableHlo.after hostOps0 (W0 m ρ c) (Proc.devRef .tc main_call0_v5) :=
  (W3_of m ρ c main_call0_v5 (by decide)).trans (W2_of m ρ c main_call0_v5 (by decide))

/-- Each call's proof data, at the contents that call is entered with. -/
noncomputable def pdats : (p : Fin 2) → (c : Dev nD) → Dat τ (Elt F) Unit ℕ (Pipeline.UD sig nD τ) ℕ (Pipeline.pin (pcfgs (F := F)) adm p) c
  | ⟨0, _⟩ => fun c => dat0 (V1 m ρ) c
  | ⟨1, _⟩ => fun c => dat1 (V3 m ρ) c
noncomputable abbrev 𝒱₀ : Variants := Variants.none

noncomputable abbrev L : GSem nD τ sig → Finset Unit := fun _ => ∅
noncomputable abbrev lv : GSem nD τ sig → Unit → ℕ := fun _ _ => 0

noncomputable abbrev R (c : Dev nD) : sProp 𝕄 := iprop((∃ r, prngReg c r) ∗ ∃ W, owes (c : Thread nD τ) (0 : CellTallies nD τ sig Unit) W)

noncomputable abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

noncomputable abbrev hseg0 : Pipeline.HostSeg (Name := ℕ) (U := Pipeline.UD sig nD τ) (pcfgs (F := F)) defs₀ 𝒱₀ L lv :=
  hseg hostOps0 hostOps0_sub hostOps0_fresh (W0 m ρ)
noncomputable abbrev hseg1 : Pipeline.HostSeg (Name := ℕ) (U := Pipeline.UD sig nD τ) (pcfgs (F := F)) defs₀ 𝒱₀ L lv :=
  hseg hostOps1 hostOps1_sub hostOps1_fresh (W2 m ρ)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

noncomputable abbrev Tₙ (c : Dev nD) : sProp 𝕄 := iprop(StableHlo.held (c : Thread nD τ) (Pipeline.ucRefs τ sig) (W4 m ρ c) ∗ ∃ r, prngReg c r)

set_option backward.isDefEq.respectTransparency.types false in
/-- The first call as a segment of the run: entered at `W1`, left at `W2`; the carried row is at anything before the first point and forgotten after the last. -/
noncomputable def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered at `W3`, left at `W4`. -/
noncomputable def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

noncomputable abbrev segs : List (Pipeline.Seg (pcfgs (F := F)) adm (pdats m ρ) () defs₀ 𝒱₀ L lv) :=
  [ .host (hseg0 m ρ),
    .region (reg0 m ρ),
    .host (hseg1 m ρ),
    .region (reg1 m ρ) ]

theorem main_run (c : Dev nD) : main (F := F) c = Pipeline.Seg.run (segs m ρ) :=
  main_segs adm (pdats m ρ) () 𝒱₀ L lv (hseg0 m ρ) (hseg1 m ρ) (reg0 m ρ) (reg1 m ρ) rfl rfl c

set_option backward.isDefEq.respectTransparency.types false in
/-- Every weakly fair execution of @main terminates without a fault, the result at what the second call leaves in its output's array and every argument as launched. -/
theorem run_main : θ_run defs (onTc (τ := τ) (main (F := F))) ⟨m, fun _ => 0, ρ⟩ (fun r => ∀ c : Dev nD,
      r.2.mem ((c.tc : Thread nD τ).loc main_v0) = (dat1 (V3 m ρ) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v0 (by decide))).trans (W4_main_v0 m ρ c),
       (h c _ (mem_uc main_arg0 (by decide))).trans (W4_kept m ρ c main_arg0 (by decide)),
       (h c _ (mem_uc main_arg1 (by decide))).trans (W4_kept m ρ c main_arg1 (by decide)),
       (h c _ (mem_uc main_arg2 (by decide))).trans (W4_kept m ρ c main_arg2 (by decide)),
       (h c _ (mem_uc main_arg3 (by decide))).trans (W4_kept m ρ c main_arg3 (by decide)),
       (h c _ (mem_uc main_arg4 (by decide))).trans (W4_kept m ρ c main_arg4 (by decide)),
       (h c _ (mem_uc main_arg5 (by decide))).trans (W4_kept m ρ c main_arg5 (by decide)),
       (h c _ (mem_uc main_arg6 (by decide))).trans (W4_kept m ρ c main_arg6 (by decide)),
       (h c _ (mem_uc main_arg7 (by decide))).trans (W4_kept m ρ c main_arg7 (by decide)),
       (h c _ (mem_uc main_arg8 (by decide))).trans (W4_kept m ρ c main_arg8 (by decide)),
       (h c _ (mem_uc main_arg9 (by decide))).trans (W4_kept m ρ c main_arg9 (by decide)),
       (h c _ (mem_uc main_arg10 (by decide))).trans (W4_kept m ρ c main_arg10 (by decide)),
       (h c _ (mem_uc main_arg11 (by decide))).trans (W4_kept m ρ c main_arg11 (by decide)),
       (h c _ (mem_uc main_arg12 (by decide))).trans (W4_kept m ρ c main_arg12 (by decide))⟩)

end Cert.Kernel.Hand

end
-- ==== Proof.KI.R0Runs.lean ====
import proofs.«101073_g24988119728772_cont_9to1_1483_2_alg».proof.Proof.Gen.KernelIdeal.Launch
import proofs.«101073_g24988119728772_cont_9to1_1483_2_alg».proof.Proof.Gen.KernelIdeal.Skeleton
import proofs.«101073_g24988119728772_cont_9to1_1483_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

section Entry

variable (V : (c : Dev nD) → (b : Ref sig .tc) → Buf (Elt F) ((c : Thread nD τ).loc b))

/-- Window `w`'s block at grid point `t`, read off its array as the call finds it. -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

end Entry

/-- The body's two branches: the carried row is reset at grid point 0, the result is computed and stored at grid point 9. -/
noncomputable abbrev cond0_0 (i : grid0.Coords) : Prop := (Scalar.cmpi .ne (Scalar.extui (Scalar.cmpi .eq (BitVec.ofNat 32 (i 0).val) 0#32)) 0#32) = 1#1

theorem hcond0_0 : ∀ t : Fin cfg0.N, cond0_0 (grid0.coords t) ↔ t.val = 0 :=
  (by decide +kernel : ∀ t : Fin grid0.N, cond0_0 (grid0.coords t) ↔ t.val = 0)

noncomputable abbrev cond0_1 (i : grid0.Coords) : Prop := k0_cond2 i = 1#1

theorem hcond0_1 : ∀ t : Fin cfg0.N, cond0_1 (grid0.coords t) ↔ t.val = 9 :=
  (by decide +kernel : ∀ t : Fin grid0.N, cond0_1 (grid0.coords t) ↔ t.val = 9)

/-- Away from grid point 9 the body stores nothing into the result window. -/
theorem idleAt0_11 : ∀ t : Fin cfg0.N, ¬cond0_1 (grid0.coords t) → cfg0.idle 11 (grid0.coords t) = true := by decide +kernel
theorem noFlush0_11 : ∀ t : Fin cfg0.N, ¬cond0_1 (grid0.coords t) → (cfg0.win 11).flush t = false := by decide +kernel

theorem liveAt0_11 : ∀ t : Fin cfg0.N, cond0_1 (grid0.coords t) → cfg0.idle 11 (grid0.coords t) = false := by decide +kernel

noncomputable abbrev VO0_11 : View sig .tc .vmem S2x128 .f32 := (Memref.whole cc0_stg11_0 : Memref sig .tc .vmem S2x128 .f32).view
noncomputable abbrev ms0_0 (t : Fin cfg0.N) : Memref sig .tc .vmem S1000x256 .f32 := win0_0.stage (cfg0.slots t 0)
noncomputable abbrev hs0_0 (t : Fin cfg0.N) : (ms0_0 t).IsWhole := hstage0_0 ((cfg0.slots t 0).cast nbuf0_0)
noncomputable abbrev ms0_1 (t : Fin cfg0.N) : Memref sig .tc .vmem S32x1 .i32 := win0_1.stage (cfg0.slots t 1)
noncomputable abbrev hs0_1 (t : Fin cfg0.N) : (ms0_1 t).IsWhole := hstage0_1 ((cfg0.slots t 1).cast nbuf0_1)
noncomputable abbrev ms0_2 (t : Fin cfg0.N) : Memref sig .tc .vmem S512x128 .f32 := win0_2.stage (cfg0.slots t 2)
noncomputable abbrev hs0_2 (t : Fin cfg0.N) : (ms0_2 t).IsWhole := hstage0_2 ((cfg0.slots t 2).cast nbuf0_2)
noncomputable abbrev ms0_3 (t : Fin cfg0.N) : Memref sig .tc .vmem S256x128 .f32 := win0_3.stage (cfg0.slots t 3)
noncomputable abbrev hs0_3 (t : Fin cfg0.N) : (ms0_3 t).IsWhole := hstage0_3 ((cfg0.slots t 3).cast nbuf0_3)
noncomputable abbrev ms0_4 (t : Fin cfg0.N) : Memref sig .tc .vmem S1x128 .f32 := win0_4.stage (cfg0.slots t 4)
noncomputable abbrev hs0_4 (t : Fin cfg0.N) : (ms0_4 t).IsWhole := hstage0_4 ((cfg0.slots t 4).cast nbuf0_4)
noncomputable abbrev ms0_5 (t : Fin cfg0.N) : Memref sig .tc .vmem S128x128 .f32 := win0_5.stage (cfg0.slots t 5)
noncomputable abbrev hs0_5 (t : Fin cfg0.N) : (ms0_5 t).IsWhole := hstage0_5 ((cfg0.slots t 5).cast nbuf0_5)
noncomputable abbrev ms0_6 (t : Fin cfg0.N) : Memref sig .tc .vmem S128x128 .f32 := win0_6.stage (cfg0.slots t 6)
noncomputable abbrev hs0_6 (t : Fin cfg0.N) : (ms0_6 t).IsWhole := hstage0_6 ((cfg0.slots t 6).cast nbuf0_6)
noncomputable abbrev ms0_7 (t : Fin cfg0.N) : Memref sig .tc .vmem S1x128 .f32 := win0_7.stage (cfg0.slots t 7)
noncomputable abbrev hs0_7 (t : Fin cfg0.N) : (ms0_7 t).IsWhole := hstage0_7 ((cfg0.slots t 7).cast nbuf0_7)
noncomputable abbrev ms0_8 (t : Fin cfg0.N) : Memref sig .tc .vmem S128x128 .f32 := win0_8.stage (cfg0.slots t 8)
noncomputable abbrev hs0_8 (t : Fin cfg0.N) : (ms0_8 t).IsWhole := hstage0_8 ((cfg0.slots t 8).cast nbuf0_8)
noncomputable abbrev ms0_9 (t : Fin cfg0.N) : Memref sig .tc .vmem S128x128 .f32 := win0_9.stage (cfg0.slots t 9)
noncomputable abbrev hs0_9 (t : Fin cfg0.N) : (ms0_9 t).IsWhole := hstage0_9 ((cfg0.slots t 9).cast nbuf0_9)
noncomputable abbrev ms0_10 (t : Fin cfg0.N) : Memref sig .tc .vmem S2x128 .f32 := win0_10.stage (cfg0.slots t 10)
noncomputable abbrev hs0_10 (t : Fin cfg0.N) : (ms0_10 t).IsWhole := hstage0_10 ((cfg0.slots t 10).cast nbuf0_10)
noncomputable abbrev ms0_11 (t : Fin cfg0.N) : Memref sig .tc .vmem S2x128 .f32 := win0_11.stage (cfg0.slots t 11)
noncomputable abbrev hs0_11 (t : Fin cfg0.N) : (ms0_11 t).IsWhole := hstage0_11 ((cfg0.slots t 11).cast nbuf0_11)

noncomputable abbrev scM0_0 : Memref sig .tc .vmem S1x256 .f32 := Memref.whole cc0_scratch0

noncomputable abbrev VS0_0 : View sig .tc .vmem S1x256 .f32 := scM0_0.view

/-- The thirteen whole buffers the first kernel function is called on. -/
structure Bufs0 where
  a1 : Memref sig .tc .vmem S1000x256 .f32
  h1 : a1.IsWhole
  a2 : Memref sig .tc .vmem S32x1 .i32
  h2 : a2.IsWhole
  a3 : Memref sig .tc .vmem S512x128 .f32
  h3 : a3.IsWhole
  a4 : Memref sig .tc .vmem S256x128 .f32
  h4 : a4.IsWhole
  a5 : Memref sig .tc .vmem S1x128 .f32
  h5 : a5.IsWhole
  a6 : Memref sig .tc .vmem S128x128 .f32
  h6 : a6.IsWhole
  a7 : Memref sig .tc .vmem S128x128 .f32
  h7 : a7.IsWhole
  a8 : Memref sig .tc .vmem S1x128 .f32
  h8 : a8.IsWhole
  a9 : Memref sig .tc .vmem S128x128 .f32
  h9 : a9.IsWhole
  a10 : Memref sig .tc .vmem S128x128 .f32
  h10 : a10.IsWhole
  a11 : Memref sig .tc .vmem S2x128 .f32
  h11 : a11.IsWhole
  a12 : Memref sig .tc .vmem S2x128 .f32
  h12 : a12.IsWhole
  a13 : Memref sig .tc .vmem S1x256 .f32
  h13 : a13.IsWhole

/-- The eleven input windows' blocks. -/
structure Ins0 (F : FTy → Type) where
  x0 : Vec F S1000x256 .f32
  x1 : Vec F S32x1 .i32
  x2 : Vec F S512x128 .f32
  x3 : Vec F S256x128 .f32
  x4 : Vec F S1x128 .f32
  x5 : Vec F S128x128 .f32
  x6 : Vec F S128x128 .f32
  x7 : Vec F S1x128 .f32
  x8 : Vec F S128x128 .f32
  x9 : Vec F S128x128 .f32
  x10 : Vec F S2x128 .f32

/-- The buffers at grid point `t`. -/
noncomputable abbrev bufs0 (t : Fin cfg0.N) : Bufs0 :=
  ⟨ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, ms0_9 t, hs0_9 t, ms0_10 t, hs0_10 t, ms0_11 t, hs0_11 t, scM0_0, Memref.isWhole_whole _⟩

/-- The other call's buffers, which this call never touches, each at some contents. -/
noncomputable def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f))

/-- What the call is entered with: the carried row at some contents, beside what it never touches. -/
theorem PhiA0_eq (c : Dev nD) :
    (Pipeline.ΦA spec0 c : sProp 𝕄)
      = iprop(iprop((∃ d, owns (c : Thread nD τ) scM0_0 fullShare d) ∗ rest0 (F := F) c) ∗ (∃ r, prngReg c r)) := by
  unfold Pipeline.ΦA rest0; rw [scopedRest0_eq]; simp only [scM0_0, owns_whole]; try rfl

end Cert.KernelIdeal.Hand

end
-- ==== Proof.KI.R0RunA.lean ====
import proofs.«101073_g24988119728772_cont_9to1_1483_2_alg».proof.Proof.KI.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

set_option maxHeartbeats 1000000 in
/-- Grid point 0: the carried row is reset and the block's column sums are added to it; what the run stores into the row it finds as a list of pieces. -/
noncomputable def kernelRun0_A (c : Dev nD) (i : grid0.Coords) (b : Bufs0) (hc0 : cond0_0 i) (hc1 : ¬cond0_1 i)
    (x0 : Vec F S1000x256 .f32) :
    { LS0 : List (View.Piece (Elt F) S1x256 .f32) //
      ∀ (E : Set ℕ) (K : PUnit → sProp 𝕄),
        iprop(owns (c : Thread nD τ) b.a1 fullShare x0 ∗ (∃ d, owns (c : Thread nD τ) b.a13 fullShare d)
            ∗ (iprop(owns (c : Thread nD τ) b.a1 fullShare x0 ∗ (∃ f, b.a13.view.loc (c : Thread nD τ) ↦[b.a13.view.set]{fullShare} b.a13.view.writes (Elt F) f LS0)) -∗ K ⟨⟩))
          ⊢ wp frame (wpE (defs₀ (F := F)) Variants.none c none) E (cc0__prep_kernel i b.a1 b.h1 b.a2 b.h2 b.a3 b.h3 b.a4 b.h4 b.a5 b.h5 b.a6 b.h6 b.a7 b.h7 b.a8 b.h8 b.a9 b.h9 b.a10 b.h10 b.a11 b.h11 b.a12 b.h12 b.a13 b.h13) K } := by
  refine ⟨?_, fun E K => ?run⟩
  case run =>
    simp only [cc0__prep_kernel_eq_skeleton]; unfold cc0__prep_kernel_skel
    simp only [k0_part1_eq_skeleton]
    unfold owns
    iintro ⟨⟨%f0, %hf0, H0⟩, ⟨%ds0, %fs0, -, HS0⟩, Hk⟩
    obtain rfl := b.h1.eq_unread hf0
    sl_exec (disch := first | exact hc0 | exact hc1)
    sl_step
    iapply Hk
    isplitl [H0]
    · iexists _; isplitr; · ipureintro; exact b.h1.read_unread _
      iexact H0
    iexists _; iexact HS0

end Cert.KernelIdeal.Hand

end
-- ==== Proof.KI.R0RunB.lean ====
import proofs.«101073_g24988119728772_cont_9to1_1483_2_alg».proof.Proof.KI.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

set_option maxHeartbeats 1000000 in
/-- Grid points 1 to 8: the block's column sums are added to the carried row. -/
noncomputable def kernelRun0_B (c : Dev nD) (i : grid0.Coords) (b : Bufs0) (hc0 : ¬cond0_0 i) (hc1 : ¬cond0_1 i)
    (x0 : Vec F S1000x256 .f32) (xs0 : Vec F S1x256 .f32) :
    { LS0 : List (View.Piece (Elt F) S1x256 .f32) //
      ∀ (E : Set ℕ) (K : PUnit → sProp 𝕄),
        iprop(owns (c : Thread nD τ) b.a1 fullShare x0 ∗ owns (c : Thread nD τ) b.a13 fullShare xs0
            ∗ (iprop(owns (c : Thread nD τ) b.a1 fullShare x0 ∗ (∃ f, b.a13.view.loc (c : Thread nD τ) ↦[b.a13.view.set]{fullShare} b.a13.view.writes (Elt F) f LS0)) -∗ K ⟨⟩))
          ⊢ wp frame (wpE (defs₀ (F := F)) Variants.none c none) E (cc0__prep_kernel i b.a1 b.h1 b.a2 b.h2 b.a3 b.h3 b.a4 b.h4 b.a5 b.h5 b.a6 b.h6 b.a7 b.h7 b.a8 b.h8 b.a9 b.h9 b.a10 b.h10 b.a11 b.h11 b.a12 b.h12 b.a13 b.h13) K } := by
  refine ⟨?_, fun E K => ?run⟩
  case run =>
    simp only [cc0__prep_kernel_eq_skeleton]; unfold cc0__prep_kernel_skel
    simp only [k0_part1_eq_skeleton]
    unfold owns
    iintro ⟨⟨%f0, %hf0, H0⟩, ⟨%fs0, %hfs0, HS0⟩, Hk⟩
    obtain rfl := b.h1.eq_unread hf0; obtain rfl := b.h13.eq_unread hfs0
    sl_exec (disch := first | exact hc0 | exact hc1)
    sl_step
    iapply Hk
    isplitl [H0]
    · iexists _; isplitr; · ipureintro; exact b.h1.read_unread _
      iexact H0
    iexists _; iexact HS0

end Cert.KernelIdeal.Hand

end
-- ==== Proof.KI.R0RunC.lean ====
import proofs.«101073_g24988119728772_cont_9to1_1483_2_alg».proof.Proof.KI.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

set_option maxHeartbeats 1000000 in
/-- Grid point 9: the last column sums are added, then the two result rows are computed from the finished sums and the ten small operands and stored. -/
noncomputable def kernelRun0_C (c : Dev nD) (i : grid0.Coords) (b : Bufs0) (hc0 : ¬cond0_0 i) (hc1 : cond0_1 i)
    (x : Ins0 F) (xs0 : Vec F S1x256 .f32) :
    Σ' (L11 : List (View.Piece (Elt F) S2x128 .f32)), { LS0 : List (View.Piece (Elt F) S1x256 .f32) //
      ∀ (E : Set ℕ) (K : PUnit → sProp 𝕄),
        iprop(owns (c : Thread nD τ) b.a1 fullShare x.x0 ∗ owns (c : Thread nD τ) b.a2 fullShare x.x1 ∗ owns (c : Thread nD τ) b.a3 fullShare x.x2 ∗ owns (c : Thread nD τ) b.a4 fullShare x.x3 ∗ owns (c : Thread nD τ) b.a5 fullShare x.x4 ∗ owns (c : Thread nD τ) b.a6 fullShare x.x5 ∗ owns (c : Thread nD τ) b.a7 fullShare x.x6 ∗ owns (c : Thread nD τ) b.a8 fullShare x.x7 ∗ owns (c : Thread nD τ) b.a9 fullShare x.x8 ∗ owns (c : Thread nD τ) b.a10 fullShare x.x9 ∗ owns (c : Thread nD τ) b.a11 fullShare x.x10 ∗ (∃ d, owns (c : Thread nD τ) b.a12 fullShare d) ∗ owns (c : Thread nD τ) b.a13 fullShare xs0
            ∗ (iprop(owns (c : Thread nD τ) b.a1 fullShare x.x0 ∗ owns (c : Thread nD τ) b.a2 fullShare x.x1 ∗ owns (c : Thread nD τ) b.a3 fullShare x.x2 ∗ owns (c : Thread nD τ) b.a4 fullShare x.x3 ∗ owns (c : Thread nD τ) b.a5 fullShare x.x4 ∗ owns (c : Thread nD τ) b.a6 fullShare x.x5 ∗ owns (c : Thread nD τ) b.a7 fullShare x.x6 ∗ owns (c : Thread nD τ) b.a8 fullShare x.x7 ∗ owns (c : Thread nD τ) b.a9 fullShare x.x8 ∗ owns (c : Thread nD τ) b.a10 fullShare x.x9 ∗ owns (c : Thread nD τ) b.a11 fullShare x.x10 ∗ (∃ f, b.a12.view.loc (c : Thread nD τ) ↦[b.a12.view.set]{fullShare} b.a12.view.writes (Elt F) f L11) ∗ (∃ f, b.a13.view.loc (c : Thread nD τ) ↦[b.a13.view.set]{fullShare} b.a13.view.writes (Elt F) f LS0)) -∗ K ⟨⟩))
          ⊢ wp frame (wpE (defs₀ (F := F)) Variants.none c none) E (cc0__prep_kernel i b.a1 b.h1 b.a2 b.h2 b.a3 b.h3 b.a4 b.h4 b.a5 b.h5 b.a6 b.h6 b.a7 b.h7 b.a8 b.h8 b.a9 b.h9 b.a10 b.h10 b.a11 b.h11 b.a12 b.h12 b.a13 b.h13) K } := by
  refine ⟨?_, ?_, fun E K => ?run⟩
  case run =>
    simp only [cc0__prep_kernel_eq_skeleton]; unfold cc0__prep_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs0, %hfs0, HS0⟩, Hk⟩
    obtain rfl := b.h1.eq_unread hf0; obtain rfl := b.h2.eq_unread hf1; obtain rfl := b.h3.eq_unread hf2; obtain rfl := b.h4.eq_unread hf3; obtain rfl := b.h5.eq_unread hf4; obtain rfl := b.h6.eq_unread hf5; obtain rfl := b.h7.eq_unread hf6; obtain rfl := b.h8.eq_unread hf7; obtain rfl := b.h9.eq_unread hf8; obtain rfl := b.h10.eq_unread hf9; obtain rfl := b.h11.eq_unread hf10; obtain rfl := b.h13.eq_unread hfs0
    sl_exec (disch := first | exact hc0 | exact hc1)
    sl_step
    iapply Hk
    isplitl [H0]
    · iexists _; isplitr; · ipureintro; exact b.h1.read_unread _
      iexact H0
    isplitl [H1]
    · iexists _; isplitr; · ipureintro; exact b.h2.read_unread _
      iexact H1
    isplitl [H2]
    · iexists _; isplitr; · ipureintro; exact b.h3.read_unread _
      iexact H2
    isplitl [H3]
    · iexists _; isplitr; · ipureintro; exact b.h4.read_unread _
      iexact H3
    isplitl [H4]
    · iexists _; isplitr; · ipureintro; exact b.h5.read_unread _
      iexact H4
    isplitl [H5]
    · iexists _; isplitr; · ipureintro; exact b.h6.read_unread _
      iexact H5
    isplitl [H6]
    · iexists _; isplitr; · ipureintro; exact b.h7.read_unread _
      iexact H6
    isplitl [H7]
    · iexists _; isplitr; · ipureintro; exact b.h8.read_unread _
      iexact H7
    isplitl [H8]
    · iexists _; isplitr; · ipureintro; exact b.h9.read_unread _
      iexact H8
    isplitl [H9]
    · iexists _; isplitr; · ipureintro; exact b.h10.read_unread _
      iexact H9
    isplitl [H10]
    · iexists _; isplitr; · ipureintro; exact b.h11.read_unread _
      iexact H10
    isplitl [H11]; · iexists _; iexact H11
    iexists _; iexact HS0

end Cert.KernelIdeal.Hand

end
-- ==== Proof.KI.R0.lean ====
import proofs.«101073_g24988119728772_cont_9to1_1483_2_alg».proof.Proof.KI.R0RunA
import proofs.«101073_g24988119728772_cont_9to1_1483_2_alg».proof.Proof.KI.R0RunB
import proofs.«101073_g24988119728772_cont_9to1_1483_2_alg».proof.Proof.KI.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-- The pieces a run stores into a buffer tile it; read back, they are what the run leaves there. -/
theorem scover0_A_0 (c : Dev nD) (i : grid0.Coords) (b : Bufs0) (hc0 : cond0_0 i) (hc1 : ¬cond0_1 i)
    (x0 : Vec F S1000x256 .f32) (y : S1x256.Idx) :
    ∃ pc ∈ (kernelRun0_A c i b hc0 hc1 x0).1, y ∈ pc.1.set :=
  View.cover_of_tiledL (kernelRun0_A c i b hc0 hc1 x0).1 S1x256.size (by sl_kernel_rfl) y

noncomputable def sout0_A_0 (c : Dev nD) (i : grid0.Coords) (b : Bufs0) (hc0 : cond0_0 i) (hc1 : ¬cond0_1 i)
    (x0 : Vec F S1000x256 .f32) : Vec F S1x256 .f32 :=
  VS0_0.read (Elt F) (VS0_0.writes (Elt F) VS0_0.junk (kernelRun0_A c i b hc0 hc1 x0).1)

theorem scover0_B_0 (c : Dev nD) (i : grid0.Coords) (b : Bufs0) (hc0 : ¬cond0_0 i) (hc1 : ¬cond0_1 i)
    (x0 : Vec F S1000x256 .f32) (xs0 : Vec F S1x256 .f32) (y : S1x256.Idx) :
    ∃ pc ∈ (kernelRun0_B c i b hc0 hc1 x0 xs0).1, y ∈ pc.1.set :=
  View.cover_of_tiledL (kernelRun0_B c i b hc0 hc1 x0 xs0).1 S1x256.size (by sl_kernel_rfl) y

noncomputable def sout0_B_0 (c : Dev nD) (i : grid0.Coords) (b : Bufs0) (hc0 : ¬cond0_0 i) (hc1 : ¬cond0_1 i)
    (x0 : Vec F S1000x256 .f32) (xs0 : Vec F S1x256 .f32) : Vec F S1x256 .f32 :=
  VS0_0.read (Elt F) (VS0_0.writes (Elt F) VS0_0.junk (kernelRun0_B c i b hc0 hc1 x0 xs0).1)

theorem cover0_C_11 (c : Dev nD) (i : grid0.Coords) (b : Bufs0) (hc0 : ¬cond0_0 i) (hc1 : cond0_1 i)
    (x : Ins0 F) (xs0 : Vec F S1x256 .f32) (y : S2x128.Idx) :
    ∃ pc ∈ (kernelRun0_C c i b hc0 hc1 x xs0).1, y ∈ pc.1.set :=
  View.cover_of_tiledL (kernelRun0_C c i b hc0 hc1 x xs0).1 S2x128.size (by sl_kernel_rfl) y

noncomputable def out0_C_11 (c : Dev nD) (i : grid0.Coords) (b : Bufs0) (hc0 : ¬cond0_0 i) (hc1 : cond0_1 i)
    (x : Ins0 F) (xs0 : Vec F S1x256 .f32) : Vec F S2x128 .f32 :=
  VO0_11.read (Elt F) (VO0_11.writes (Elt F) VO0_11.junk (kernelRun0_C c i b hc0 hc1 x xs0).1)

theorem scover0_C_0 (c : Dev nD) (i : grid0.Coords) (b : Bufs0) (hc0 : ¬cond0_0 i) (hc1 : cond0_1 i)
    (x : Ins0 F) (xs0 : Vec F S1x256 .f32) (y : S1x256.Idx) :
    ∃ pc ∈ (kernelRun0_C c i b hc0 hc1 x xs0).2.1, y ∈ pc.1.set :=
  View.cover_of_tiledL (kernelRun0_C c i b hc0 hc1 x xs0).2.1 S1x256.size (by sl_kernel_rfl) y

noncomputable def sout0_C_0 (c : Dev nD) (i : grid0.Coords) (b : Bufs0) (hc0 : ¬cond0_0 i) (hc1 : cond0_1 i)
    (x : Ins0 F) (xs0 : Vec F S1x256 .f32) : Vec F S1x256 .f32 :=
  VS0_0.read (Elt F) (VS0_0.writes (Elt F) VS0_0.junk (kernelRun0_C c i b hc0 hc1 x xs0).2.1)

/-- At the grid points where the body stores nothing into the result window, a placeholder stands for its contents. -/
noncomputable def out0_idle_11 : Vec F S2x128 .f32 := VO0_11.read (Elt F) VO0_11.junk

variable (V : (c : Dev nD) → (b : Ref sig .tc) → Buf (Elt F) ((c : Thread nD τ).loc b))

/-- The input blocks at grid point `t`. -/
noncomputable abbrev ins0 (c : Dev nD) (t : Fin cfg0.N) : Ins0 F :=
  ⟨iblk0 V c 0 t, iblk0 V c 1 t, iblk0 V c 2 t, iblk0 V c 3 t, iblk0 V c 4 t, iblk0 V c 5 t, iblk0 V c 6 t, iblk0 V c 7 t, iblk0 V c 8 t, iblk0 V c 9 t, iblk0 V c 10 t⟩

/-- The result window's buffer and the carried row after each grid point: the first case at 0, the last at 9, the middle one between, each over what the point before left. -/
noncomputable def outsAt0 (c : Dev nD) : (n : ℕ) → n < cfg0.N → Vec F S2x128 .f32 × Vec F S1x256 .f32
  | 0, hn => (out0_idle_11, sout0_A_0 c (grid0.coords ⟨0, hn⟩) (bufs0 ⟨0, hn⟩) ((hcond0_0 ⟨0, hn⟩).mpr rfl) (fun h => absurd (show (0 : ℕ) = 9 from (hcond0_1 ⟨0, hn⟩).mp h) (by decide)) (iblk0 V c 0 ⟨0, hn⟩))
  | n + 1, hn =>
    if h1 : n + 1 = 9 then
      (out0_C_11 c (grid0.coords ⟨n + 1, hn⟩) (bufs0 ⟨n + 1, hn⟩) (fun h => Nat.succ_ne_zero n ((hcond0_0 ⟨n + 1, hn⟩).mp h)) ((hcond0_1 ⟨n + 1, hn⟩).mpr h1) (ins0 V c ⟨n + 1, hn⟩) (outsAt0 c n (Nat.lt_of_succ_lt hn)).2,
       sout0_C_0 c (grid0.coords ⟨n + 1, hn⟩) (bufs0 ⟨n + 1, hn⟩) (fun h => Nat.succ_ne_zero n ((hcond0_0 ⟨n + 1, hn⟩).mp h)) ((hcond0_1 ⟨n + 1, hn⟩).mpr h1) (ins0 V c ⟨n + 1, hn⟩) (outsAt0 c n (Nat.lt_of_succ_lt hn)).2)
    else
      (out0_idle_11, sout0_B_0 c (grid0.coords ⟨n + 1, hn⟩) (bufs0 ⟨n + 1, hn⟩) (fun h => Nat.succ_ne_zero n ((hcond0_0 ⟨n + 1, hn⟩).mp h)) (fun h => h1 ((hcond0_1 ⟨n + 1, hn⟩).mp h)) (iblk0 V c 0 ⟨n + 1, hn⟩) (outsAt0 c n (Nat.lt_of_succ_lt hn)).2)

theorem outsAt0_A (c : Dev nD) (t : Fin cfg0.N) (h0 : t.val = 0) :
    outsAt0 V c t.val t.isLt = (out0_idle_11, sout0_A_0 c (grid0.coords t) (bufs0 t) ((hcond0_0 t).mpr h0) (fun h => absurd (h0.symm.trans ((hcond0_1 t).mp h)) (by decide)) (iblk0 V c 0 t)) := by
  obtain ⟨n, hn⟩ := t
  cases n with
  | zero => exact rfl
  | succ n => exact absurd h0 (Nat.succ_ne_zero n)

theorem outsAt0_B (c : Dev nD) (t : Fin cfg0.N) (h0 : ¬t.val = 0) (h1 : ¬t.val = 9) :
    outsAt0 V c t.val t.isLt = (out0_idle_11, sout0_B_0 c (grid0.coords t) (bufs0 t) (fun h => h0 ((hcond0_0 t).mp h)) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact absurd rfl h0
  | succ n => exact (dif_neg h1).trans rfl

theorem outsAt0_C (c : Dev nD) (t : Fin cfg0.N) (h1 : t.val = 9) :
    outsAt0 V c t.val t.isLt = (out0_C_11 c (grid0.coords t) (bufs0 t) (fun h => absurd (h1.symm.trans ((hcond0_0 t).mp h)) (by decide)) ((hcond0_1 t).mpr h1) (ins0 V c t) (outsAt0 V c (t.val - 1) (Nat.lt_of_le_of_lt (Nat.sub_le _ _) t.isLt)).2,
      sout0_C_0 c (grid0.coords t) (bufs0 t) (fun h => absurd (h1.symm.trans ((hcond0_0 t).mp h)) (by decide)) ((hcond0_1 t).mpr h1) (ins0 V c t) (outsAt0 V c (t.val - 1) (Nat.lt_of_le_of_lt (Nat.sub_le _ _) t.isLt)).2) := by
  obtain ⟨n, hn⟩ := t
  cases n with
  | zero => exact absurd (show (0 : ℕ) = 9 from h1) (by decide)
  | succ n => exact (dif_pos h1).trans rfl

/-- Before grid point `n > 0` the carried row holds what point `n - 1` left in it. -/
noncomputable def PhiS0 (c : Dev nD) : (n : ℕ) → n ≤ cfg0.N → sProp 𝕄
  | 0, _ => (Pipeline.ΦA spec0 c : sProp 𝕄)
  | n + 1, hn => iprop(iprop(owns (c : Thread nD τ) scM0_0 fullShare ((outsAt0 V c n hn).2) ∗ rest0 (F := F) c) ∗ (∃ r, prngReg c r))

theorem PhiS0_zero (c : Dev nD) (n : ℕ) (h : n ≤ cfg0.N) (hz : n = 0) : PhiS0 V c n h = (Pipeline.ΦA spec0 c : sProp 𝕄) := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 (F := F) c) ∗ (∃ r, prngReg c r)) := by
  cases n with
  | zero => exact absurd rfl hz
  | succ n => rfl

noncomputable def after0 (c : Dev nD) (w : Fin cfg0.W) (t : Fin cfg0.N) : (cfg0.win w).block.Idx → Elt F (cfg0.win w).elt :=
  match w with
  | ⟨0, _⟩ => iblk0 V c 0 t
  | ⟨1, _⟩ => iblk0 V c 1 t
  | ⟨2, _⟩ => iblk0 V c 2 t
  | ⟨3, _⟩ => iblk0 V c 3 t
  | ⟨4, _⟩ => iblk0 V c 4 t
  | ⟨5, _⟩ => iblk0 V c 5 t
  | ⟨6, _⟩ => iblk0 V c 6 t
  | ⟨7, _⟩ => iblk0 V c 7 t
  | ⟨8, _⟩ => iblk0 V c 8 t
  | ⟨9, _⟩ => iblk0 V c 9 t
  | ⟨10, _⟩ => iblk0 V c 10 t
  | ⟨11, _⟩ => (outsAt0 V c t.val t.isLt).1

noncomputable def Phi0 (c : Dev nD) (t : Fin (cfg0.N + 1)) : sProp 𝕄 := PhiS0 V c t.val (Nat.le_of_lt_succ t.isLt)

/-- The call's proof data: the arrays as the call finds them, each input's buffer at its block, the result's and the carried row at `outsAt0`. -/
noncomputable def dat0 (c : Dev nD) : Dat τ (Elt F) Unit ℕ (Pipeline.UD sig nD τ) ℕ cfg0 c where
  A w := V c (Pipeline.arrRef spec0 w)
  after := after0 V c
  Φ := Phi0 V c
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0, Phi0]; simp only [Fin.coe_castSucc]

theorem after0_11 (c : Dev nD) (t : Fin cfg0.N) : (dat0 V c).after 11 t = (outsAt0 V c t.val t.isLt).1 := by dsimp only [dat0, after0]

/-- An input window's buffer holds the window's block at every grid point. -/
theorem before0_in (c : Dev nD) (t : Fin cfg0.N) :
    ∀ (w : Fin cfg0.W), w ≠ 11 → ∀ d, (dat0 V c).before w t d = (dat0 V c).after w t
  | ⟨0, _⟩, _, d | ⟨1, _⟩, _, d | ⟨2, _⟩, _, d | ⟨3, _⟩, _, d | ⟨4, _⟩, _, d | ⟨5, _⟩, _, d | ⟨6, _⟩, _, d | ⟨7, _⟩, _, d | ⟨8, _⟩, _, d | ⟨9, _⟩, _, d | ⟨10, _⟩, _, d =>
    ((dat0 V c).before_in_eq_fetched _ rfl (fun _ => rfl) (fun _ _ _ => rfl) (fun _ => rfl) t d).trans rfl
  | ⟨11, _⟩, h, _ => absurd rfl h

noncomputable def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d)))

noncomputable def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t)
    ∗ owns (c : Thread nD τ) (ms0_10 t) fullShare ((dat0 V c).after 10 t)
    ∗ (dat0 V c).leavesExact 11 t)

set_option maxHeartbeats 4800000 in

/-- At every grid point the point's case applies; what the case does not touch passes around it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_in V c t 0 (by decide), before0_in V c t 1 (by decide), before0_in V c t 2 (by decide), before0_in V c t 3 (by decide), before0_in V c t 4 (by decide), before0_in V c t 5 (by decide), before0_in V c t 6 (by decide), before0_in V c t 7 (by decide), before0_in V c t 8 (by decide), before0_in V c t 9 (by decide), before0_in V c t 10 (by decide)]
  rw [show (dat0 V c).owesAt () t.succ = (dat0 V c).owesAt () t.castSucc from rfl]
  rw [show (dat0 V c).Φ t.succ = PhiS0 V c (t.val + 1) t.isLt from rfl, PhiS0_succ]
  by_cases h0 : t.val = 0
  · have h1 : ¬t.val = 9 := by omega
    have hc1 : ¬cond0_1 (grid0.coords t) := fun h => h1 ((hcond0_1 t).mp h)
    rw [Dat.leavesExact_idle (dat0 V c) 11 t (idleAt0_11 t hc1) (noFlush0_11 t hc1)]
    rw [outsAt0_A V c t h0]
    unfold sout0_A_0; (try dsimp only)
    rw [PhiS0_castSucc V c t, PhiS0_zero V c _ _ h0, PhiA0_eq]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11⟩
    iapply ((kernelRun0_A c (grid0.coords t) (bufs0 t) ((hcond0_0 t).mpr h0) hc1 (iblk0 V c 0 t)).2 Set.univ _)
    isplitl [H0]; · iexact H0
    isplitl [HS0]; · iexact HS0
    iintro ⟨H0, ⟨%es0, HS0⟩⟩
    iframe HR Hg Ho H1 H2 H3 H4 H5 H6 H7 H8 H9 H10 H11
    isplitl [HS0]
    · unfold owns; iexists _; isplitr
      swap; · iexact HS0
      ipureintro; exact View.read_writes_of_cover _ _ _ _ _ (scover0_A_0 c _ _ _ _ _)
    iexact H0
  · by_cases h1 : t.val = 9
    · have hc0 : ¬cond0_0 (grid0.coords t) := fun h => h0 ((hcond0_0 t).mp h)
      have hc1 : cond0_1 (grid0.coords t) := (hcond0_1 t).mpr h1
      rw [show (dat0 V c).leavesExact 11 t = owns (c : Thread nD τ) (ms0_11 t) fullShare ((dat0 V c).after 11 t) from by
        unfold Dat.leavesExact; rw [liveAt0_11 t hc1], after0_11]
      rw [outsAt0_C V c t h1]
      unfold out0_C_11 sout0_C_0; (try dsimp only)
      rw [PhiS0_castSucc V c t, PhiS0_pos V c _ _ h0]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_C c (grid0.coords t) (bufs0 t) hc0 hc1 (ins0 V c t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS0]; · iexact HS0
      iintro ⟨H0, H1, H2, H3, H4, H5, H6, H7, H8, H9, H10, ⟨%e11, H11⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      unfold owns; iexists _; isplitr
      swap; · iexact H11
      ipureintro; exact View.read_writes_of_cover _ _ _ _ _ (cover0_C_11 c _ _ _ _ _ _)
    · have hc0 : ¬cond0_0 (grid0.coords t) := fun h => h0 ((hcond0_0 t).mp h)
      have hc1 : ¬cond0_1 (grid0.coords t) := fun h => h1 ((hcond0_1 t).mp h)
      rw [Dat.leavesExact_idle (dat0 V c) 11 t (idleAt0_11 t hc1) (noFlush0_11 t hc1)]
      rw [outsAt0_B V c t h0 h1]
      unfold sout0_B_0; (try dsimp only)
      rw [PhiS0_castSucc V c t, PhiS0_pos V c _ _ h0]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11⟩
      iapply ((kernelRun0_B c (grid0.coords t) (bufs0 t) hc0 hc1 (iblk0 V c 0 t) _).2 Set.univ _)
      isplitl [H0]; · iexact H0
      isplitl [HS0]; · iexact HS0
      iintro ⟨H0, ⟨%es0, HS0⟩⟩
      iframe HR Hg Ho H1 H2 H3 H4 H5 H6 H7 H8 H9 H10 H11
      isplitl [HS0]
      · unfold owns; iexists _; isplitr
        swap; · iexact HS0
        ipureintro; exact View.read_writes_of_cover _ _ _ _ _ (scover0_B_0 c _ _ _ _ _ _)
      iexact H0

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After any point the carried row's contents can be forgotten. -/
theorem Phi_out0 (c : Dev nD) (t : Fin (cfg0.N + 1)) (ht : t.val ≠ 0) : (dat0 V c).Φ t ⊢ (Pipeline.ΦA spec0 c : sProp 𝕄) := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

theorem hout0 (c : Dev nD) : (dat0 V c).Φ (Fin.last cfg0.N) ⊢ (Pipeline.ΦA spec0 c : sProp 𝕄) :=
  Phi_out0 V c _ (by rw [Fin.val_last]; have : cfg0.N = 10 := N_0; omega)

end Cert.KernelIdeal.Hand

end
-- ==== Proof.KI.R1.lean ====
import proofs.«101073_g24988119728772_cont_9to1_1483_2_alg».proof.Proof.Gen.KernelIdeal.Launch
import proofs.«101073_g24988119728772_cont_9to1_1483_2_alg».proof.Proof.Gen.KernelIdeal.Skeleton
import proofs.«101073_g24988119728772_cont_9to1_1483_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (V : (c : Dev nD) → (b : Ref sig .tc) → Buf (Elt F) ((c : Thread nD τ).loc b))

/-- Window `w`'s block at grid point `t`, read off its array as the call finds it. -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

noncomputable abbrev r1_a : Rect S1000x256 := Rect.unit (s := S1000x256) ![0, 0] S1000x256.size inb_S1000x256_S1000x256_0_0
noncomputable abbrev r1_b : Rect S256x128 := Rect.unit (s := S256x128) ![0, 0] S256x128.size inb_S256x128_S256x128_0_0
noncomputable abbrev r1_c : Rect S1x128 := Rect.unit (s := S1x128) ![0, 0] S1x128.size inb_S1x128_S1x128_0_0
noncomputable abbrev r1_d : Rect S128x128 := Rect.unit (s := S128x128) ![0, 0] S128x128.size inb_S128x128_S128x128_0_0

noncomputable abbrev r1_row0 : Rect S2x128 := Rect.unit (s := S2x128) ![0, 0] S1x128.size inb_S2x128_S1x128_0_0
noncomputable abbrev r1_row1 : Rect S2x128 := Rect.unit (s := S2x128) ![1, 0] S1x128.size inb_S2x128_S1x128_1_0
noncomputable abbrev r1_e : Rect S128x256 := Rect.unit (s := S128x256) ![0, 0] S128x256.size inb_S128x256_S128x256_0_0
noncomputable abbrev r1_f : Rect S1x256 := Rect.unit (s := S1x256) ![0, 0] S1x256.size inb_S1x256_S1x256_0_0

/-- What the body stores over the whole output block: the chain of four matrix products on the point's blocks. -/
noncomputable def out1_8 (x0 : Vec F S1000x256 .f32) (x1 : Vec F S256x128 .f32) (x2 : Vec F S1x128 .f32) (x3 x4 : Vec F S128x128 .f32)
    (x5 : Vec F S2x128 .f32) (x6 : Vec F S128x256 .f32) (x7 : Vec F S1x256 .f32) : Vec F S1000x256 .f32 :=
  View.canon [⟨r1_a, k1_pay1 (View.ld x0 r1_a) (View.ld x1 r1_b) (View.ld x2 r1_c) (View.ld x3 r1_d) (View.ld x5 r1_row0)
    (View.ld x4 r1_d) (View.ld x5 r1_row1) (View.ld x6 r1_e) (View.ld x7 r1_f)⟩]

theorem cover1_8 (p0 : Vec F S1000x256 .f32) (y : S1000x256.Idx) :
    ∃ pc ∈ ([⟨r1_a, p0⟩] : List (View.Piece (Elt F) S1000x256 .f32)), y ∈ pc.1.set :=
  View.cover_of_tiled [⟨r1_a, p0⟩] S1000x256.size (by rfl) y

set_option maxHeartbeats 1000000 in

/-- The body on whole buffers: it loads the eight inputs and stores the result over the output's buffer, leaving every input as it was. -/
theorem sound_kernel1 (c : Dev nD) (E : Set ℕ) (i : grid1.Coords)
    (arg1 : Memref sig .tc .vmem S1000x256 .f32) (harg1 : arg1.IsWhole) (arg2 : Memref sig .tc .vmem S256x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S2x128 .f32) (harg6 : arg6.IsWhole)
    (arg7 : Memref sig .tc .vmem S128x256 .f32) (harg7 : arg7.IsWhole) (arg8 : Memref sig .tc .vmem S1x256 .f32) (harg8 : arg8.IsWhole)
    (arg9 : Memref sig .tc .vmem S1000x256 .f32) (harg9 : arg9.IsWhole)
    (x0 : Vec F S1000x256 .f32) (x1 : Vec F S256x128 .f32) (x2 : Vec F S1x128 .f32) (x3 x4 : Vec F S128x128 .f32)
    (x5 : Vec F S2x128 .f32) (x6 : Vec F S128x256 .f32) (x7 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out1_8 x0 x1 x2 x3 x4 x5 x6 x7)) -∗ K ⟨⟩))
      ⊢ wp frame (wpE (defs₀ (F := F)) Variants.none c none) E
          (cc1__main_kernel i arg1 harg1 arg2 harg2 arg3 harg3 arg4 harg4 arg5 harg5 arg6 harg6 arg7 harg7 arg8 harg8 arg9 harg9) K := by
  simp only [cc1__main_kernel_eq_skeleton]; unfold cc1__main_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover1_8 _)

noncomputable def after1 (c : Dev nD) (w : Fin cfg1.W) (t : Fin cfg1.N) : (cfg1.win w).block.Idx → Elt F (cfg1.win w).elt :=
  match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)

/-- The call's proof data: the arrays as the call finds them, each input's buffer at its block, the output's at `out1_8` of the blocks. -/
noncomputable def dat1 (c : Dev nD) : Dat τ (Elt F) Unit ℕ (Pipeline.UD sig nD τ) ℕ cfg1 c where
  A w := V c (Pipeline.arrRef spec1 w)
  after := after1 V c
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1, after1]

/-- An input window's buffer holds the window's block at every grid point. -/
theorem before1_in (c : Dev nD) (t : Fin cfg1.N) :
    ∀ (w : Fin cfg1.W), w ≠ 8 → ∀ d, (dat1 V c).before w t d = (dat1 V c).after w t
  | ⟨0, _⟩, _, d | ⟨1, _⟩, _, d | ⟨2, _⟩, _, d | ⟨3, _⟩, _, d | ⟨4, _⟩, _, d | ⟨5, _⟩, _, d | ⟨6, _⟩, _, d | ⟨7, _⟩, _, d =>
    ((dat1 V c).before_in_eq_fetched _ rfl (fun _ => rfl) (fun _ _ _ => rfl) (fun _ => rfl) t d).trans rfl
  | ⟨8, _⟩, h, _ => absurd rfl h

noncomputable def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

noncomputable def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_in V c t 0 (by decide), before1_in V c t 1 (by decide), before1_in V c t 2 (by decide), before1_in V c t 3 (by decide), before1_in V c t 4 (by decide), before1_in V c t 5 (by decide), before1_in V c t 6 (by decide), before1_in V c t 7 (by decide)]
  rw [show (dat1 V c).Φ t.succ = (dat1 V c).Φ t.castSucc from rfl,
    show (dat1 V c).owesAt () t.succ = (dat1 V c).owesAt () t.castSucc from rfl, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ (grid1.coords t) _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  iframe HΦ Ho H8
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
import proofs.«101073_g24988119728772_cont_9to1_1483_2_alg».proof.Proof.KI.R0
import proofs.«101073_g24988119728772_cont_9to1_1483_2_alg».proof.Proof.KI.R1
import proofs.«101073_g24988119728772_cont_9to1_1483_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

noncomputable abbrev W0 : Dev nD → Valuation τ sig (Elt F) := fun c b => (s₀ m ρ).mem ((c : Dev nD), b)

/-- The buffers of core `c` at the four boundaries of @main: after each stretch of host operations and after each kernel call. -/
noncomputable abbrev W1 : Dev nD → Valuation τ sig (Elt F) := fun c => StableHlo.after hostOps0 (W0 m ρ c)

noncomputable abbrev V1 : (c : Dev nD) → (b : Ref sig .tc) → Buf (Elt F) ((c : Thread nD τ).loc b) := fun c b => W1 m ρ c b

noncomputable def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

noncomputable abbrev V2 : (c : Dev nD) → (b : Ref sig .tc) → Buf (Elt F) ((c : Thread nD τ).loc b) := fun c b => W2 m ρ c b

theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

noncomputable abbrev W3 : Dev nD → Valuation τ sig (Elt F) := fun c => StableHlo.after hostOps1 (W2 m ρ c)

noncomputable abbrev V3 : (c : Dev nD) → (b : Ref sig .tc) → Buf (Elt F) ((c : Thread nD τ).loc b) := fun c b => W3 m ρ c b

noncomputable def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

noncomputable abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

theorem V1_def (c : Dev nD) (b : Ref sig .tc) : V1 m ρ c b = StableHlo.after hostOps0 (W0 m ρ c) (Proc.devRef .tc b) := rfl
theorem V3_def (c : Dev nD) (b : Ref sig .tc) : V3 m ρ c b = StableHlo.after hostOps1 (W2 m ρ c) (Proc.devRef .tc b) := rfl

/-- A stretch of host operations changes only the references it writes; a kernel call changes only its output's array. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))

theorem W2_of (c : Dev nD) (r : Ref sig .tc) (h : r ≠ main_call0_v14) :
    W2 m ρ c (Proc.devRef .tc r) = W1 m ρ c (Proc.devRef .tc r) := by
  by_cases hr : ∃ w, Pipeline.arrRef spec0 w = r
  · obtain ⟨w, rfl⟩ := hr
    have hin : (cfg0.win w).isOut = false := by
      revert h; revert w; decide
    exact W2_in m ρ c w hin
  · exact W2_of_ne m ρ c r fun w e => hr ⟨w, e⟩

theorem W4_of (c : Dev nD) (r : Ref sig .tc) (h : r ≠ main_v0) :
    W4 m ρ c (Proc.devRef .tc r) = W3 m ρ c (Proc.devRef .tc r) := by
  by_cases hr : ∃ w, Pipeline.arrRef spec1 w = r
  · obtain ⟨w, rfl⟩ := hr
    have hin : (cfg1.win w).isOut = false := by
      revert h; revert w; decide
    exact W4_in m ρ c w hin
  · exact W4_of_ne m ρ c r fun w e => hr ⟨w, e⟩

/-- So a reference that no stretch and no call writes holds its launch contents at every boundary. -/
theorem W1_kept (c : Dev nD) (r : Ref sig .tc) (h0 : r ∉ hostOps0_W) :
    W1 m ρ c (Proc.devRef .tc r) = m ((c : Thread nD τ).loc r) :=
  (W1_of m ρ c r h0).trans rfl
theorem W2_kept (c : Dev nD) (r : Ref sig .tc) (h0 : r ∉ hostOps0_W) (h1 : r ≠ main_call0_v14) :
    W2 m ρ c (Proc.devRef .tc r) = m ((c : Thread nD τ).loc r) :=
  (W2_of m ρ c r h1).trans (W1_kept m ρ c r h0)
theorem W3_kept (c : Dev nD) (r : Ref sig .tc) (h0 : r ∉ hostOps0_W) (h1 : r ≠ main_call0_v14) (h2 : r ∉ hostOps1_W) :
    W3 m ρ c (Proc.devRef .tc r) = m ((c : Thread nD τ).loc r) :=
  (W3_of m ρ c r h2).trans (W2_kept m ρ c r h0 h1)
theorem W4_kept (c : Dev nD) (r : Ref sig .tc)
    (h : r ∉ hostOps0_W ∧ r ≠ main_call0_v14 ∧ r ∉ hostOps1_W ∧ r ≠ main_v0) :
    W4 m ρ c (Proc.devRef .tc r) = m ((c : Thread nD τ).loc r) :=
  (W4_of m ρ c r h.2.2.2).trans (W3_kept m ρ c r h.1 h.2.1 h.2.2.1)

theorem W4_main_v0 (c : Dev nD) : W4 m ρ c (Proc.devRef .tc main_v0) = (dat1 (V3 m ρ) c).arrAt 8 cfg1.N :=
  W4_arr m ρ c 8

theorem V3_c (c : Dev nD) : V3 m ρ c main_call0_v14 = (dat0 (V1 m ρ) c).arrAt 11 cfg0.N :=
  (W3_of m ρ c main_call0_v14 (by decide)).trans (W2_arr m ρ c 11)

theorem V3_main_call0_v1 (c : Dev nD) :
    V3 m ρ c main_call0_v1 = StableHlo.after hostOps0 (W0 m ρ c) (Proc.devRef .tc main_call0_v1) :=
  (W3_of m ρ c main_call0_v1 (by decide)).trans (W2_of m ρ c main_call0_v1 (by decide))
theorem V3_main_call0_v5 (c : Dev nD) :
    V3 m ρ c main_call0_v5 = StableHlo.after hostOps0 (W0 m ρ c) (Proc.devRef .tc main_call0_v5) :=
  (W3_of m ρ c main_call0_v5 (by decide)).trans (W2_of m ρ c main_call0_v5 (by decide))

/-- Each call's proof data, at the contents that call is entered with. -/
noncomputable def pdats : (p : Fin 2) → (c : Dev nD) → Dat τ (Elt F) Unit ℕ (Pipeline.UD sig nD τ) ℕ (Pipeline.pin (pcfgs (F := F)) adm p) c
  | ⟨0, _⟩ => fun c => dat0 (V1 m ρ) c
  | ⟨1, _⟩ => fun c => dat1 (V3 m ρ) c
noncomputable abbrev 𝒱₀ : Variants := Variants.none

noncomputable abbrev L : GSem nD τ sig → Finset Unit := fun _ => ∅
noncomputable abbrev lv : GSem nD τ sig → Unit → ℕ := fun _ _ => 0

noncomputable abbrev R (c : Dev nD) : sProp 𝕄 := iprop((∃ r, prngReg c r) ∗ ∃ W, owes (c : Thread nD τ) (0 : CellTallies nD τ sig Unit) W)

noncomputable abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

noncomputable abbrev hseg0 : Pipeline.HostSeg (Name := ℕ) (U := Pipeline.UD sig nD τ) (pcfgs (F := F)) defs₀ 𝒱₀ L lv :=
  hseg hostOps0 hostOps0_sub hostOps0_fresh (W0 m ρ)
noncomputable abbrev hseg1 : Pipeline.HostSeg (Name := ℕ) (U := Pipeline.UD sig nD τ) (pcfgs (F := F)) defs₀ 𝒱₀ L lv :=
  hseg hostOps1 hostOps1_sub hostOps1_fresh (W2 m ρ)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

noncomputable abbrev Tₙ (c : Dev nD) : sProp 𝕄 := iprop(StableHlo.held (c : Thread nD τ) (Pipeline.ucRefs τ sig) (W4 m ρ c) ∗ ∃ r, prngReg c r)

set_option backward.isDefEq.respectTransparency.types false in
/-- The first call as a segment of the run: entered at `W1`, left at `W2`; the carried row is at anything before the first point and forgotten after the last. -/
noncomputable def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered at `W3`, left at `W4`. -/
noncomputable def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

noncomputable abbrev segs : List (Pipeline.Seg (pcfgs (F := F)) adm (pdats m ρ) () defs₀ 𝒱₀ L lv) :=
  [ .host (hseg0 m ρ),
    .region (reg0 m ρ),
    .host (hseg1 m ρ),
    .region (reg1 m ρ) ]

theorem main_run (c : Dev nD) : main (F := F) c = Pipeline.Seg.run (segs m ρ) :=
  main_segs adm (pdats m ρ) () 𝒱₀ L lv (hseg0 m ρ) (hseg1 m ρ) (reg0 m ρ) (reg1 m ρ) rfl rfl c

set_option backward.isDefEq.respectTransparency.types false in
/-- Every weakly fair execution of @main terminates without a fault, the result at what the second call leaves in its output's array and every argument as launched. -/
theorem run_main : θ_run defs (onTc (τ := τ) (main (F := F))) ⟨m, fun _ => 0, ρ⟩ (fun r => ∀ c : Dev nD,
      r.2.mem ((c.tc : Thread nD τ).loc main_v0) = (dat1 (V3 m ρ) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v0 (by decide))).trans (W4_main_v0 m ρ c),
       (h c _ (mem_uc main_arg0 (by decide))).trans (W4_kept m ρ c main_arg0 (by decide)),
       (h c _ (mem_uc main_arg1 (by decide))).trans (W4_kept m ρ c main_arg1 (by decide)),
       (h c _ (mem_uc main_arg2 (by decide))).trans (W4_kept m ρ c main_arg2 (by decide)),
       (h c _ (mem_uc main_arg3 (by decide))).trans (W4_kept m ρ c main_arg3 (by decide)),
       (h c _ (mem_uc main_arg4 (by decide))).trans (W4_kept m ρ c main_arg4 (by decide)),
       (h c _ (mem_uc main_arg5 (by decide))).trans (W4_kept m ρ c main_arg5 (by decide)),
       (h c _ (mem_uc main_arg6 (by decide))).trans (W4_kept m ρ c main_arg6 (by decide)),
       (h c _ (mem_uc main_arg7 (by decide))).trans (W4_kept m ρ c main_arg7 (by decide)),
       (h c _ (mem_uc main_arg8 (by decide))).trans (W4_kept m ρ c main_arg8 (by decide)),
       (h c _ (mem_uc main_arg9 (by decide))).trans (W4_kept m ρ c main_arg9 (by decide)),
       (h c _ (mem_uc main_arg10 (by decide))).trans (W4_kept m ρ c main_arg10 (by decide)),
       (h c _ (mem_uc main_arg11 (by decide))).trans (W4_kept m ρ c main_arg11 (by decide)),
       (h c _ (mem_uc main_arg12 (by decide))).trans (W4_kept m ρ c main_arg12 (by decide))⟩)

end Cert.KernelIdeal.Hand

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

structure Args where
  v : Fin 10000 → Fin 256 → EReal
  qa : Fin 32 → BitVec 32
  emb : Fin 512 → Fin 128 → EReal
  Win : Fin 256 → Fin 128 → EReal
  bin : Fin 128 → EReal
  Wa : Fin 2 → Fin 128 → Fin 128 → EReal
  Ua : Fin 2 → Fin 128 → Fin 128 → EReal
  ba : Fin 2 → Fin 128 → EReal
  Wv : Fin 2 → Fin 128 → Fin 128 → EReal
  Uv : Fin 2 → Fin 128 → Fin 128 → EReal
  bv : Fin 2 → Fin 128 → EReal
  Wout : Fin 128 → Fin 256 → EReal
  bout : Fin 256 → EReal

noncomputable def Args.ofArrays (a0 : (⟨2, ![10000, 256]⟩ : Shape).Idx → EReal) (a1 : (⟨1, ![32]⟩ : Shape).Idx → BitVec 32)
    (a2 : (⟨2, ![512, 128]⟩ : Shape).Idx → EReal) (a3 : (⟨2, ![256, 128]⟩ : Shape).Idx → EReal)
    (a4 : (⟨1, ![128]⟩ : Shape).Idx → EReal) (a5 a6 : (⟨3, ![2, 128, 128]⟩ : Shape).Idx → EReal)
    (a7 : (⟨2, ![2, 128]⟩ : Shape).Idx → EReal) (a8 a9 : (⟨3, ![2, 128, 128]⟩ : Shape).Idx → EReal)
    (a10 : (⟨2, ![2, 128]⟩ : Shape).Idx → EReal) (a11 : (⟨2, ![128, 256]⟩ : Shape).Idx → EReal)
    (a12 : (⟨1, ![256]⟩ : Shape).Idx → EReal) : Args where
  v n k := a0 (ix2 n k)
  qa a := a1 (ix1 a)
  emb r h := a2 (ix2 r h)
  Win k h := a3 (ix2 k h)
  bin h := a4 (ix1 h)
  Wa l k h := a5 (ix3 l k h)
  Ua l k h := a6 (ix3 l k h)
  ba l h := a7 (ix2 l h)
  Wv l k h := a8 (ix3 l k h)
  Uv l k h := a9 (ix3 l k h)
  bv l h := a10 (ix2 l h)
  Wout k j := a11 (ix2 k j)
  bout j := a12 (ix1 j)

noncomputable abbrev toArr2 {a b : Nat} (f : Fin a → Fin b → EReal) : (⟨2, ![a, b]⟩ : Shape).Idx → EReal := fun j => f (j 0) (j 1)
theorem arr2_ext {a b : Nat} {x y : (⟨2, ![a, b]⟩ : Shape).Idx → EReal} (h : ∀ p q, x (ix2 p q) = y (ix2 p q)) : x = y := by
  funext j; rw [eq_ix2 j]; exact h _ _

noncomputable def IsReal (x : EReal) : Prop := x ≠ ⊤ ∧ x ≠ ⊥

/-- The node features and the input projection hold real numbers; the bridge needs no more (linearity of that projection under the mean). -/
structure Args.Finite (A : Args) : Prop where
  v : ∀ n k, IsReal (A.v n k)
  Win : ∀ k h, IsReal (A.Win k h)
  bin : ∀ h, IsReal (A.bin h)

noncomputable def Args.InRange (A : Args) : Prop := ∀ a, 0 ≤ (A.qa a).toInt ∧ (A.qa a).toInt < 512

variable (A : Args)

noncomputable def kAcc (k : Fin 256) : EReal := ∑ n : Fin 10000, A.v n k
noncomputable def kMeanV (k : Fin 256) : EReal := kAcc A k * ((1 / 10000 : ℝ) : EReal)
noncomputable def kMeanH (h : Fin 128) : EReal := (∑ k : Fin 256, kMeanV A k * A.Win k h) + A.bin h
noncomputable def kOneHot (a : Fin 32) (r : Fin 512) : EReal := if BitVec.ofNat 32 r.val = A.qa a then 1 else 0
noncomputable def kHa0 (a : Fin 32) (h : Fin 128) : EReal := ∑ r : Fin 512, kOneHot A a r * A.emb r h
noncomputable def kMeanA0 (h : Fin 128) : EReal := (∑ a : Fin 32, kHa0 A a h) * ((1 / 32 : ℝ) : EReal)
noncomputable def kHa1 (a : Fin 32) (h : Fin 128) : EReal :=
  max ((((∑ k : Fin 128, kMeanH A k * A.Wa 0 k h)) + (∑ k : Fin 128, kHa0 A a k * A.Ua 0 k h)) + A.ba 0 h) 0
noncomputable def kMeanA1 (h : Fin 128) : EReal := (∑ a : Fin 32, kHa1 A a h) * ((1 / 32 : ℝ) : EReal)
noncomputable def kC0 (h : Fin 128) : EReal := (∑ k : Fin 128, kMeanA0 A k * A.Wv 0 k h) + A.bv 0 h
noncomputable def kC1 (h : Fin 128) : EReal := (∑ k : Fin 128, kMeanA1 A k * A.Wv 1 k h) + A.bv 1 h
noncomputable def kH0 (n : Fin 10000) (h : Fin 128) : EReal := (∑ k : Fin 256, A.v n k * A.Win k h) + A.bin h
noncomputable def kH1 (n : Fin 10000) (h : Fin 128) : EReal := max ((∑ k : Fin 128, kH0 A n k * A.Uv 0 k h) + kC0 A h) 0
noncomputable def kH2 (n : Fin 10000) (h : Fin 128) : EReal := max ((∑ k : Fin 128, kH1 A n k * A.Uv 1 k h) + kC1 A h) 0
noncomputable def KOut (n : Fin 10000) (j : Fin 256) : EReal := (∑ k : Fin 128, kH2 A n k * A.Wout k j) + A.bout j

noncomputable def rHa0 (a : Fin 32) (h : Fin 128) : EReal := A.emb (Fin.ofNat 512 (A.qa a).toNat) h
noncomputable def rHv0 (n : Fin 10000) (h : Fin 128) : EReal := (∑ k : Fin 256, A.v n k * A.Win k h) + A.bin h
noncomputable def rAggA0 (h : Fin 128) : EReal := Ideal.div (∑ n : Fin 10000, rHv0 A n h) ((10000 : ℝ) : EReal)
noncomputable def rAggV0 (h : Fin 128) : EReal := Ideal.div (∑ a : Fin 32, rHa0 A a h) ((32 : ℝ) : EReal)
noncomputable def rHa1 (a : Fin 32) (h : Fin 128) : EReal :=
  max (((∑ k : Fin 128, rAggA0 A k * A.Wa 0 k h) + (∑ k : Fin 128, rHa0 A a k * A.Ua 0 k h)) + A.ba 0 h) 0
noncomputable def rHv1 (n : Fin 10000) (h : Fin 128) : EReal :=
  max (((∑ k : Fin 128, rAggV0 A k * A.Wv 0 k h) + (∑ k : Fin 128, rHv0 A n k * A.Uv 0 k h)) + A.bv 0 h) 0
noncomputable def rAggV1 (h : Fin 128) : EReal := Ideal.div (∑ a : Fin 32, rHa1 A a h) ((32 : ℝ) : EReal)
noncomputable def rHv2 (n : Fin 10000) (h : Fin 128) : EReal :=
  max (((∑ k : Fin 128, rAggV1 A k * A.Wv 1 k h) + (∑ k : Fin 128, rHv1 A n k * A.Uv 1 k h)) + A.bv 1 h) 0
noncomputable def ROut (n : Fin 10000) (j : Fin 256) : EReal := (∑ k : Fin 128, rHv2 A n k * A.Wout k j) + A.bout j

end Cert.Spec

end
-- ==== Proof.KI.Val0a.lean ====
import proofs.«101073_g24988119728772_cont_9to1_1483_2_alg».proof.Proof.Spec
import Mathlib.Algebra.BigOperators.Fin
import Mathlib.Algebra.BigOperators.Group.Finset.Basic

noncomputable section

open scoped BigOperators

namespace Cert.KernelIdeal.Hand

open Idealize.ShloMosaic Idealize.ShloMosaic.ValueIdx

/-- Column `k` of the node features as a sequence over the row number, zero past the last row. -/
noncomputable def vrow (A : Cert.Spec.Args) (k : Fin 256) (j : ℕ) : EReal := if h : j < 10000 then A.v ⟨j, h⟩ k else 0

theorem vrow_of_lt (A : Cert.Spec.Args) (k : Fin 256) (n : Fin 10000) : vrow A k n.val = A.v n k :=
  dif_pos n.isLt

/-- A block whose row `r` is row `1000 t + r` of the features sums, down a column, to that stretch of the sequence. -/
theorem blocksum_eq (A : Cert.Spec.Args) (k : Fin 256) (t : ℕ) (ht : t < 10) (x : (⟨2, ![1000, 256]⟩ : Shape).Idx → EReal)
    (hx : ∀ (r : Fin 1000) (n : Fin 10000), n.val = 1000 * t + r.val → x (ix2 r k) = A.v n k) :
    ∑ r : Fin 1000, x (ix2 r k) = ∑ r ∈ Finset.range 1000, vrow A k (1000 * t + r) := by
  rw [Finset.sum_range]
  refine Finset.sum_congr rfl fun r _ => ?_
  have hr : r.val < 1000 := r.isLt
  have hlt : 1000 * t + r.val < 10000 := by omega
  rw [hx r ⟨1000 * t + r.val, hlt⟩ rfl]
  exact (vrow_of_lt A k ⟨1000 * t + r.val, hlt⟩).symm

theorem sum_first (f : ℕ → EReal) : 0 + ∑ r ∈ Finset.range 1000, f (1000 * 0 + r) = ∑ j ∈ Finset.range (1000 * (0 + 1)), f j := by
  rw [zero_add]
  refine Finset.sum_congr rfl fun r _ => ?_
  rw [Nat.mul_zero, Nat.zero_add]

theorem sum_step (f : ℕ → EReal) (n : ℕ) :
    ∑ j ∈ Finset.range (1000 * (n + 1)), f j + ∑ r ∈ Finset.range 1000, f (1000 * (n + 1) + r) = ∑ j ∈ Finset.range (1000 * (n + 1 + 1)), f j := by
  rw [show 1000 * (n + 1 + 1) = 1000 * (n + 1) + 1000 from by omega, Finset.sum_range_add]

theorem sum_all (A : Cert.Spec.Args) (k : Fin 256) : ∑ j ∈ Finset.range (1000 * (9 + 1)), vrow A k j = Cert.Spec.kAcc A k := by
  unfold Cert.Spec.kAcc
  rw [show 1000 * (9 + 1) = 10000 from rfl, Finset.sum_range]
  exact Finset.sum_congr rfl fun n _ => vrow_of_lt A k n

end Cert.KernelIdeal.Hand

end
-- ==== Proof.KI.Pay0a.lean ====
import Idealize.ShloMosaic.Lib.KernelVsHost
import Idealize.ShloMosaic.Lib.StackMember

noncomputable section

open scoped BigOperators

namespace Cert.KernelIdeal.Hand

open Idealize.ShloMosaic Idealize.ShloMosaic.ValueIdx

/-- A plain `m × k` by `k × n` product added to zero: entry `(p, c)` is the sum over the contracted coordinate. -/
theorem mm {m k n : ℕ} (x : FVec Ideal ⟨2, ![m, k]⟩ .f32) (w : FVec Ideal ⟨2, ![k, n]⟩ .f32) (p : Fin m) (c : Fin n) :
    matmul (DotDims.plain m k n) none x w (constant (F := Ideal) ⟨2, ![m, n]⟩ .f32 0x00000000#32) (ix2 p c)
      = ∑ j : Fin k, x (ix2 p j) * w (ix2 j c) :=
  (congrFun (matmul_zero_eq_dotGeneral _ none x w) _).trans (StackMember.dotGeneral_plain_apply none x w p c)

end Cert.KernelIdeal.Hand

end
-- ==== Proof.Spec.Lits.lean ====
import Idealize.ShloMosaic.PureOps.Ideal.Laws
import Idealize.ShloMosaic.Lib.ValueIdx

noncomputable section

namespace Cert.Spec

open Idealize.ShloMosaic Idealize.ShloMosaic.ValueIdx

/-- Sign 0, exponent field 122, fraction 0: `2^23 · 2^(122 - 150)`. -/
theorem lit_inv32 : (Ideal.ofBits .f32 0x3D000000#32 : EReal) = ((1 / 32 : ℝ) : EReal) := by
  simp [Ideal.ofBits, Ideal.ieee, -EReal.coe_mul]; norm_num

/-- Exponent field 132, fraction 0: `2^23 · 2^(132 - 150)`. -/
theorem lit_32 : (Ideal.ofBits .f32 0x42000000#32 : EReal) = ((32 : ℝ) : EReal) := by
  simp [Ideal.ofBits, Ideal.ieee, -EReal.coe_mul]; norm_num

/-- Exponent field 140, fraction 1851392: `(2^23 + 1851392) · 2^(140 - 150)`. -/
theorem lit_10000 : (Ideal.ofBits .f32 0x461C4000#32 : EReal) = ((10000 : ℝ) : EReal) := by
  simp [Ideal.ofBits, Ideal.ieee, -EReal.coe_mul]; norm_num

theorem lit_zero : (Ideal.ofBits .f32 0x00000000#32 : EReal) = 0 := Ideal.ofBits_zero_f32

theorem scalar_inv32 : (Scalar.ofBits .f32 0x3D000000#32 : Ideal .f32) = ((1 / 32 : ℝ) : EReal) := lit_inv32
theorem scalar_zero : (Scalar.ofBits .f32 0x00000000#32 : Ideal .f32) = 0 := lit_zero

end Cert.Spec

end
-- ==== Proof.Spec.LitsK.lean ====
import Idealize.ShloMosaic.PureOps.IdealRules
import proofs.«101073_g24988119728772_cont_9to1_1483_2_alg».proof.KernelIdeal

noncomputable section

namespace Cert.KernelIdeal.Hand

open Idealize.ShloMosaic

/-- The constants table gives the name the exact rational, whatever the f32 pattern beside it denotes. -/
theorem named_inv10000 :
    Named.named (F := Ideal) Cert.KernelIdeal.κ "inv_10000" (φ := .f32) 0x38D1B717#32 = ((1 / 10000 : ℝ) : EReal) :=
  IdealRules.named_const.ideal_named_scalar _ _ _ _ rfl

theorem named_inv10000_statement :
    IdealRules.named_const.Statement Cert.KernelIdeal.κ "inv_10000" .f32 0x38D1B717#32 ((1 / 10000 : ℝ) : EReal) :=
  IdealRules.named_const.statement Cert.KernelIdeal.κ "inv_10000" .f32 0x38D1B717#32 _ rfl

end Cert.KernelIdeal.Hand

end
-- ==== Proof.KI.Pay0.lean ====
import proofs.«101073_g24988119728772_cont_9to1_1483_2_alg».proof.Proof.KI.Pay0a
import proofs.«101073_g24988119728772_cont_9to1_1483_2_alg».proof.Proof.Gen.KernelIdeal.Skeleton
import proofs.«101073_g24988119728772_cont_9to1_1483_2_alg».proof.Proof.Spec
import proofs.«101073_g24988119728772_cont_9to1_1483_2_alg».proof.Proof.Spec.Lits
import proofs.«101073_g24988119728772_cont_9to1_1483_2_alg».proof.Proof.Spec.LitsK
import Idealize.ShloMosaic.Lib.ValueLayout
import Idealize.ShloMosaic.Lib.Pipeline.Value

noncomputable section

open scoped BigOperators

namespace Cert.KernelIdeal.Hand

open Idealize.ShloMosaic Idealize.ShloMosaic.ValueIdx Cert.KernelIdeal Cert.KernelIdeal.Gen

/-- Summing an `[n, m]` array over its rows leaves, at column `c`, the sum down that column. -/
theorem colSum_apply {n m : ℕ} (src : FVec Ideal ⟨2, ![n, m]⟩ .f32) (h : (⟨2, ![n, m]⟩ : Shape).Reduces [0] ⟨1, ![m]⟩)
    (hφ : FKind.Formats .f32) (hacc : (0x00000000#32 : BitVec 32) = FKind.add.neutral .f32 hφ) (c : Fin m) :
    multiReduction (F := Ideal) .add [0] ⟨1, ![m]⟩ src 0x00000000#32 h hφ hacc (ix1 c) = ∑ r : Fin n, src (ix2 r c) := by
  refine (Ideal.multiReduction_add_single src 0x00000000#32 h hφ hacc (ix1 c)).trans ?_
  refine Finset.sum_congr rfl fun r _ => congrArg src ?_
  funext a
  apply Fin.ext
  match a with
  | ⟨0, _⟩ => rfl
  | ⟨1, _⟩ => rfl

/-- An `[a, 1]` column laid along `b` columns reads its own row. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An equality test widened to 32 bits and converted to a float is 1 where the words agree and 0 elsewhere. -/
theorem word_one_hot (x y : BitVec 32) :
    ((((IntOp.cmpi .eq x y).setWidth 32).toInt : ℝ) : EReal) = if x = y then 1 else 0 := by
  by_cases h : x = y
  · rw [if_pos h, IntOp.cmpi_eq.2 h]
    have : ((1#1 : BitVec 1).setWidth 32).toInt = 1 := by decide
    rw [this]; simp
  · have h0 : IntOp.cmpi .eq x y = 0#1 := eq_zero_of_ne_one fun h1 => h (IntOp.cmpi_eq.1 h1)
    rw [if_neg h, h0]
    have : ((0#1 : BitVec 1).setWidth 32).toInt = 0 := by decide
    rw [this]; simp

theorem onehot_at (v23 : IVec S32x1 32) (a : Fin 32) (r : Fin 512) :
    (sitofp (F := Ideal) .f32 (extui 32 (cmpi .eq (iota .tc S32x512 32 [1] iota_S32x512_d1_w32)
      (broadcastTo S32x512 v23 broadcasts_S32x1_S32x512)) natLt_1_32)) (ix2 a r)
      = if BitVec.ofNat 32 r.val = v23 (ix2 a (0 : Fin 1)) then 1 else 0 := by
  refine Eq.trans ?_ (word_one_hot _ _)
  show ((((IntOp.cmpi .eq (iota .tc S32x512 32 [1] iota_S32x512_d1_w32 (ix2 a r))
      (broadcastTo S32x512 v23 broadcasts_S32x1_S32x512 (ix2 a r))).setWidth 32).toInt : ℝ) : EReal) = _
  rw [iota_single_apply, broadcastTo_a1_ab_apply]

theorem concat_rows_0 {α : Type} (x₁ x₂ : S1x128.Idx → α) (hc : Shape.Concatenates [S1x128, S1x128] S2x128 0) (h : Fin 128) :
    concatenate S2x128 0 [⟨S1x128, x₁⟩, ⟨S1x128, x₂⟩] hc (ix2 (0 : Fin 2) h) = x₁ (ix2 (0 : Fin 1) h) :=
  concatenate_pair_apply_left (0 : Fin S2x128.rank) x₁ x₂ hc (ix2 (0 : Fin 2) h) rfl (ix2 (0 : Fin 1) h) (fun b => by
    match b with
    | ⟨0, _⟩ => rfl
    | ⟨1, _⟩ => rfl)

theorem concat_rows_1 {α : Type} (x₁ x₂ : S1x128.Idx → α) (hc : Shape.Concatenates [S1x128, S1x128] S2x128 0) (h : Fin 128) :
    concatenate S2x128 0 [⟨S1x128, x₁⟩, ⟨S1x128, x₂⟩] hc (ix2 (1 : Fin 2) h) = x₂ (ix2 (0 : Fin 1) h) :=
  concatenate_pair_apply_right (0 : Fin S2x128.rank) x₁ x₂ hc (ix2 (1 : Fin 2) h) rfl rfl (ix2 (0 : Fin 1) h) (fun b hb => by
    match b with
    | ⟨0, _⟩ => exact absurd rfl hb
    | ⟨1, _⟩ => rfl) rfl

theorem colSum32 (src : FVec Ideal S32x128 .f32) (c : Fin 128) :
    multiReduction (F := Ideal) .add [0] S128 src 0x00000000#32 reduces_S32x128_S128 (.inl rfl) rfl (ix1 c) = ∑ r : Fin 32, src (ix2 r c) :=
  colSum_apply src _ _ _ c

theorem dotA : dot_S1x256_S256x128_S1x128_1_0_0_1_n_n = DotDims.plain 1 256 128 := rfl
theorem dotB : dot_S32x512_S512x128_S32x128_1_0_0_1_n_n = DotDims.plain 32 512 128 := rfl
theorem dotC : dot_S1x128_S128x128_S1x128_1_0_0_1_n_n = DotDims.plain 1 128 128 := rfl
theorem dotD : dot_S32x128_S128x128_S32x128_1_0_0_1_n_n = DotDims.plain 32 128 128 := rfl

theorem pay1_at (k : Fin 256) : k0_pay1 (F := Ideal) (ix2 (0 : Fin 1) k) = 0 := by
  unfold k0_pay1
  rw [shapeCast_self]
  exact Cert.Spec.lit_zero

theorem pay2_at (v3 : Vec Ideal S1x256 .f32) (v4 : Vec Ideal S1000x256 .f32) (k : Fin 256) :
    k0_pay2 (F := Ideal) v3 v4 (ix2 (0 : Fin 1) k) = v3 (ix2 0 k) + ∑ r : Fin 1000, v4 (ix2 r k) := by
  unfold k0_pay2
  rw [shapeCast_self]
  refine (addf_apply _ _ _).trans ?_
  rw [shapeCast_a_1a_apply]
  exact congrArg (v3 (ix2 0 k) + ·) (colSum_apply v4 _ _ _ k)

section ClosedForms

open Cert.Spec

variable (A : Cert.Spec.Args)

theorem pay4_spec (v23 : Vec Ideal S32x1 .i32) (v29 : Vec Ideal S512x128 .f32)
    (h23 : ∀ a, v23 (ix2 a (0 : Fin 1)) = A.qa a) (h29 : ∀ r h, v29 (ix2 r h) = A.emb r h) (a : Fin 32) (h : Fin 128) :
    k0_pay4 (F := Ideal) v23 v29 (ix2 a h) = kHa0 A a h := by
  unfold k0_pay4 kHa0 kOneHot
  simp only [dotB, mm, shapeCast_self, h29]
  refine Finset.sum_congr rfl fun r _ => ?_
  rw [onehot_at, h23]

theorem pay5_spec (v23 : Vec Ideal S32x1 .i32) (v29 : Vec Ideal S512x128 .f32)
    (h23 : ∀ a, v23 (ix2 a (0 : Fin 1)) = A.qa a) (h29 : ∀ r h, v29 (ix2 r h) = A.emb r h) (h : Fin 128) :
    k0_pay5 (F := Ideal) v23 v29 (ix2 (0 : Fin 1) h) = kMeanA0 A h := by
  unfold k0_pay5 kMeanA0
  simp only [mulf_apply, shapeCast_a_1a_apply, broadcast_apply, scalar_inv32]
  rw [colSum32]
  simp only [pay4_spec A v23 v29 h23 h29]

theorem pay6_spec (v14 : Vec Ideal S1x256 .f32) (v17 : Vec Ideal S256x128 .f32) (v19 : Vec Ideal S1x128 .f32)
    (v23 : Vec Ideal S32x1 .i32) (v29 : Vec Ideal S512x128 .f32) (v35 : Vec Ideal S128x128 .f32)
    (v38 : Vec Ideal S128x128 .f32) (v43 : Vec Ideal S1x128 .f32)
    (h14 : ∀ k, v14 (ix2 (0 : Fin 1) k) = kAcc A k) (h17 : ∀ k h, v17 (ix2 k h) = A.Win k h)
    (h19 : ∀ h, v19 (ix2 (0 : Fin 1) h) = A.bin h) (h23 : ∀ a, v23 (ix2 a (0 : Fin 1)) = A.qa a)
    (h29 : ∀ r h, v29 (ix2 r h) = A.emb r h) (h35 : ∀ k h, v35 (ix2 k h) = A.Wa 0 k h)
    (h38 : ∀ k h, v38 (ix2 k h) = A.Ua 0 k h) (h43 : ∀ h, v43 (ix2 (0 : Fin 1) h) = A.ba 0 h)
    (a : Fin 32) (h : Fin 128) :
    k0_pay6 (F := Ideal) v14 v17 v19 v23 v29 v35 v38 v43 (ix2 a h) = kHa1 A a h := by
  unfold k0_pay6 kHa1 kMeanH kMeanV
  simp only [dotA, dotC, dotD, mm, addf_apply, mulf_apply, maximumf_apply, broadcast_apply, shapeCast_self, broadcastTo_1b_ab_apply,
    scalar_zero, named_inv10000, pay4_spec A v23 v29 h23 h29, h14, h17, h19, h35, h38, h43]

/-- Read entry by entry, the payload is the closed form: products are sums over the contracted coordinate, the one-hot matrix is `kOneHot`, a row mean is the column sum times `1/32`. -/
theorem pay3_spec (v14 : Vec Ideal S1x256 .f32) (v17 : Vec Ideal S256x128 .f32) (v19 : Vec Ideal S1x128 .f32)
    (v23 : Vec Ideal S32x1 .i32) (v29 : Vec Ideal S512x128 .f32) (v35 : Vec Ideal S128x128 .f32)
    (v38 : Vec Ideal S128x128 .f32) (v43 : Vec Ideal S1x128 .f32) (v53 : Vec Ideal S128x128 .f32)
    (v56 : Vec Ideal S1x128 .f32) (v58 : Vec Ideal S128x128 .f32) (v61 : Vec Ideal S1x128 .f32)
    (h14 : ∀ k, v14 (ix2 (0 : Fin 1) k) = kAcc A k) (h17 : ∀ k h, v17 (ix2 k h) = A.Win k h)
    (h19 : ∀ h, v19 (ix2 (0 : Fin 1) h) = A.bin h) (h23 : ∀ a, v23 (ix2 a (0 : Fin 1)) = A.qa a)
    (h29 : ∀ r h, v29 (ix2 r h) = A.emb r h) (h35 : ∀ k h, v35 (ix2 k h) = A.Wa 0 k h)
    (h38 : ∀ k h, v38 (ix2 k h) = A.Ua 0 k h) (h43 : ∀ h, v43 (ix2 (0 : Fin 1) h) = A.ba 0 h)
    (h53 : ∀ k h, v53 (ix2 k h) = A.Wv 0 k h) (h56 : ∀ h, v56 (ix2 (0 : Fin 1) h) = A.bv 0 h)
    (h58 : ∀ k h, v58 (ix2 k h) = A.Wv 1 k h) (h61 : ∀ h, v61 (ix2 (0 : Fin 1) h) = A.bv 1 h) (h : Fin 128) :
    k0_pay3 (F := Ideal) (k0_pay5 v23 v29) (k0_pay6 v14 v17 v19 v23 v29 v35 v38 v43) v53 v56 v58 v61 (ix2 (0 : Fin 2) h) = kC0 A h
    ∧ k0_pay3 (F := Ideal) (k0_pay5 v23 v29) (k0_pay6 v14 v17 v19 v23 v29 v35 v38 v43) v53 v56 v58 v61 (ix2 (1 : Fin 2) h) = kC1 A h := by
  unfold k0_pay3 kC0 kC1 kMeanA1
  simp only [dotC, mm, concat_rows_0, concat_rows_1, addf_apply, mulf_apply, shapeCast_self, shapeCast_a_1a_apply,
    broadcast_apply, scalar_inv32, pay5_spec A v23 v29 h23 h29, h53, h56, h58, h61, true_and]
  refine congrArg (· + _) (Finset.sum_congr rfl fun k _ => ?_)
  rw [colSum32]
  simp only [pay6_spec A v14 v17 v19 v23 v29 v35 v38 v43 h14 h17 h19 h23 h29 h35 h38 h43]

end ClosedForms

end Cert.KernelIdeal.Hand

end
-- ==== Proof.KI.Val0b.lean ====
import proofs.«101073_g24988119728772_cont_9to1_1483_2_alg».proof.Proof.KI.Val0a
import proofs.«101073_g24988119728772_cont_9to1_1483_2_alg».proof.Proof.KI.Pay0
import proofs.«101073_g24988119728772_cont_9to1_1483_2_alg».proof.Proof.KI.R0Runs
import proofs.«101073_g24988119728772_cont_9to1_1483_2_alg».proof.Proof.Spec
import Idealize.ShloMosaic.Lib.Pipeline.Value
import Idealize.ShloMosaic.Lib.ValueIdx

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window BodyObligation cellOf)

/-- Two rank-2 indices with the same coordinates are equal. -/
theorem idx2_ext {n0 n1 : ℕ} (i j : (⟨2, ![n0, n1]⟩ : Shape).Idx) (h0 : (i 0).val = (j 0).val) (h1 : (i 1).val = (j 1).val) : i = j :=
  funext fun a => Fin.ext (by
    match a with
    | ⟨0, _⟩ => exact h0
    | ⟨1, _⟩ => exact h1)

/-- At block 0 the position `a * B + 1 * x` is `x` itself. -/
theorem whole_at (a B x : ℕ) (h : a = 0) : a * B + 1 * x = x := by subst h; omega

section Blocks

variable (V : (c : Dev nD) → (b : Ref sig .tc) → Buf (Elt Ideal) ((c : Thread nD τ).loc b))

theorem idx0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

theorem blk0_apply (c : Dev nD) (t : Fin cfg0.N) (r : Fin 1000) (k : Fin 256) (n : Fin 10000) (hn : n.val = 1000 * t.val + r.val) :
    (iblk0 (F := Ideal) V c 0 t : S1000x256.Idx → EReal) (ix2 r k) = (V c main_arg0 : S10000x256.Idx → EReal) (ix2 n k) := by
  obtain ⟨e0, e1⟩ := idx0_0 t
  exact congrArg (V c main_arg0) (idx2_ext _ _ (by show win0_0.index t (0 : Fin 2) * 1000 + 1 * r.val = n.val; omega)
    (by show win0_0.index t (1 : Fin 2) * 256 + 1 * k.val = k.val; omega))

theorem blk0_1 (c : Dev nD) (t : Fin cfg0.N) : (iblk0 (F := Ideal) V c 1 t : S32x1.Idx → BitVec 32) = V c main_call0_v0 :=
  funext fun j => congrArg (V c main_call0_v0) (idx2_ext _ j (whole_at _ _ _ rfl) (whole_at _ _ _ rfl))

theorem blk0_2 (c : Dev nD) (t : Fin cfg0.N) : (iblk0 (F := Ideal) V c 2 t : S512x128.Idx → EReal) = V c main_arg2 :=
  funext fun j => congrArg (V c main_arg2) (idx2_ext _ j (whole_at _ _ _ rfl) (whole_at _ _ _ rfl))

theorem blk0_3 (c : Dev nD) (t : Fin cfg0.N) : (iblk0 (F := Ideal) V c 3 t : S256x128.Idx → EReal) = V c main_arg3 :=
  funext fun j => congrArg (V c main_arg3) (idx2_ext _ j (whole_at _ _ _ rfl) (whole_at _ _ _ rfl))

theorem blk0_4 (c : Dev nD) (t : Fin cfg0.N) : (iblk0 (F := Ideal) V c 4 t : S1x128.Idx → EReal) = V c main_call0_v1 :=
  funext fun j => congrArg (V c main_call0_v1) (idx2_ext _ j (whole_at _ _ _ rfl) (whole_at _ _ _ rfl))

theorem blk0_5 (c : Dev nD) (t : Fin cfg0.N) : (iblk0 (F := Ideal) V c 5 t : S128x128.Idx → EReal) = V c main_call0_v7 :=
  funext fun j => congrArg (V c main_call0_v7) (idx2_ext _ j (whole_at _ _ _ rfl) (whole_at _ _ _ rfl))

theorem blk0_6 (c : Dev nD) (t : Fin cfg0.N) : (iblk0 (F := Ideal) V c 6 t : S128x128.Idx → EReal) = V c main_call0_v9 :=
  funext fun j => congrArg (V c main_call0_v9) (idx2_ext _ j (whole_at _ _ _ rfl) (whole_at _ _ _ rfl))

theorem blk0_7 (c : Dev nD) (t : Fin cfg0.N) : (iblk0 (F := Ideal) V c 7 t : S1x128.Idx → EReal) = V c main_call0_v4 :=
  funext fun j => congrArg (V c main_call0_v4) (idx2_ext _ j (whole_at _ _ _ rfl) (whole_at _ _ _ rfl))

theorem blk0_8 (c : Dev nD) (t : Fin cfg0.N) : (iblk0 (F := Ideal) V c 8 t : S128x128.Idx → EReal) = V c main_call0_v11 :=
  funext fun j => congrArg (V c main_call0_v11) (idx2_ext _ j (whole_at _ _ _ rfl) (whole_at _ _ _ rfl))

theorem blk0_9 (c : Dev nD) (t : Fin cfg0.N) : (iblk0 (F := Ideal) V c 9 t : S128x128.Idx → EReal) = V c main_call0_v13 :=
  funext fun j => congrArg (V c main_call0_v13) (idx2_ext _ j (whole_at _ _ _ rfl) (whole_at _ _ _ rfl))

theorem blk0_10 (c : Dev nD) (t : Fin cfg0.N) : (iblk0 (F := Ideal) V c 10 t : S2x128.Idx → EReal) = V c main_arg10 :=
  funext fun j => congrArg (V c main_arg10) (idx2_ext _ j (whole_at _ _ _ rfl) (whole_at _ _ _ rfl))

end Blocks

/-- By induction on the grid point: the row after point `n` is the column sums of the rows below `1000 (n + 1)`. -/
theorem acc_at (A : Cert.Spec.Args) (x : (n : ℕ) → n < cfg0.N → Vec Ideal S1000x256 .f32)
    (acc : (n : ℕ) → n < cfg0.N → Vec Ideal S1x256 .f32)
    (hx : ∀ (t : ℕ) (ht : t < cfg0.N) (r : Fin 1000) (k : Fin 256) (n : Fin 10000), n.val = 1000 * t + r.val → x t ht (ix2 r k) = A.v n k)
    (h0 : ∀ h : 0 < cfg0.N, acc 0 h = k0_pay2 (F := Ideal) (k0_pay1 (F := Ideal)) (x 0 h))
    (hs : ∀ (n : ℕ) (h : n + 1 < cfg0.N), acc (n + 1) h = k0_pay2 (F := Ideal) (acc n (Nat.lt_of_succ_lt h)) (x (n + 1) h))
    (k : Fin 256) : ∀ (n : ℕ) (h : n < cfg0.N), acc n h (ix2 (0 : Fin 1) k) = ∑ j ∈ Finset.range (1000 * (n + 1)), vrow A k j
  | 0, h => by
    have hN : cfg0.N = 10 := N_0
    rw [h0 h, pay2_at, pay1_at, blocksum_eq A k 0 (by omega) (x 0 h) (fun r n hn => hx 0 h r k n hn)]
    exact sum_first (vrow A k)
  | n + 1, h => by
    have hN : cfg0.N = 10 := N_0
    rw [hs n h, pay2_at, acc_at A x acc hx h0 hs k n (Nat.lt_of_succ_lt h),
      blocksum_eq A k (n + 1) (by omega) (x (n + 1) h) (fun r m hm => hx (n + 1) h r k m hm)]
    exact sum_step (vrow A k) n

theorem ld_row0 (x : Vec Ideal S2x128 .f32) (h : Fin 128) :
    View.ld x (Rect.unit (s := S2x128) ![0, 0] S1x128.size inb_S2x128_S1x128_0_0) (ix2 (0 : Fin 1) h) = x (ix2 (0 : Fin 2) h) :=
  congrArg x (idx2_ext _ _ rfl (by show 0 + 1 * h.val = h.val; omega))

theorem ld_row1 (x : Vec Ideal S2x128 .f32) (h : Fin 128) :
    View.ld x (Rect.unit (s := S2x128) ![1, 0] S1x128.size inb_S2x128_S1x128_1_0) (ix2 (0 : Fin 1) h) = x (ix2 (1 : Fin 2) h) :=
  congrArg x (idx2_ext _ _ rfl (by show 0 + 1 * h.val = h.val; omega))

end Cert.KernelIdeal.Hand

end
-- ==== Proof.KI.R0Pieces.lean ====
import proofs.«101073_g24988119728772_cont_9to1_1483_2_alg».proof.Proof.KI.R0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

theorem zeros2_R0 : (![0, 0] : Fin 2 → Nat) = fun _ => 0 := funext fun a => by fin_cases a <;> rfl

/-- Each case's pieces, read back, are the case's arithmetic on its blocks: the row plus the block's column sums, and at the last point the two result rows. -/
theorem sout0_B_0_eq (c : Dev nD) (i : grid0.Coords) (b : Bufs0) (hc0 : ¬cond0_0 i) (hc1 : ¬cond0_1 i)
    (x0 : Vec F S1000x256 .f32) (xs0 : Vec F S1x256 .f32) :
    sout0_B_0 c i b hc0 hc1 x0 xs0 = k0_pay2 xs0 x0 := by
  unfold sout0_B_0
  rw [View.read_writes_eq_canon _ _ _ (scover0_B_0 c i b hc0 hc1 x0 xs0)]
  unfold kernelRun0_B
  dsimp only
  sl_unfold_words
  rw [View.canon_unit_zero (S := S1x256) zeros2_R0]
  simp only [View.readAt_eq_ld, b.h1.read_unread, b.h13.read_unread, View.ld_unit_zero (S := S1x256) zeros2_R0,
    View.ld_unit_zero (S := S1000x256) zeros2_R0]

theorem sout0_A_0_eq (c : Dev nD) (i : grid0.Coords) (b : Bufs0) (hc0 : cond0_0 i) (hc1 : ¬cond0_1 i)
    (x0 : Vec F S1000x256 .f32) :
    sout0_A_0 c i b hc0 hc1 x0 = k0_pay2 (k0_pay1 (F := F)) x0 := by
  unfold sout0_A_0
  rw [View.read_writes_eq_canon _ _ _ (scover0_A_0 c i b hc0 hc1 x0)]
  unfold kernelRun0_A
  dsimp only
  sl_unfold_words
  rw [View.canon_cons_unit_zero (S := S1x256) zeros2_R0, View.readCov_unit_zero (S := S1x256) _ zeros2_R0]
  simp only [View.readAt_eq_ld, b.h1.read_unread, View.ld_unit_zero (S := S1000x256) zeros2_R0]

theorem sout0_C_0_eq (c : Dev nD) (i : grid0.Coords) (b : Bufs0) (hc0 : ¬cond0_0 i) (hc1 : cond0_1 i)
    (x : Ins0 F) (xs0 : Vec F S1x256 .f32) :
    sout0_C_0 c i b hc0 hc1 x xs0 = k0_pay2 xs0 x.x0 := by
  unfold sout0_C_0
  rw [View.read_writes_eq_canon _ _ _ (scover0_C_0 c i b hc0 hc1 x xs0)]
  unfold kernelRun0_C
  dsimp only
  sl_unfold_words
  rw [View.canon_unit_zero (S := S1x256) zeros2_R0]
  simp only [View.readAt_eq_ld, b.h1.read_unread, b.h13.read_unread, View.ld_unit_zero (S := S1x256) zeros2_R0,
    View.ld_unit_zero (S := S1000x256) zeros2_R0]

theorem out0_C_11_eq (c : Dev nD) (i : grid0.Coords) (b : Bufs0) (hc0 : ¬cond0_0 i) (hc1 : cond0_1 i)
    (x : Ins0 F) (xs0 : Vec F S1x256 .f32) :
    out0_C_11 c i b hc0 hc1 x xs0
      = k0_pay3 (k0_pay5 x.x1 x.x2) (k0_pay6 (k0_pay2 xs0 x.x0) x.x3 x.x4 x.x1 x.x2 x.x5 x.x6 x.x7) x.x8 (View.ld x.x10 (Rect.unit (s := S2x128) ![0, 0] S1x128.size inb_S2x128_S1x128_0_0)) x.x9 (View.ld x.x10 (Rect.unit (s := S2x128) ![1, 0] S1x128.size inb_S2x128_S1x128_1_0)) := by
  unfold out0_C_11
  rw [View.read_writes_eq_canon _ _ _ (cover0_C_11 c i b hc0 hc1 x xs0)]
  unfold kernelRun0_C
  dsimp only
  sl_unfold_words
  rw [View.canon_unit_zero (S := S2x128) zeros2_R0]
  simp only [View.readAt_eq_ld, b.h1.read_unread, b.h2.read_unread, b.h3.read_unread, b.h4.read_unread, b.h5.read_unread, b.h6.read_unread, b.h7.read_unread, b.h8.read_unread, b.h9.read_unread, b.h10.read_unread, b.h11.read_unread, b.h13.read_unread,
    View.readCov_unit_zero (S := S1x256) _ zeros2_R0,
    View.ld_unit_zero (S := S1x256) zeros2_R0, View.ld_unit_zero (S := S1000x256) zeros2_R0, View.ld_unit_zero (S := S32x1) zeros2_R0, View.ld_unit_zero (S := S512x128) zeros2_R0, View.ld_unit_zero (S := S256x128) zeros2_R0, View.ld_unit_zero (S := S1x128) zeros2_R0, View.ld_unit_zero (S := S128x128) zeros2_R0]

end Cert.KernelIdeal.Hand

end
-- ==== Proof.KI.Val0.lean ====
import proofs.«101073_g24988119728772_cont_9to1_1483_2_alg».proof.Proof.KI.Val0b
import proofs.«101073_g24988119728772_cont_9to1_1483_2_alg».proof.Proof.KI.R0
import proofs.«101073_g24988119728772_cont_9to1_1483_2_alg».proof.Proof.KI.R0Pieces

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window BodyObligation cellOf)

variable (V : (c : Dev nD) → (b : Ref sig .tc) → Buf (Elt Ideal) ((c : Thread nD τ).loc b))

theorem flushed11_eq (c : Dev nD) (G : S2x128.Idx → EReal)
    (hlast : (dat0 (F := Ideal) V c).after 11 t0_9 = G) (t : Fin cfg0.N) (hf : (cfg0.win 11).flush t = true) :
    (dat0 (F := Ideal) V c).flushed 11 t = ((cfg0.win 11).blk t).view.read (Elt Ideal) G := by
  have hN : cfg0.N = 10 := N_0
  have h9 : t.val = 9 := by have := (flush0_11 t).mp hf; have := t.isLt; omega
  obtain rfl : t = t0_9 := Fin.ext h9
  show (cfg0.win 11).cut (grid0.coords t0_9) ((dat0 (F := Ideal) V c).after 11 t0_9) = _
  rw [hlast]
  have hz' : (fun a => win0_11.index t0_9 a * main_call0_v14.ty.shape.size a) = fun _ => 0 := funext fun a => by fin_cases a <;> decide
  exact (Memref.read_access_unit_zero (Elt Ideal) main_call0_v14 hz' (fun a => by rw [congrFun hz' a]; simp) G).symm

theorem arr11_eq (c : Dev nD) (G : S2x128.Idx → EReal)
    (hlast : (dat0 (F := Ideal) V c).after 11 t0_9 = G) :
    (dat0 (F := Ideal) V c).arrAt 11 cfg0.N = G :=
  (dat0 (F := Ideal) V c).arrAt_eq_of_cover 11 G (flushed11_eq V c G hlast) fun i =>
    ⟨t0_9, (flush0_11 t0_9).mpr rfl, by
      show i ∈ ((View.whole main_call0_v14).slice (win0_11.rect t0_9)).set
      rw [View.set_slice_whole, Rect.mem_set_unit]
      intro a
      have h0 : (i 0 : Nat) < 2 := (i 0).isLt
      have h1 : (i 1 : Nat) < 128 := (i 1).isLt
      match a with
      | ⟨0, _⟩ => show win0_11.index t0_9 0 * win0_11.size 0 ≤ (i 0 : Nat) ∧ (i 0 : Nat) < win0_11.index t0_9 0 * win0_11.size 0 + win0_11.xsize (grid0.coords t0_9) 0
                  rw [show win0_11.index t0_9 0 * win0_11.size 0 = 0 from by decide +kernel, show win0_11.xsize (grid0.coords t0_9) 0 = 2 from by decide +kernel]; omega
      | ⟨1, _⟩ => show win0_11.index t0_9 1 * win0_11.size 1 ≤ (i 1 : Nat) ∧ (i 1 : Nat) < win0_11.index t0_9 1 * win0_11.size 1 + win0_11.xsize (grid0.coords t0_9) 1
                  rw [show win0_11.index t0_9 1 * win0_11.size 1 = 0 from by decide +kernel, show win0_11.xsize (grid0.coords t0_9) 1 = 128 from by decide +kernel]; omega⟩

noncomputable abbrev xb0 (c : Dev nD) (t : Fin cfg0.N) : Vec Ideal S1000x256 .f32 := iblk0 (F := Ideal) V c 0 t

noncomputable abbrev xb1 (c : Dev nD) (t : Fin cfg0.N) : Vec Ideal S32x1 .i32 := iblk0 (F := Ideal) V c 1 t

noncomputable abbrev xb2 (c : Dev nD) (t : Fin cfg0.N) : Vec Ideal S512x128 .f32 := iblk0 (F := Ideal) V c 2 t

noncomputable abbrev xb3 (c : Dev nD) (t : Fin cfg0.N) : Vec Ideal S256x128 .f32 := iblk0 (F := Ideal) V c 3 t

noncomputable abbrev xb4 (c : Dev nD) (t : Fin cfg0.N) : Vec Ideal S1x128 .f32 := iblk0 (F := Ideal) V c 4 t

noncomputable abbrev xb5 (c : Dev nD) (t : Fin cfg0.N) : Vec Ideal S128x128 .f32 := iblk0 (F := Ideal) V c 5 t

noncomputable abbrev xb6 (c : Dev nD) (t : Fin cfg0.N) : Vec Ideal S128x128 .f32 := iblk0 (F := Ideal) V c 6 t

noncomputable abbrev xb7 (c : Dev nD) (t : Fin cfg0.N) : Vec Ideal S1x128 .f32 := iblk0 (F := Ideal) V c 7 t

noncomputable abbrev xb8 (c : Dev nD) (t : Fin cfg0.N) : Vec Ideal S128x128 .f32 := iblk0 (F := Ideal) V c 8 t

noncomputable abbrev xb9 (c : Dev nD) (t : Fin cfg0.N) : Vec Ideal S128x128 .f32 := iblk0 (F := Ideal) V c 9 t

noncomputable abbrev xb10 (c : Dev nD) (t : Fin cfg0.N) : Vec Ideal S2x128 .f32 := iblk0 (F := Ideal) V c 10 t

/-- What the carried row holds after grid point `n`. -/
noncomputable abbrev accAt (c : Dev nD) (n : ℕ) (h : n < cfg0.N) : Vec Ideal S1x256 .f32 := (outsAt0 (F := Ideal) V c n h).2

theorem accAt_first (c : Dev nD) (t : Fin cfg0.N) (h0 : t.val = 0) :
    accAt V c t.val t.isLt = k0_pay2 (F := Ideal) (k0_pay1 (F := Ideal)) (xb0 V c t) := by
  show (outsAt0 (F := Ideal) V c t.val t.isLt).2 = _
  rw [outsAt0_A V c t h0]
  dsimp only
  exact sout0_A_0_eq (F := Ideal) c (grid0.coords t) (bufs0 t) _ _ (xb0 V c t)

theorem accAt_mid (c : Dev nD) (t : Fin cfg0.N) (h0 : ¬t.val = 0) (h1 : ¬t.val = 9) :
    accAt V c t.val t.isLt = k0_pay2 (F := Ideal) (accAt V c (t.val - 1) (Nat.lt_of_le_of_lt (Nat.sub_le _ _) t.isLt)) (xb0 V c t) := by
  show (outsAt0 (F := Ideal) V c t.val t.isLt).2 = _
  rw [outsAt0_B V c t h0 h1]
  dsimp only
  exact sout0_B_0_eq (F := Ideal) c (grid0.coords t) (bufs0 t) _ _ (xb0 V c t) (accAt V c (t.val - 1) (Nat.lt_of_le_of_lt (Nat.sub_le _ _) t.isLt))

theorem accAt_last (c : Dev nD) (t : Fin cfg0.N) (h1 : t.val = 9) :
    accAt V c t.val t.isLt = k0_pay2 (F := Ideal) (accAt V c (t.val - 1) (Nat.lt_of_le_of_lt (Nat.sub_le _ _) t.isLt)) (xb0 V c t) := by
  show (outsAt0 (F := Ideal) V c t.val t.isLt).2 = _
  rw [outsAt0_C V c t h1]
  dsimp only
  exact sout0_C_0_eq (F := Ideal) c (grid0.coords t) (bufs0 t) _ _ (ins0 V c t) (accAt V c (t.val - 1) (Nat.lt_of_le_of_lt (Nat.sub_le _ _) t.isLt))

theorem outAt_last (c : Dev nD) (t : Fin cfg0.N) (h1 : t.val = 9) :
    (outsAt0 (F := Ideal) V c t.val t.isLt).1
      = k0_pay3 (F := Ideal) (k0_pay5 (xb1 V c t) (xb2 V c t))
          (k0_pay6 (k0_pay2 (accAt V c (t.val - 1) (Nat.lt_of_le_of_lt (Nat.sub_le _ _) t.isLt)) (xb0 V c t)) (xb3 V c t) (xb4 V c t) (xb1 V c t) (xb2 V c t) (xb5 V c t) (xb6 V c t) (xb7 V c t))
          (xb8 V c t) (View.ld (xb10 V c t) (Rect.unit (s := S2x128) ![0, 0] S1x128.size inb_S2x128_S1x128_0_0)) (xb9 V c t) (View.ld (xb10 V c t) (Rect.unit (s := S2x128) ![1, 0] S1x128.size inb_S2x128_S1x128_1_0)) := by
  rw [outsAt0_C V c t h1]
  dsimp only
  exact out0_C_11_eq (F := Ideal) c (grid0.coords t) (bufs0 t) _ _ (ins0 V c t) (accAt V c (t.val - 1) (Nat.lt_of_le_of_lt (Nat.sub_le _ _) t.isLt))

/-- After grid point `n` the carried row holds the column sums of the first `1000 (n + 1)` rows of the node features, by induction on the point. -/
theorem accAt_value (A : Cert.Spec.Args) (c : Dev nD)
    (hv : ∀ n k, (V c main_arg0 : S10000x256.Idx → EReal) (ix2 n k) = A.v n k) (k : Fin 256) (n : ℕ) (h : n < cfg0.N) :
    accAt V c n h (ix2 (0 : Fin 1) k) = ∑ j ∈ Finset.range (1000 * (n + 1)), vrow A k j := by
  refine acc_at A (fun n h => xb0 V c ⟨n, h⟩) (fun n h => accAt V c n h) ?_ ?_ ?_ k n h
  · intro t ht r k n hn
    exact (blk0_apply V c ⟨t, ht⟩ r k n hn).trans (hv n k)
  · intro h
    exact accAt_first V c ⟨0, h⟩ rfl
  · intro n h
    have hN : cfg0.N = 10 := N_0
    by_cases h9 : n + 1 = 9
    · exact accAt_last V c ⟨n + 1, h⟩ h9
    · exact accAt_mid V c ⟨n + 1, h⟩ (Nat.succ_ne_zero n) h9

/-- So the last point stores the two constant rows, computed from the finished sums: they are the array the call leaves. -/
theorem c_value (A : Cert.Spec.Args) (c : Dev nD)
    (hv : ∀ n k, (V c main_arg0 : S10000x256.Idx → EReal) (ix2 n k) = A.v n k)
    (hqa : ∀ a, (V c main_call0_v0 : S32x1.Idx → BitVec 32) (ix2 a 0) = A.qa a)
    (hemb : ∀ r h, (V c main_arg2 : S512x128.Idx → EReal) (ix2 r h) = A.emb r h)
    (hWin : ∀ k h, (V c main_arg3 : S256x128.Idx → EReal) (ix2 k h) = A.Win k h)
    (hbin : ∀ h, (V c main_call0_v1 : S1x128.Idx → EReal) (ix2 0 h) = A.bin h)
    (hWa : ∀ k h, (V c main_call0_v7 : S128x128.Idx → EReal) (ix2 k h) = A.Wa 0 k h)
    (hUa : ∀ k h, (V c main_call0_v9 : S128x128.Idx → EReal) (ix2 k h) = A.Ua 0 k h)
    (hba : ∀ h, (V c main_call0_v4 : S1x128.Idx → EReal) (ix2 0 h) = A.ba 0 h)
    (hWv0 : ∀ k h, (V c main_call0_v11 : S128x128.Idx → EReal) (ix2 k h) = A.Wv 0 k h)
    (hWv1 : ∀ k h, (V c main_call0_v13 : S128x128.Idx → EReal) (ix2 k h) = A.Wv 1 k h)
    (hbv : ∀ l h, (V c main_arg10 : S2x128.Idx → EReal) (ix2 l h) = A.bv l h) (h : Fin 128) :
    ((dat0 (F := Ideal) V c).arrAt 11 cfg0.N : S2x128.Idx → EReal) (ix2 (0 : Fin 2) h) = Cert.Spec.kC0 A h
      ∧ ((dat0 (F := Ideal) V c).arrAt 11 cfg0.N : S2x128.Idx → EReal) (ix2 (1 : Fin 2) h) = Cert.Spec.kC1 A h := by
  have hN : cfg0.N = 10 := N_0
  have e9 : t0_9.val = 9 := rfl
  rw [arr11_eq V c _ ((after0_11 V c t0_9).trans (outAt_last V c t0_9 e9))]
  refine pay3_spec A (k0_pay2 (accAt V c (t0_9.val - 1) (Nat.lt_of_le_of_lt (Nat.sub_le _ _) t0_9.isLt)) (xb0 V c t0_9)) (xb3 V c t0_9) (xb4 V c t0_9) (xb1 V c t0_9) (xb2 V c t0_9) (xb5 V c t0_9) (xb6 V c t0_9) (xb7 V c t0_9)
    (xb8 V c t0_9) (View.ld (xb10 V c t0_9) (Rect.unit (s := S2x128) ![0, 0] S1x128.size inb_S2x128_S1x128_0_0)) (xb9 V c t0_9) (View.ld (xb10 V c t0_9) (Rect.unit (s := S2x128) ![1, 0] S1x128.size inb_S2x128_S1x128_1_0))
    ?_ ?_ ?_ ?_ ?_ ?_ ?_ ?_ ?_ ?_ ?_ ?_ h
  · intro k
    rw [← accAt_last V c t0_9 e9]
    exact (accAt_value V A c hv k 9 t0_9.isLt).trans (sum_all A k)
  · intro k h; rw [show xb3 V c t0_9 = V c main_arg3 from blk0_3 V c t0_9]; exact hWin k h
  · intro h; rw [show xb4 V c t0_9 = V c main_call0_v1 from blk0_4 V c t0_9]; exact hbin h
  · intro a; rw [show xb1 V c t0_9 = V c main_call0_v0 from blk0_1 V c t0_9]; exact hqa a
  · intro r h; rw [show xb2 V c t0_9 = V c main_arg2 from blk0_2 V c t0_9]; exact hemb r h
  · intro k h; rw [show xb5 V c t0_9 = V c main_call0_v7 from blk0_5 V c t0_9]; exact hWa k h
  · intro k h; rw [show xb6 V c t0_9 = V c main_call0_v9 from blk0_6 V c t0_9]; exact hUa k h
  · intro h; rw [show xb7 V c t0_9 = V c main_call0_v4 from blk0_7 V c t0_9]; exact hba h
  · intro k h; rw [show xb8 V c t0_9 = V c main_call0_v11 from blk0_8 V c t0_9]; exact hWv0 k h
  · intro h; rw [ld_row0, show xb10 V c t0_9 = V c main_arg10 from blk0_10 V c t0_9]; exact hbv 0 h
  · intro k h; rw [show xb9 V c t0_9 = V c main_call0_v13 from blk0_9 V c t0_9]; exact hWv1 k h
  · intro h; rw [ld_row1, show xb10 V c t0_9 = V c main_arg10 from blk0_10 V c t0_9]; exact hbv 1 h

end Cert.KernelIdeal.Hand

end
-- ==== Proof.KI.Pay1.lean ====
import proofs.«101073_g24988119728772_cont_9to1_1483_2_alg».proof.Proof.Gen.KernelIdeal.Skeleton
import proofs.«101073_g24988119728772_cont_9to1_1483_2_alg».proof.Proof.Spec
import proofs.«101073_g24988119728772_cont_9to1_1483_2_alg».proof.Proof.KI.Pay0a
import Idealize.ShloMosaic.Lib.ValueLayout
import Idealize.ShloMosaic.Lib.Pipeline.Value

noncomputable section

open scoped BigOperators

namespace Cert.KernelIdeal.Hand

open Idealize.ShloMosaic Idealize.ShloMosaic.ValueIdx Cert.KernelIdeal Cert.KernelIdeal.Gen

theorem dot1 : dot_S1000x256_S256x128_S1000x128_1_0_0_1_n_n = DotDims.plain 1000 256 128 := rfl
theorem dot2 : dot_S1000x128_S128x128_S1000x128_1_0_0_1_n_n = DotDims.plain 1000 128 128 := rfl
theorem dot3 : dot_S1000x128_S128x256_S1000x256_1_0_0_1_n_n = DotDims.plain 1000 128 256 := rfl

section Spec
open Cert.Spec

variable (A : Cert.Spec.Args) (blk : Fin 1000 → Fin 10000)

/-- Each product is a sum over the contracted coordinate, each bias a row laid along every row, `relu` the maximum with zero. -/
theorem pay1_spec (v0 : Vec Ideal S1000x256 .f32) (v1 : Vec Ideal S256x128 .f32) (v3 : Vec Ideal S1x128 .f32)
    (v7 : Vec Ideal S128x128 .f32) (v10 : Vec Ideal S1x128 .f32) (v16 : Vec Ideal S128x128 .f32) (v19 : Vec Ideal S1x128 .f32)
    (v25 : Vec Ideal S128x256 .f32) (v27 : Vec Ideal S1x256 .f32)
    (h0 : ∀ r k, v0 (ix2 r k) = A.v (blk r) k) (h1 : ∀ k h, v1 (ix2 k h) = A.Win k h) (h3 : ∀ h, v3 (ix2 0 h) = A.bin h)
    (h7 : ∀ k h, v7 (ix2 k h) = A.Uv 0 k h) (h10 : ∀ h, v10 (ix2 0 h) = Cert.Spec.kC0 A h)
    (h16 : ∀ k h, v16 (ix2 k h) = A.Uv 1 k h) (h19 : ∀ h, v19 (ix2 0 h) = Cert.Spec.kC1 A h)
    (h25 : ∀ k j, v25 (ix2 k j) = A.Wout k j) (h27 : ∀ j, v27 (ix2 0 j) = A.bout j) (r : Fin 1000) (j : Fin 256) :
    k1_pay1 (F := Ideal) v0 v1 v3 v7 v10 v16 v19 v25 v27 (ix2 r j) = Cert.Spec.KOut A (blk r) j := by
  unfold k1_pay1 KOut kH2 kH1 kH0
  simp only [dot1, dot2, dot3, mm, addf_apply, maximumf_apply, broadcast_apply, shapeCast_self, broadcastTo_1b_ab_apply,
    show (Scalar.ofBits .f32 0x00000000#32 : Ideal .f32) = 0 from Ideal.ofBits_zero_f32, h0, h1, h3, h7, h10, h16, h19, h25, h27]

end Spec

end Cert.KernelIdeal.Hand

end
-- ==== Proof.KI.Val1.lean ====
import proofs.«101073_g24988119728772_cont_9to1_1483_2_alg».proof.Proof.KI.R1
import proofs.«101073_g24988119728772_cont_9to1_1483_2_alg».proof.Proof.KI.Pay1
import proofs.«101073_g24988119728772_cont_9to1_1483_2_alg».proof.Proof.KI.Val0b
import proofs.«101073_g24988119728772_cont_9to1_1483_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz1 : (![0, 0] : Fin 2 → Nat) = fun _ => 0 := funext fun a => by fin_cases a <;> rfl

theorem N1 : cfg1.N = 10 := rfl

theorem idx_facts1 : ∀ t : Fin cfg1.N,
    win1_0.index t (0 : Fin 2) = t.val ∧ win1_0.index t (1 : Fin 2) = 0
    ∧ win1_8.index t (0 : Fin 2) = t.val ∧ win1_8.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

/-- Row `r` of block `t` is node `1000 t + r`. -/
noncomputable def node1 (t : Fin cfg1.N) (r : Fin 1000) : Fin 10000 :=
  ⟨1000 * t.val + r.val, by have h1 := t.isLt; have h2 := N1; have h3 := r.isLt; omega⟩

noncomputable abbrev yb0 (c : Dev nD) (t : Fin cfg1.N) : Vec Ideal S1000x256 .f32 := iblk1 V c 0 t
noncomputable abbrev yb1 (c : Dev nD) (t : Fin cfg1.N) : Vec Ideal S256x128 .f32 := iblk1 V c 1 t
noncomputable abbrev yb2 (c : Dev nD) (t : Fin cfg1.N) : Vec Ideal S1x128 .f32 := iblk1 V c 2 t
noncomputable abbrev yb3 (c : Dev nD) (t : Fin cfg1.N) : Vec Ideal S128x128 .f32 := iblk1 V c 3 t
noncomputable abbrev yb4 (c : Dev nD) (t : Fin cfg1.N) : Vec Ideal S128x128 .f32 := iblk1 V c 4 t
noncomputable abbrev yb5 (c : Dev nD) (t : Fin cfg1.N) : Vec Ideal S2x128 .f32 := iblk1 V c 5 t
noncomputable abbrev yb6 (c : Dev nD) (t : Fin cfg1.N) : Vec Ideal S128x256 .f32 := iblk1 V c 6 t
noncomputable abbrev yb7 (c : Dev nD) (t : Fin cfg1.N) : Vec Ideal S1x256 .f32 := iblk1 V c 7 t

/-- Each input block read at an index is its array read there: the node features at the block's rows, every other operand whole. -/
theorem read0 (c : Dev nD) (t : Fin cfg1.N) (r : Fin 1000) (k : Fin 256) :
    yb0 V c t (ix2 r k) = (V c main_arg0 : S10000x256.Idx → EReal) (ix2 (node1 t r) k) := by
  obtain ⟨e0, e1, -⟩ := idx_facts1 t
  unfold yb0 iblk1
  rw [View.read_apply]
  show V c main_arg0 (((cfg1.win 0).blk t).view.emb (ix2 r k)) = V c main_arg0 (ix2 (node1 t r) k)
  congr 1
  funext a; apply Fin.ext
  match a with
  | ⟨0, _⟩ => show win1_0.index t (0 : Fin 2) * 1000 + 1 * r.val = 1000 * t.val + r.val; omega
  | ⟨1, _⟩ => show win1_0.index t (1 : Fin 2) * 256 + 1 * k.val = k.val; omega

/-- A window whose block is its whole array reads the array at every grid point. -/
theorem blk1_1 (c : Dev nD) (t : Fin cfg1.N) : (iblk1 V c 1 t : S256x128.Idx → EReal) = V c main_arg3 :=
  funext fun j => congrArg (V c main_arg3) (idx2_ext _ j (whole_at _ _ _ rfl) (whole_at _ _ _ rfl))
theorem blk1_2 (c : Dev nD) (t : Fin cfg1.N) : (iblk1 V c 2 t : S1x128.Idx → EReal) = V c main_call0_v1 :=
  funext fun j => congrArg (V c main_call0_v1) (idx2_ext _ j (whole_at _ _ _ rfl) (whole_at _ _ _ rfl))
theorem blk1_3 (c : Dev nD) (t : Fin cfg1.N) : (iblk1 V c 3 t : S128x128.Idx → EReal) = V c main_call0_v16 :=
  funext fun j => congrArg (V c main_call0_v16) (idx2_ext _ j (whole_at _ _ _ rfl) (whole_at _ _ _ rfl))
theorem blk1_4 (c : Dev nD) (t : Fin cfg1.N) : (iblk1 V c 4 t : S128x128.Idx → EReal) = V c main_call0_v18 :=
  funext fun j => congrArg (V c main_call0_v18) (idx2_ext _ j (whole_at _ _ _ rfl) (whole_at _ _ _ rfl))
theorem blk1_5 (c : Dev nD) (t : Fin cfg1.N) : (iblk1 V c 5 t : S2x128.Idx → EReal) = V c main_call0_v14 :=
  funext fun j => congrArg (V c main_call0_v14) (idx2_ext _ j (whole_at _ _ _ rfl) (whole_at _ _ _ rfl))
theorem blk1_6 (c : Dev nD) (t : Fin cfg1.N) : (iblk1 V c 6 t : S128x256.Idx → EReal) = V c main_arg11 :=
  funext fun j => congrArg (V c main_arg11) (idx2_ext _ j (whole_at _ _ _ rfl) (whole_at _ _ _ rfl))
theorem blk1_7 (c : Dev nD) (t : Fin cfg1.N) : (iblk1 V c 7 t : S1x256.Idx → EReal) = V c main_call0_v5 :=
  funext fun j => congrArg (V c main_call0_v5) (idx2_ext _ j (whole_at _ _ _ rfl) (whole_at _ _ _ rfl))

theorem ldc_row0 (x : Vec Ideal S2x128 .f32) (h : Fin 128) : View.ld x r1_row0 (ix2 0 h) = x (ix2 0 h) := by
  show x (r1_row0.idx (ix2 0 h)) = x (ix2 0 h)
  congr 1
  funext a; apply Fin.ext
  match a with
  | ⟨0, _⟩ => show 0 + 1 * 0 = 0; rfl
  | ⟨1, _⟩ => show 0 + 1 * h.val = h.val; omega

theorem ldc_row1 (x : Vec Ideal S2x128 .f32) (h : Fin 128) : View.ld x r1_row1 (ix2 0 h) = x (ix2 1 h) := by
  show x (r1_row1.idx (ix2 0 h)) = x (ix2 1 h)
  congr 1
  funext a; apply Fin.ext
  match a with
  | ⟨0, _⟩ => show 1 + 1 * 0 = 1; rfl
  | ⟨1, _⟩ => show 0 + 1 * h.val = h.val; omega

section Value

variable (A : Cert.Spec.Args) (c : Dev nD)
  (hv : ∀ n k, (V c main_arg0 : S10000x256.Idx → EReal) (ix2 n k) = A.v n k)
  (hWin : ∀ k h, (V c main_arg3 : S256x128.Idx → EReal) (ix2 k h) = A.Win k h)
  (hbin : ∀ h, (V c main_call0_v1 : S1x128.Idx → EReal) (ix2 0 h) = A.bin h)
  (hUv0 : ∀ k h, (V c main_call0_v16 : S128x128.Idx → EReal) (ix2 k h) = A.Uv 0 k h)
  (hUv1 : ∀ k h, (V c main_call0_v18 : S128x128.Idx → EReal) (ix2 k h) = A.Uv 1 k h)
  (hc0 : ∀ h, (V c main_call0_v14 : S2x128.Idx → EReal) (ix2 0 h) = Cert.Spec.kC0 A h)
  (hc1 : ∀ h, (V c main_call0_v14 : S2x128.Idx → EReal) (ix2 1 h) = Cert.Spec.kC1 A h)
  (hWout : ∀ k j, (V c main_arg11 : S128x256.Idx → EReal) (ix2 k j) = A.Wout k j)
  (hbout : ∀ j, (V c main_call0_v5 : S1x256.Idx → EReal) (ix2 0 j) = A.bout j)

include hv hWin hbin hUv0 hUv1 hc0 hc1 hWout hbout

/-- Grid point `t` leaves block `t` of the closed form. -/
theorem flushed1_8_eq (t : Fin cfg1.N) :
    (dat1 V c).flushed 8 t
      = ((cfg1.win 8).blk t).view.read (Elt Ideal) (Cert.Spec.toArr2 (Cert.Spec.KOut A)) := by
  show (cfg1.win 8).cut (grid1.coords t) ((dat1 V c).after 8 t) = _
  rw [after1_8]
  unfold out1_8
  rw [View.canon_unit_zero hz1]
  simp only [View.ld_unit_zero (S := S1000x256) hz1, View.ld_unit_zero (S := S256x128) hz1,
    View.ld_unit_zero (S := S1x128) hz1, View.ld_unit_zero (S := S128x128) hz1,
    View.ld_unit_zero (S := S128x256) hz1, View.ld_unit_zero (S := S1x256) hz1]
  refine funext fun j => ?_
  obtain ⟨r, k, rfl⟩ : ∃ (r : Fin 1000) (k : Fin 256), j = ix2 r k := ⟨j 0, j 1, eq_ix2 j⟩
  rw [View.read_apply]
  obtain ⟨-, -, e0, e1, -⟩ := idx_facts1 t
  have he : ((cfg1.win 8).blk t).view.emb (ix2 r k) = (ix2 (node1 t r) k : S10000x256.Idx) := by
    funext a; apply Fin.ext
    match a with
    | ⟨0, _⟩ => show win1_8.index t (0 : Fin 2) * 1000 + 1 * r.val = 1000 * t.val + r.val; omega
    | ⟨1, _⟩ => show win1_8.index t (1 : Fin 2) * 256 + 1 * k.val = k.val; omega
  rw [he]
  show k1_pay1 (F := Ideal) (yb0 V c t) (yb1 V c t) (yb2 V c t) (yb3 V c t) (View.ld (yb5 V c t) r1_row0) (yb4 V c t)
      (View.ld (yb5 V c t) r1_row1) (yb6 V c t) (yb7 V c t) (ix2 r k) = Cert.Spec.KOut A (node1 t r) k
  exact pay1_spec A (node1 t) (yb0 V c t) (yb1 V c t) (yb2 V c t) (yb3 V c t) (View.ld (yb5 V c t) r1_row0) (yb4 V c t)
    (View.ld (yb5 V c t) r1_row1) (yb6 V c t) (yb7 V c t)
    (fun r k => (read0 V c t r k).trans (hv _ _))
    (fun k h => (congrFun (blk1_1 V c t) (ix2 k h)).trans (hWin k h))
    (fun h => (congrFun (blk1_2 V c t) (ix2 0 h)).trans (hbin h))
    (fun k h => (congrFun (blk1_3 V c t) (ix2 k h)).trans (hUv0 k h))
    (fun h => (ldc_row0 (yb5 V c t) h).trans ((congrFun (blk1_5 V c t) (ix2 0 h)).trans (hc0 h)))
    (fun k h => (congrFun (blk1_4 V c t) (ix2 k h)).trans (hUv1 k h))
    (fun h => (ldc_row1 (yb5 V c t) h).trans ((congrFun (blk1_5 V c t) (ix2 1 h)).trans (hc1 h)))
    (fun k j => (congrFun (blk1_6 V c t) (ix2 k j)).trans (hWout k j))
    (fun j => (congrFun (blk1_7 V c t) (ix2 0 j)).trans (hbout j))
    r k

omit hv hWin hbin hUv0 hUv1 hc0 hc1 hWout hbout in

theorem mem_blk1_8 (t : Fin cfg1.N) (i : S10000x256.Idx) :
    i ∈ ((cfg1.win 8).blk t).view.set
      ↔ ∀ a : Fin 2, win1_8.index t a * S1000x256.size a ≤ (i a).val
          ∧ (i a).val < win1_8.index t a * S1000x256.size a + S1000x256.size a := by
  show i ∈ ((View.whole main_v0).slice (win1_8.rect t)).set ↔ _
  rw [View.set_slice_whole, Rect.mem_set_unit]
  exact Iff.rfl

omit hv hWin hbin hUv0 hUv1 hc0 hc1 hWout hbout in

theorem cover1_8_arr (i : S10000x256.Idx) :
    ∃ t : Fin cfg1.N, (cfg1.win 8).flush t = true ∧ i ∈ ((cfg1.win 8).blk t).view.set := by
  have hi0 : (i 0).val < 10000 := (i 0).isLt
  have hi1 : (i 1).val < 256 := (i 1).isLt
  obtain ⟨t, ht⟩ : ∃ t : Fin cfg1.N, t.val = (i 0).val / 1000 := ⟨⟨(i 0).val / 1000, by rw [N1]; omega⟩, rfl⟩
  obtain ⟨-, -, e0, e1, -⟩ := idx_facts1 t
  refine ⟨t, flush1_8 t, ?_⟩
  rw [mem_blk1_8]
  intro a
  match a with
  | ⟨0, _⟩ =>
    show win1_8.index t (0 : Fin 2) * 1000 ≤ (i 0).val ∧ (i 0).val < win1_8.index t (0 : Fin 2) * 1000 + 1000
    omega
  | ⟨1, _⟩ =>
    show win1_8.index t (1 : Fin 2) * 256 ≤ (i 1).val ∧ (i 1).val < win1_8.index t (1 : Fin 2) * 256 + 256
    omega

/-- The ten blocks tile the result, so the result array is the closed form everywhere. -/
theorem out_value :
    ((dat1 V c).arrAt 8 cfg1.N : S10000x256.Idx → EReal) = Cert.Spec.toArr2 (Cert.Spec.KOut A) :=
  (dat1 V c).arrAt_eq_of_cover 8 (Cert.Spec.toArr2 (Cert.Spec.KOut A))
    (fun t _ => flushed1_8_eq V A c hv hWin hbin hUv0 hUv1 hc0 hc1 hWout hbout t) (cover1_8_arr)

end Value

end Cert.KernelIdeal.Hand

end
-- ==== Proof.KI.HostReads.lean ====
import proofs.«101073_g24988119728772_cont_9to1_1483_2_alg».proof.Proof.Gen.KernelIdeal.Regions
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.ValueIdx

section Layout
variable {α : Type}

/-- The row-major position of `(i, u)` in `[a, 1]` is `i * 1 + u = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    rw [Shape.rowMajor_val_two, Shape.rowMajor_val_one]
    show i.val = i.val * 1 + u.val
    omega)

/-- Layer `l` of a stack of matrices, cut out along axis 0 and flattened, reads the stack at `(l, k, h)`. -/
theorem layer_apply {n a b : ℕ} (l : ℕ) (X : (⟨3, ![n, a, b]⟩ : Shape).Idx → α)
    (hs : (⟨3, ![n, a, b]⟩ : Shape).Slices ![l, 0, 0] ⟨3, ![1, a, b]⟩) (hc : (⟨3, ![1, a, b]⟩ : Shape).ShapeCasts ⟨2, ![a, b]⟩)
    (k : Fin a) (h : Fin b) (L : Fin n) (hL : L.val = l) :
    shapeCast ⟨2, ![a, b]⟩ (extractStridedSlice ⟨3, ![1, a, b]⟩ ![l, 0, 0] X hs) hc (ix2 k h) = X (ix3 L k h) :=
  (shapeCast_1ab_ab_apply _ _ k h).trans <| extractStridedSlice_apply _ _ _ _ _ fun ax => by
    match ax with
    | ⟨0, _⟩ => exact hL
    | ⟨1, _⟩ => exact (Nat.zero_add _).symm
    | ⟨2, _⟩ => exact (Nat.zero_add _).symm

end Layout

variable {F : FTy → Type} [FloatOps F] [Named F]
variable (U : Valuation τ sig (Elt F))

theorem h0_v0 (a : Fin 32) :
    (StableHlo.after hostOps0 U (Proc.devRef .tc main_call0_v0) : S32x1.Idx → Elt F .i32) (ix2 a 0)
      = (U (Proc.devRef .tc main_arg1) : S32.Idx → Elt F .i32) (ix1 a) :=
  Eq.trans (by after_results; rfl) (shapeCast_a_a1_apply (U (Proc.devRef .tc main_arg1) : S32.Idx → Elt F .i32) shapeCasts_S32_S32x1 a 0)

theorem h0_v1 (h : Fin 128) :
    (StableHlo.after hostOps0 U (Proc.devRef .tc main_call0_v1) : S1x128.Idx → Elt F .f32) (ix2 0 h)
      = (U (Proc.devRef .tc main_arg4) : S128.Idx → Elt F .f32) (ix1 h) :=
  Eq.trans (by after_results; rfl) (shapeCast_a_1a_apply (U (Proc.devRef .tc main_arg4) : S128.Idx → Elt F .f32) shapeCasts_S128_S1x128 0 h)

theorem h0_v4 (h : Fin 128) :
    (StableHlo.after hostOps0 U (Proc.devRef .tc main_call0_v4) : S1x128.Idx → Elt F .f32) (ix2 0 h)
      = (U (Proc.devRef .tc main_arg7) : S2x128.Idx → Elt F .f32) (ix2 0 h) :=
  Eq.trans (by after_results; rfl) <| (shapeCast_a_1a_apply (shapeCast S128 (extractStridedSlice S1x128 ![0, 0]
      (U (Proc.devRef .tc main_arg7) : S2x128.Idx → Elt F .f32) slices_S2x128_S1x128_0_0) shapeCasts_S1x128_S128) shapeCasts_S128_S1x128 0 h).trans <|
    (shapeCast_1a_a_apply _ _ h).trans <| slice2_axis0_apply 0 _ _ 0 h 0 rfl

theorem h0_v5 (j : Fin 256) :
    (StableHlo.after hostOps0 U (Proc.devRef .tc main_call0_v5) : S1x256.Idx → Elt F .f32) (ix2 0 j)
      = (U (Proc.devRef .tc main_arg12) : S256.Idx → Elt F .f32) (ix1 j) :=
  Eq.trans (by after_results; rfl) (shapeCast_a_1a_apply (U (Proc.devRef .tc main_arg12) : S256.Idx → Elt F .f32) shapeCasts_S256_S1x256 0 j)

theorem h0_v7 (k h : Fin 128) :
    (StableHlo.after hostOps0 U (Proc.devRef .tc main_call0_v7) : S128x128.Idx → Elt F .f32) (ix2 k h)
      = (U (Proc.devRef .tc main_arg5) : S2x128x128.Idx → Elt F .f32) (ix3 0 k h) :=
  Eq.trans (by after_results; rfl) (layer_apply 0 (U (Proc.devRef .tc main_arg5) : S2x128x128.Idx → Elt F .f32)
    slices_S2x128x128_S1x128x128_0_0_0 shapeCasts_S1x128x128_S128x128 k h 0 rfl)

theorem h0_v9 (k h : Fin 128) :
    (StableHlo.after hostOps0 U (Proc.devRef .tc main_call0_v9) : S128x128.Idx → Elt F .f32) (ix2 k h)
      = (U (Proc.devRef .tc main_arg6) : S2x128x128.Idx → Elt F .f32) (ix3 0 k h) :=
  Eq.trans (by after_results; rfl) (layer_apply 0 (U (Proc.devRef .tc main_arg6) : S2x128x128.Idx → Elt F .f32)
    slices_S2x128x128_S1x128x128_0_0_0 shapeCasts_S1x128x128_S128x128 k h 0 rfl)

theorem h0_v11 (k h : Fin 128) :
    (StableHlo.after hostOps0 U (Proc.devRef .tc main_call0_v11) : S128x128.Idx → Elt F .f32) (ix2 k h)
      = (U (Proc.devRef .tc main_arg8) : S2x128x128.Idx → Elt F .f32) (ix3 0 k h) :=
  Eq.trans (by after_results; rfl) (layer_apply 0 (U (Proc.devRef .tc main_arg8) : S2x128x128.Idx → Elt F .f32)
    slices_S2x128x128_S1x128x128_0_0_0 shapeCasts_S1x128x128_S128x128 k h 0 rfl)

theorem h0_v13 (k h : Fin 128) :
    (StableHlo.after hostOps0 U (Proc.devRef .tc main_call0_v13) : S128x128.Idx → Elt F .f32) (ix2 k h)
      = (U (Proc.devRef .tc main_arg8) : S2x128x128.Idx → Elt F .f32) (ix3 1 k h) :=
  Eq.trans (by after_results; rfl) (layer_apply 1 (U (Proc.devRef .tc main_arg8) : S2x128x128.Idx → Elt F .f32)
    slices_S2x128x128_S1x128x128_1_0_0 shapeCasts_S1x128x128_S128x128 k h 1 rfl)

theorem h1_v16 (k h : Fin 128) :
    (StableHlo.after hostOps1 U (Proc.devRef .tc main_call0_v16) : S128x128.Idx → Elt F .f32) (ix2 k h)
      = (U (Proc.devRef .tc main_arg9) : S2x128x128.Idx → Elt F .f32) (ix3 0 k h) :=
  Eq.trans (by after_results; rfl) (layer_apply 0 (U (Proc.devRef .tc main_arg9) : S2x128x128.Idx → Elt F .f32)
    slices_S2x128x128_S1x128x128_0_0_0 shapeCasts_S1x128x128_S128x128 k h 0 rfl)

theorem h1_v18 (k h : Fin 128) :
    (StableHlo.after hostOps1 U (Proc.devRef .tc main_call0_v18) : S128x128.Idx → Elt F .f32) (ix2 k h)
      = (U (Proc.devRef .tc main_arg9) : S2x128x128.Idx → Elt F .f32) (ix3 1 k h) :=
  Eq.trans (by after_results; rfl) (layer_apply 1 (U (Proc.devRef .tc main_arg9) : S2x128x128.Idx → Elt F .f32)
    slices_S2x128x128_S1x128x128_1_0_0 shapeCasts_S1x128x128_S128x128 k h 1 rfl)

end Cert.KernelIdeal.Hand

end
-- ==== Proof.KI.Final.lean ====
import proofs.«101073_g24988119728772_cont_9to1_1483_2_alg».proof.Proof.KI.Run
import proofs.«101073_g24988119728772_cont_9to1_1483_2_alg».proof.Proof.KI.Val0
import proofs.«101073_g24988119728772_cont_9to1_1483_2_alg».proof.Proof.KI.Val1
import proofs.«101073_g24988119728772_cont_9to1_1483_2_alg».proof.Proof.KI.HostReads
import proofs.«101073_g24988119728772_cont_9to1_1483_2_alg».proof.Proof.Spec
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

section Final

open Idealize.ShloMosaic.ValueIdx

variable (m : (ℓ : Loc nD τ sig) → Buf (Elt Ideal) ℓ) (ρ : Dev nD → PrngReg)

/-- The thirteen arguments read off core `c`'s buffers at launch. -/
noncomputable def argsOf (c : Dev nD) : Cert.Spec.Args :=
  Cert.Spec.Args.ofArrays
    (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10)) (m ((c.tc : Thread nD τ).loc main_arg11))
    (m ((c.tc : Thread nD τ).loc main_arg12))

/-- Every operand of the first call is an argument, or an argument re-laid out by the host operations before it; so the call leaves the two constant rows of the closed form. -/
theorem c_rows (c : Dev nD) (h : Fin 128) :
    ((dat0 (F := Ideal) (V1 m ρ) c).arrAt 11 cfg0.N : S2x128.Idx → EReal) (ix2 (0 : Fin 2) h) = Cert.Spec.kC0 (argsOf m c) h
    ∧ ((dat0 (F := Ideal) (V1 m ρ) c).arrAt 11 cfg0.N : S2x128.Idx → EReal) (ix2 (1 : Fin 2) h) = Cert.Spec.kC1 (argsOf m c) h :=
  c_value (V1 m ρ) (argsOf m c) c
    (fun n k => congrFun (W1_kept m ρ c main_arg0 (by decide)) (ix2 n k))
    (fun a => (congrFun (V1_def m ρ c main_call0_v0) (ix2 a 0)).trans (h0_v0 (W0 m ρ c) a))
    (fun r h => congrFun (W1_kept m ρ c main_arg2 (by decide)) (ix2 r h))
    (fun k h => congrFun (W1_kept m ρ c main_arg3 (by decide)) (ix2 k h))
    (fun h => (congrFun (V1_def m ρ c main_call0_v1) (ix2 0 h)).trans (h0_v1 (W0 m ρ c) h))
    (fun k h => (congrFun (V1_def m ρ c main_call0_v7) (ix2 k h)).trans (h0_v7 (W0 m ρ c) k h))
    (fun k h => (congrFun (V1_def m ρ c main_call0_v9) (ix2 k h)).trans (h0_v9 (W0 m ρ c) k h))
    (fun h => (congrFun (V1_def m ρ c main_call0_v4) (ix2 0 h)).trans (h0_v4 (W0 m ρ c) h))
    (fun k h => (congrFun (V1_def m ρ c main_call0_v11) (ix2 k h)).trans (h0_v11 (W0 m ρ c) k h))
    (fun k h => (congrFun (V1_def m ρ c main_call0_v13) (ix2 k h)).trans (h0_v13 (W0 m ρ c) k h))
    (fun l h => congrFun (W1_kept m ρ c main_arg10 (by decide)) (ix2 l h)) h

/-- Every operand of the second call is an argument, an argument re-laid out, or the first call's output; so the call leaves the closed form of the arguments in the result's array. -/
theorem value (c : Dev nD) :
    ((dat1 (F := Ideal) (V3 m ρ) c).arrAt 8 cfg1.N : S10000x256.Idx → EReal)
      = Cert.Spec.toArr2 (Cert.Spec.KOut (argsOf m c)) :=
  out_value (V3 m ρ) (argsOf m c) c
    (fun n k => congrFun (W3_kept m ρ c main_arg0 (by decide) (by decide) (by decide)) (ix2 n k))
    (fun k h => congrFun (W3_kept m ρ c main_arg3 (by decide) (by decide) (by decide)) (ix2 k h))
    (fun h => (congrFun (V3_main_call0_v1 m ρ c) (ix2 0 h)).trans (h0_v1 (W0 m ρ c) h))
    (fun k h => (congrFun (V3_def m ρ c main_call0_v16) (ix2 k h)).trans <| (h1_v16 (W2 m ρ c) k h).trans (congrFun (W2_kept m ρ c main_arg9 (by decide) (by decide)) (ix3 0 k h)))
    (fun k h => (congrFun (V3_def m ρ c main_call0_v18) (ix2 k h)).trans <| (h1_v18 (W2 m ρ c) k h).trans (congrFun (W2_kept m ρ c main_arg9 (by decide) (by decide)) (ix3 1 k h)))
    (fun h => (congrFun (V3_c m ρ c) (ix2 0 h)).trans (c_rows m ρ c h).1)
    (fun h => (congrFun (V3_c m ρ c) (ix2 1 h)).trans (c_rows m ρ c h).2)
    (fun k j => congrFun (W3_kept m ρ c main_arg11 (by decide) (by decide) (by decide)) (ix2 k j))
    (fun j => (congrFun (V3_main_call0_v5 m ρ c) (ix2 0 j)).trans (h0_v5 (W0 m ρ c) j))

end Final

end Cert.KernelIdeal.Hand

end
-- ==== Proof.Ref.Stages.lean ====
import proofs.«101073_g24988119728772_cont_9to1_1483_2_alg».proof.ReferenceIdeal

noncomputable section

namespace Cert.ReferenceIdeal.Hand

open Idealize.ShloMosaic Cert.ReferenceIdeal Cert.ReferenceIdeal.Facts₀ Cert.ReferenceIdeal.Facts

variable {F : FTy → Type} [FloatOps F] [Facts]

/-- The thirteen argument arrays. -/
structure In (F : FTy → Type) where
  a0 : FVec F S10000x256 .f32
  a1 : IVec S32 32
  a2 : FVec F S512x128 .f32
  a3 : FVec F S256x128 .f32
  a4 : FVec F S128 .f32
  a5 : FVec F S2x128x128 .f32
  a6 : FVec F S2x128x128 .f32
  a7 : FVec F S2x128 .f32
  a8 : FVec F S2x128x128 .f32
  a9 : FVec F S2x128x128 .f32
  a10 : FVec F S2x128 .f32
  a11 : FVec F S128x256 .f32
  a12 : FVec F S256 .f32

noncomputable def take0_idx (idx : IVec S32 32) : IVec S32x1 32 :=
  broadcastInDim S32x1 ![0] bcast_S32_S32x1_0
    (select (cmpi .slt idx (broadcastInDim S32 ![] bcast_S_S32 (constantI S_ 32 0#32)))
      (addi idx (broadcastInDim S32 ![] bcast_S_S32 (constantI S_ 32 512#32))) idx)

noncomputable def take0_inb (idx : IVec S32 32) : IVec S32 1 :=
  Host.reduce IntOp.andi
    (andi (cmpi .sge (take0_idx idx) (broadcastInDim S32x1 ![] bcast_S_S32x1 (constantI S_ 32 0#32)))
      (cmpi .sle (take0_idx idx)
        (broadcastInDim S32x1 ![0, 1] bcast_S1x1_S32x1_0_1 (broadcastInDim S1x1 ![1] bcast_S1_S1x1_1 (constantI S1 32 511#32)))))
    (constantI S_ 1 1#1) reducesTo_S32x1_S32_d1 h_S_

noncomputable def take0 (x : FVec F S512x128 .f32) (idx : IVec S32 32) : FVec F S32x128 .f32 :=
  select (broadcastInDim S32x128 ![0] bcast_S32_S32x128_0 (take0_inb idx))
    (Host.gather gather_S512x128_S32x1_S32x128_1_0_n_n_0_1_1128 x (take0_idx idx))
    (broadcastInDim S32x128 ![] bcast_S_S32x128 (constant S_ .f32 0x7FC00000#32))

noncomputable def take1_idx (idx : IVec S320000 32) : IVec S320000x1 32 :=
  broadcastInDim S320000x1 ![0] bcast_S320000_S320000x1_0
    (select (cmpi .slt idx (broadcastInDim S320000 ![] bcast_S_S320000 (constantI S_ 32 0#32)))
      (addi idx (broadcastInDim S320000 ![] bcast_S_S320000 (constantI S_ 32 10000#32))) idx)

noncomputable def take1_inb (idx : IVec S320000 32) : IVec S320000 1 :=
  Host.reduce IntOp.andi
    (andi (cmpi .sge (take1_idx idx) (broadcastInDim S320000x1 ![] bcast_S_S320000x1 (constantI S_ 32 0#32)))
      (cmpi .sle (take1_idx idx)
        (broadcastInDim S320000x1 ![0, 1] bcast_S1x1_S320000x1_0_1 (broadcastInDim S1x1 ![1] bcast_S1_S1x1_1 (constantI S1 32 9999#32)))))
    (constantI S_ 1 1#1) reducesTo_S320000x1_S320000_d1 h_S_

noncomputable def take1 (x : FVec F S10000x128 .f32) (idx : IVec S320000 32) : FVec F S320000x128 .f32 :=
  select (broadcastInDim S320000x128 ![0] bcast_S320000_S320000x128_0 (take1_inb idx))
    (Host.gather gather_S10000x128_S320000x1_S320000x128_1_0_n_n_0_1_1128 x (take1_idx idx))
    (broadcastInDim S320000x128 ![] bcast_S_S320000x128 (constant S_ .f32 0x7FC00000#32))

noncomputable def take2_idx (idx : IVec S320000 32) : IVec S320000x1 32 :=
  broadcastInDim S320000x1 ![0] bcast_S320000_S320000x1_0
    (select (cmpi .slt idx (broadcastInDim S320000 ![] bcast_S_S320000 (constantI S_ 32 0#32)))
      (addi idx (broadcastInDim S320000 ![] bcast_S_S320000 (constantI S_ 32 32#32))) idx)

noncomputable def take2_inb (idx : IVec S320000 32) : IVec S320000 1 :=
  Host.reduce IntOp.andi
    (andi (cmpi .sge (take2_idx idx) (broadcastInDim S320000x1 ![] bcast_S_S320000x1 (constantI S_ 32 0#32)))
      (cmpi .sle (take2_idx idx)
        (broadcastInDim S320000x1 ![0, 1] bcast_S1x1_S320000x1_0_1 (broadcastInDim S1x1 ![1] bcast_S1_S1x1_1 (constantI S1 32 31#32)))))
    (constantI S_ 1 1#1) reducesTo_S320000x1_S320000_d1 h_S_

noncomputable def take2 (x : FVec F S32x128 .f32) (idx : IVec S320000 32) : FVec F S320000x128 .f32 :=
  select (broadcastInDim S320000x128 ![0] bcast_S320000_S320000x128_0 (take2_inb idx))
    (Host.gather gather_S32x128_S320000x1_S320000x128_1_0_n_n_0_1_1128 x (take2_idx idx))
    (broadcastInDim S320000x128 ![] bcast_S_S320000x128 (constant S_ .f32 0x7FC00000#32))

noncomputable def relu (x : FVec F S32x128 .f32) : FVec F S32x128 .f32 :=
  maximumf x (broadcastInDim S32x128 ![] bcast_S_S32x128 (constant S_ .f32 0x00000000#32))

noncomputable def relu_3 (x : FVec F S10000x128 .f32) : FVec F S10000x128 .f32 :=
  maximumf x (broadcastInDim S10000x128 ![] bcast_S_S10000x128 (constant S_ .f32 0x00000000#32))

/-- The node of each of the 320000 edges, the edges in row-major order of (node, attribute). -/
noncomputable def v3 : IVec S320000 32 :=
  shapeCast S320000 (broadcastInDim S10000x32 ![0] bcast_S10000_S10000x32_0 (iotaInDim S10000 32 0)) shapeCasts_S10000x32_S320000

/-- The attribute of each edge. -/
noncomputable def v7 : IVec S320000 32 :=
  shapeCast S320000 (broadcastInDim S10000x32 ![0, 1] bcast_S1x32_S10000x32_0_1 (shapeCast S1x32 (iotaInDim S32 32 0) shapeCasts_S32_S1x32))
    shapeCasts_S10000x32_S320000

/-- A vector along every row of a 32-row and of a 10000-row array. -/
noncomputable def rowsA (b : FVec F S128 .f32) : FVec F S32x128 .f32 :=
  broadcastInDim S32x128 ![0, 1] bcast_S1x128_S32x128_0_1 (broadcastInDim S1x128 ![1] bcast_S128_S1x128_1 b)
noncomputable def rowsV (b : FVec F S128 .f32) : FVec F S10000x128 .f32 :=
  broadcastInDim S10000x128 ![0, 1] bcast_S1x128_S10000x128_0_1 (broadcastInDim S1x128 ![1] bcast_S128_S1x128_1 b)

/-- Node to attribute: the scatter-add, by the edges' attributes, of the look-up at the edges' nodes, over the number of nodes. -/
noncomputable def aggA (X : FVec F S10000x128 .f32) : FVec F S32x128 .f32 :=
  Host.divf (Host.scatterAdd scatter_S32x128_S320000x1_S320000x128_1_0_0_1 (broadcastInDim S32x128 ![] bcast_S_S32x128 (constant S_ .f32 0x00000000#32))
      (broadcastInDim S320000x1 ![0] bcast_S320000_S320000x1_0 v7) (take1 X v3))
    (broadcastInDim S32x128 ![] bcast_S_S32x128 (constant S_ .f32 0x461C4000#32))

/-- Attribute to node: the scatter-add, by the edges' nodes, of the look-up at the edges' attributes, over the number of attributes. -/
noncomputable def aggV (Y : FVec F S32x128 .f32) : FVec F S10000x128 .f32 :=
  Host.divf (Host.scatterAdd scatter_S10000x128_S320000x1_S320000x128_1_0_0_1 (broadcastInDim S10000x128 ![] bcast_S_S10000x128 (constant S_ .f32 0x00000000#32))
      (broadcastInDim S320000x1 ![0] bcast_S320000_S320000x1_0 v3) (take2 Y v7))
    (broadcastInDim S10000x128 ![] bcast_S_S10000x128 (constant S_ .f32 0x42000000#32))

/-- A layer's weight matrix and bias vector: the slice of the stacked array at the layer, its unit axis dropped. -/
noncomputable def mat {off : Fin S2x128x128.rank → Nat} (h : S2x128x128.Slices off S1x128x128) (W : FVec F S2x128x128 .f32) : FVec F S128x128 .f32 :=
  shapeCast S128x128 (extractStridedSlice S1x128x128 off W h) shapeCasts_S1x128x128_S128x128
noncomputable def bias {off : Fin S2x128.rank → Nat} (h : S2x128.Slices off S1x128) (b : FVec F S2x128 .f32) : FVec F S128 .f32 :=
  shapeCast S128 (extractStridedSlice S1x128 off b h) shapeCasts_S1x128_S128

/-- An update before its rectifier: the aggregate's and the state's products plus the bias row. -/
noncomputable def preA (g x : FVec F S32x128 .f32) (W U : FVec F S128x128 .f32) (b : FVec F S128 .f32) : FVec F S32x128 .f32 :=
  addf (addf (Host.dotGeneral dot_S32x128_S128x128_S32x128_1_0_0_1_n_n none g W) (Host.dotGeneral dot_S32x128_S128x128_S32x128_1_0_0_1_n_n none x U)) (rowsA b)
noncomputable def preV (g x : FVec F S10000x128 .f32) (W U : FVec F S128x128 .f32) (b : FVec F S128 .f32) : FVec F S10000x128 .f32 :=
  addf (addf (Host.dotGeneral dot_S10000x128_S128x128_S10000x128_1_0_0_1_n_n none g W) (Host.dotGeneral dot_S10000x128_S128x128_S10000x128_1_0_0_1_n_n none x U)) (rowsV b)

variable (A : In F)

/-- The attribute embeddings and the nodes' projected features; then the two layers' states, each before and after its rectifier. -/
noncomputable def v0 : FVec F S32x128 .f32 := take0 A.a2 A.a1
noncomputable def v11 : FVec F S10000x128 .f32 := addf (Host.dotGeneral dot_S10000x256_S256x128_S10000x128_1_0_0_1_n_n none A.a0 A.a3) (rowsV A.a4)
noncomputable def v35 : FVec F S32x128 .f32 := preA (aggA (v11 A)) (v0 A) (mat slices_S2x128x128_S1x128x128_0_0_0 A.a5) (mat slices_S2x128x128_S1x128x128_0_0_0 A.a6) (bias slices_S2x128_S1x128_0_0 A.a7)
noncomputable def v36 : FVec F S32x128 .f32 := relu (v35 A)
noncomputable def v48 : FVec F S10000x128 .f32 := preV (aggV (v0 A)) (v11 A) (mat slices_S2x128x128_S1x128x128_0_0_0 A.a8) (mat slices_S2x128x128_S1x128x128_0_0_0 A.a9) (bias slices_S2x128_S1x128_0_0 A.a10)
noncomputable def v49 : FVec F S10000x128 .f32 := relu_3 (v48 A)
noncomputable def v86 : FVec F S10000x128 .f32 := preV (aggV (v36 A)) (v49 A) (mat slices_S2x128x128_S1x128x128_1_0_0 A.a8) (mat slices_S2x128x128_S1x128x128_1_0_0 A.a9) (bias slices_S2x128_S1x128_1_0 A.a10)
noncomputable def v87 : FVec F S10000x128 .f32 := relu_3 (v86 A)
noncomputable def v91 : FVec F S10000x256 .f32 :=
  addf (Host.dotGeneral dot_S10000x128_S128x256_S10000x256_1_0_0_1_n_n none (v87 A) A.a11)
    (broadcastInDim S10000x256 ![0, 1] bcast_S1x256_S10000x256_0_1 (broadcastInDim S1x256 ![1] bcast_S256_S1x256_1 A.a12))

/-- The program's result as a function of its thirteen arguments. -/
noncomputable def out (a0 : FVec F S10000x256 .f32) (a1 : IVec S32 32) (a2 : FVec F S512x128 .f32) (a3 : FVec F S256x128 .f32) (a4 : FVec F S128 .f32)
    (a5 a6 : FVec F S2x128x128 .f32) (a7 : FVec F S2x128 .f32) (a8 a9 : FVec F S2x128x128 .f32) (a10 : FVec F S2x128 .f32)
    (a11 : FVec F S128x256 .f32) (a12 : FVec F S256 .f32) : FVec F S10000x256 .f32 :=
  v91 ⟨a0, a1, a2, a3, a4, a5, a6, a7, a8, a9, a10, a11, a12⟩

end Cert.ReferenceIdeal.Hand

end
-- ==== Proof.Ref.Ops.lean ====
import proofs.«101073_g24988119728772_cont_9to1_1483_2_alg».proof.Proof.Gen.ReferenceIdeal
import Idealize.ShloMosaic.Lib.StableHlo.Run

noncomputable section

namespace Cert.ReferenceIdeal.Hand

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-- A called function's body is one list of operations over its record of buffers, whatever the call. -/
noncomputable abbrev takeOps (x : TRef sig ⟨S512x128, .f32⟩) (i : TRef sig ⟨S32, .i32⟩) (φ : fn_take.Bufs) : List (HloOp τ sig (Elt F)) :=
  [ TRef.nullary φ.c (constantI S_ 32 0#32),
    TRef.unary φ.c φ.v0 (broadcastInDim S32 ![] bcast_S_S32),
    TRef.binary i φ.v0 φ.v1 (cmpi .slt),
    TRef.nullary φ.c_0 (constantI S_ 32 512#32),
    TRef.unary φ.c_0 φ.v2 (broadcastInDim S32 ![] bcast_S_S32),
    TRef.binary i φ.v2 φ.v3 addi,
    TRef.ternary φ.v1 φ.v3 i φ.call0.v0 select,
    TRef.unary φ.call0.v0 φ.v5 (broadcastInDim S32x1 ![0] bcast_S32_S32x1_0),
    TRef.nullary φ.c_1 (constantI S1 32 511#32),
    TRef.nullary φ.c_2 (constantI S_ 32 0#32),
    TRef.unary φ.c_2 φ.v6 (broadcastInDim S32x1 ![] bcast_S_S32x1),
    TRef.binary φ.v5 φ.v6 φ.v7 (cmpi .sge),
    TRef.unary φ.c_1 φ.v8 (broadcastInDim S1x1 ![1] bcast_S1_S1x1_1),
    TRef.unary φ.v8 φ.v9 (broadcastInDim S32x1 ![0, 1] bcast_S1x1_S32x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S32x1_S32_d1 h_S_),
    TRef.binary x φ.v5 φ.v13 (fun x i => Host.gather gather_S512x128_S32x1_S32x128_1_0_n_n_0_1_1128 x i),
    TRef.unary φ.v12 φ.v14 (broadcastInDim S32x128 ![0] bcast_S32_S32x128_0),
    TRef.nullary φ.cst (constant S_ .f32 0x7FC00000#32),
    TRef.unary φ.cst φ.v15 (broadcastInDim S32x128 ![] bcast_S_S32x128),
    TRef.ternary φ.v14 φ.v13 φ.v15 φ.v16 select ]
noncomputable abbrev takeW (φ : fn_take.Bufs) : List (Ref sig .tc) := [φ.c.ref, φ.v0.ref, φ.v1.ref, φ.c_0.ref, φ.v2.ref, φ.v3.ref, φ.call0.v0.ref, φ.v5.ref, φ.c_1.ref, φ.c_2.ref, φ.v6.ref, φ.v7.ref, φ.v8.ref, φ.v9.ref, φ.v10.ref, φ.v11.ref, φ.c_3.ref, φ.v12.ref, φ.v13.ref, φ.v14.ref, φ.cst.ref, φ.v15.ref, φ.v16.ref]

noncomputable abbrev take0Ops (x : TRef sig ⟨S10000x128, .f32⟩) (i : TRef sig ⟨S320000, .i32⟩) (φ : fn_take_0.Bufs) : List (HloOp τ sig (Elt F)) :=
  [ TRef.nullary φ.c (constantI S_ 32 0#32),
    TRef.unary φ.c φ.v0 (broadcastInDim S320000 ![] bcast_S_S320000),
    TRef.binary i φ.v0 φ.v1 (cmpi .slt),
    TRef.nullary φ.c_0 (constantI S_ 32 10000#32),
    TRef.unary φ.c_0 φ.v2 (broadcastInDim S320000 ![] bcast_S_S320000),
    TRef.binary i φ.v2 φ.v3 addi,
    TRef.ternary φ.v1 φ.v3 i φ.call0.v0 select,
    TRef.unary φ.call0.v0 φ.v5 (broadcastInDim S320000x1 ![0] bcast_S320000_S320000x1_0),
    TRef.nullary φ.c_1 (constantI S1 32 9999#32),
    TRef.nullary φ.c_2 (constantI S_ 32 0#32),
    TRef.unary φ.c_2 φ.v6 (broadcastInDim S320000x1 ![] bcast_S_S320000x1),
    TRef.binary φ.v5 φ.v6 φ.v7 (cmpi .sge),
    TRef.unary φ.c_1 φ.v8 (broadcastInDim S1x1 ![1] bcast_S1_S1x1_1),
    TRef.unary φ.v8 φ.v9 (broadcastInDim S320000x1 ![0, 1] bcast_S1x1_S320000x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S320000x1_S320000_d1 h_S_),
    TRef.binary x φ.v5 φ.v13 (fun x i => Host.gather gather_S10000x128_S320000x1_S320000x128_1_0_n_n_0_1_1128 x i),
    TRef.unary φ.v12 φ.v14 (broadcastInDim S320000x128 ![0] bcast_S320000_S320000x128_0),
    TRef.nullary φ.cst (constant S_ .f32 0x7FC00000#32),
    TRef.unary φ.cst φ.v15 (broadcastInDim S320000x128 ![] bcast_S_S320000x128),
    TRef.ternary φ.v14 φ.v13 φ.v15 φ.v16 select ]
noncomputable abbrev take0W (φ : fn_take_0.Bufs) : List (Ref sig .tc) := [φ.c.ref, φ.v0.ref, φ.v1.ref, φ.c_0.ref, φ.v2.ref, φ.v3.ref, φ.call0.v0.ref, φ.v5.ref, φ.c_1.ref, φ.c_2.ref, φ.v6.ref, φ.v7.ref, φ.v8.ref, φ.v9.ref, φ.v10.ref, φ.v11.ref, φ.c_3.ref, φ.v12.ref, φ.v13.ref, φ.v14.ref, φ.cst.ref, φ.v15.ref, φ.v16.ref]

noncomputable abbrev take2Ops (x : TRef sig ⟨S32x128, .f32⟩) (i : TRef sig ⟨S320000, .i32⟩) (φ : fn_take_2.Bufs) : List (HloOp τ sig (Elt F)) :=
  [ TRef.nullary φ.c (constantI S_ 32 0#32),
    TRef.unary φ.c φ.v0 (broadcastInDim S320000 ![] bcast_S_S320000),
    TRef.binary i φ.v0 φ.v1 (cmpi .slt),
    TRef.nullary φ.c_0 (constantI S_ 32 32#32),
    TRef.unary φ.c_0 φ.v2 (broadcastInDim S320000 ![] bcast_S_S320000),
    TRef.binary i φ.v2 φ.v3 addi,
    TRef.ternary φ.v1 φ.v3 i φ.call0.v0 select,
    TRef.unary φ.call0.v0 φ.v5 (broadcastInDim S320000x1 ![0] bcast_S320000_S320000x1_0),
    TRef.nullary φ.c_1 (constantI S1 32 31#32),
    TRef.nullary φ.c_2 (constantI S_ 32 0#32),
    TRef.unary φ.c_2 φ.v6 (broadcastInDim S320000x1 ![] bcast_S_S320000x1),
    TRef.binary φ.v5 φ.v6 φ.v7 (cmpi .sge),
    TRef.unary φ.c_1 φ.v8 (broadcastInDim S1x1 ![1] bcast_S1_S1x1_1),
    TRef.unary φ.v8 φ.v9 (broadcastInDim S320000x1 ![0, 1] bcast_S1x1_S320000x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S320000x1_S320000_d1 h_S_),
    TRef.binary x φ.v5 φ.v13 (fun x i => Host.gather gather_S32x128_S320000x1_S320000x128_1_0_n_n_0_1_1128 x i),
    TRef.unary φ.v12 φ.v14 (broadcastInDim S320000x128 ![0] bcast_S320000_S320000x128_0),
    TRef.nullary φ.cst (constant S_ .f32 0x7FC00000#32),
    TRef.unary φ.cst φ.v15 (broadcastInDim S320000x128 ![] bcast_S_S320000x128),
    TRef.ternary φ.v14 φ.v13 φ.v15 φ.v16 select ]
noncomputable abbrev take2W (φ : fn_take_2.Bufs) : List (Ref sig .tc) := [φ.c.ref, φ.v0.ref, φ.v1.ref, φ.c_0.ref, φ.v2.ref, φ.v3.ref, φ.call0.v0.ref, φ.v5.ref, φ.c_1.ref, φ.c_2.ref, φ.v6.ref, φ.v7.ref, φ.v8.ref, φ.v9.ref, φ.v10.ref, φ.v11.ref, φ.c_3.ref, φ.v12.ref, φ.v13.ref, φ.v14.ref, φ.cst.ref, φ.v15.ref, φ.v16.ref]

noncomputable abbrev reluOps (x : TRef sig ⟨S32x128, .f32⟩) (φ : fn_relu.Bufs) : List (HloOp τ sig (Elt F)) :=
  [ TRef.nullary φ.cst (constant S_ .f32 0x00000000#32),
    TRef.unary φ.cst φ.v0 (broadcastInDim S32x128 ![] bcast_S_S32x128),
    TRef.binary x φ.v0 φ.v1 maximumf ]
noncomputable abbrev reluW (φ : fn_relu.Bufs) : List (Ref sig .tc) := [φ.cst.ref, φ.v0.ref, φ.v1.ref]

noncomputable abbrev relu3Ops (x : TRef sig ⟨S10000x128, .f32⟩) (φ : fn_relu_3.Bufs) : List (HloOp τ sig (Elt F)) :=
  [ TRef.nullary φ.cst (constant S_ .f32 0x00000000#32),
    TRef.unary φ.cst φ.v0 (broadcastInDim S10000x128 ![] bcast_S_S10000x128),
    TRef.binary x φ.v0 φ.v1 maximumf ]
noncomputable abbrev relu3W (φ : fn_relu_3.Bufs) : List (Ref sig .tc) := [φ.cst.ref, φ.v0.ref, φ.v1.ref]

/-- The program's seventeen stretches, cut at its calls: a call is its function's list at the call's buffers. -/
noncomputable abbrev ops0 : List (HloOp τ sig (Elt F)) := takeOps (.of main_arg2) (.of main_arg1) main_call0
noncomputable abbrev ops0_W : List (Ref sig .tc) := takeW main_call0

noncomputable abbrev ops1 : List (HloOp τ sig (Elt F)) :=
  [ nullary main_v1 (iotaInDim S10000 32 0),
    unary main_v1 main_v2 (broadcastInDim S10000x32 ![0] bcast_S10000_S10000x32_0 : IVec S10000 32 → IVec S10000x32 32),
    reshape main_v2 main_v3 rfl shapeCasts_S10000x32_S320000,
    nullary main_v4 (iotaInDim S32 32 0),
    reshape main_v4 main_v5 rfl shapeCasts_S32_S1x32,
    unary main_v5 main_v6 (broadcastInDim S10000x32 ![0, 1] bcast_S1x32_S10000x32_0_1 : IVec S1x32 32 → IVec S10000x32 32),
    reshape main_v6 main_v7 rfl shapeCasts_S10000x32_S320000,
    binary main_arg0 main_arg3 main_v8 ((fun l r => Host.dotGeneral dot_S10000x256_S256x128_S10000x128_1_0_0_1_n_n none l r) : FVec F S10000x256 .f32 → FVec F S256x128 .f32 → FVec F S10000x128 .f32),
    unary main_arg4 main_v9 (broadcastInDim S1x128 ![1] bcast_S128_S1x128_1 : FVec F S128 .f32 → FVec F S1x128 .f32),
    unary main_v9 main_v10 (broadcastInDim S10000x128 ![0, 1] bcast_S1x128_S10000x128_0_1 : FVec F S1x128 .f32 → FVec F S10000x128 .f32),
    binary main_v8 main_v10 main_v11 (addf : FVec F S10000x128 .f32 → FVec F S10000x128 .f32 → FVec F S10000x128 .f32) ]
noncomputable abbrev ops1_W : List (Ref sig .tc) := [main_v1, main_v2, main_v3, main_v4, main_v5, main_v6, main_v7, main_v8, main_v9, main_v10, main_v11]

noncomputable abbrev ops2 : List (HloOp τ sig (Elt F)) := take0Ops (.of main_v11) (.of main_v3) main_call1
noncomputable abbrev ops2_W : List (Ref sig .tc) := take0W main_call1

noncomputable abbrev ops3 : List (HloOp τ sig (Elt F)) :=
  [ nullary main_cst (constant S_ .f32 0x00000000#32),
    unary main_cst main_v13 (broadcastInDim S32x128 ![] bcast_S_S32x128 : FVec F S_ .f32 → FVec F S32x128 .f32),
    unary main_v7 main_v14 (broadcastInDim S320000x1 ![0] bcast_S320000_S320000x1_0 : IVec S320000 32 → IVec S320000x1 32),
    ternary main_v13 main_v14 main_v12 main_v15 ((fun x i u => Host.scatterAdd scatter_S32x128_S320000x1_S320000x128_1_0_0_1 x i u) : FVec F S32x128 .f32 → IVec S320000x1 32 → FVec F S320000x128 .f32 → FVec F S32x128 .f32),
    nullary main_cst_0 (constant S_ .f32 0x461C4000#32),
    unary main_cst_0 main_v16 (broadcastInDim S32x128 ![] bcast_S_S32x128 : FVec F S_ .f32 → FVec F S32x128 .f32),
    binary main_v15 main_v16 main_v17 (Host.divf : FVec F S32x128 .f32 → FVec F S32x128 .f32 → FVec F S32x128 .f32) ]
noncomputable abbrev ops3_W : List (Ref sig .tc) := [main_cst, main_v13, main_v14, main_v15, main_cst_0, main_v16, main_v17]

noncomputable abbrev ops4 : List (HloOp τ sig (Elt F)) := take2Ops (.of main_v0) (.of main_v7) main_call2
noncomputable abbrev ops4_W : List (Ref sig .tc) := take2W main_call2

noncomputable abbrev ops5 : List (HloOp τ sig (Elt F)) :=
  [ nullary main_cst_1 (constant S_ .f32 0x00000000#32),
    unary main_cst_1 main_v19 (broadcastInDim S10000x128 ![] bcast_S_S10000x128 : FVec F S_ .f32 → FVec F S10000x128 .f32),
    unary main_v3 main_v20 (broadcastInDim S320000x1 ![0] bcast_S320000_S320000x1_0 : IVec S320000 32 → IVec S320000x1 32),
    ternary main_v19 main_v20 main_v18 main_v21 ((fun x i u => Host.scatterAdd scatter_S10000x128_S320000x1_S320000x128_1_0_0_1 x i u) : FVec F S10000x128 .f32 → IVec S320000x1 32 → FVec F S320000x128 .f32 → FVec F S10000x128 .f32),
    nullary main_cst_2 (constant S_ .f32 0x42000000#32),
    unary main_cst_2 main_v22 (broadcastInDim S10000x128 ![] bcast_S_S10000x128 : FVec F S_ .f32 → FVec F S10000x128 .f32),
    binary main_v21 main_v22 main_v23 (Host.divf : FVec F S10000x128 .f32 → FVec F S10000x128 .f32 → FVec F S10000x128 .f32),
    unary main_arg5 main_v24 ((extractStridedSlice S1x128x128 ![0, 0, 0] · slices_S2x128x128_S1x128x128_0_0_0) : FVec F S2x128x128 .f32 → FVec F S1x128x128 .f32),
    reshape main_v24 main_v25 rfl shapeCasts_S1x128x128_S128x128,
    binary main_v17 main_v25 main_v26 ((fun l r => Host.dotGeneral dot_S32x128_S128x128_S32x128_1_0_0_1_n_n none l r) : FVec F S32x128 .f32 → FVec F S128x128 .f32 → FVec F S32x128 .f32),
    unary main_arg6 main_v27 ((extractStridedSlice S1x128x128 ![0, 0, 0] · slices_S2x128x128_S1x128x128_0_0_0) : FVec F S2x128x128 .f32 → FVec F S1x128x128 .f32),
    reshape main_v27 main_v28 rfl shapeCasts_S1x128x128_S128x128,
    binary main_v0 main_v28 main_v29 ((fun l r => Host.dotGeneral dot_S32x128_S128x128_S32x128_1_0_0_1_n_n none l r) : FVec F S32x128 .f32 → FVec F S128x128 .f32 → FVec F S32x128 .f32),
    binary main_v26 main_v29 main_v30 (addf : FVec F S32x128 .f32 → FVec F S32x128 .f32 → FVec F S32x128 .f32),
    unary main_arg7 main_v31 ((extractStridedSlice S1x128 ![0, 0] · slices_S2x128_S1x128_0_0) : FVec F S2x128 .f32 → FVec F S1x128 .f32),
    reshape main_v31 main_v32 rfl shapeCasts_S1x128_S128,
    unary main_v32 main_v33 (broadcastInDim S1x128 ![1] bcast_S128_S1x128_1 : FVec F S128 .f32 → FVec F S1x128 .f32),
    unary main_v33 main_v34 (broadcastInDim S32x128 ![0, 1] bcast_S1x128_S32x128_0_1 : FVec F S1x128 .f32 → FVec F S32x128 .f32),
    binary main_v30 main_v34 main_v35 (addf : FVec F S32x128 .f32 → FVec F S32x128 .f32 → FVec F S32x128 .f32) ]
noncomputable abbrev ops5_W : List (Ref sig .tc) := [main_cst_1, main_v19, main_v20, main_v21, main_cst_2, main_v22, main_v23, main_v24, main_v25, main_v26, main_v27, main_v28, main_v29, main_v30, main_v31, main_v32, main_v33, main_v34, main_v35]

noncomputable abbrev ops6 : List (HloOp τ sig (Elt F)) := reluOps (.of main_v35) main_call3
noncomputable abbrev ops6_W : List (Ref sig .tc) := reluW main_call3

noncomputable abbrev ops7 : List (HloOp τ sig (Elt F)) :=
  [ unary main_arg8 main_v37 ((extractStridedSlice S1x128x128 ![0, 0, 0] · slices_S2x128x128_S1x128x128_0_0_0) : FVec F S2x128x128 .f32 → FVec F S1x128x128 .f32),
    reshape main_v37 main_v38 rfl shapeCasts_S1x128x128_S128x128,
    binary main_v23 main_v38 main_v39 ((fun l r => Host.dotGeneral dot_S10000x128_S128x128_S10000x128_1_0_0_1_n_n none l r) : FVec F S10000x128 .f32 → FVec F S128x128 .f32 → FVec F S10000x128 .f32),
    unary main_arg9 main_v40 ((extractStridedSlice S1x128x128 ![0, 0, 0] · slices_S2x128x128_S1x128x128_0_0_0) : FVec F S2x128x128 .f32 → FVec F S1x128x128 .f32),
    reshape main_v40 main_v41 rfl shapeCasts_S1x128x128_S128x128,
    binary main_v11 main_v41 main_v42 ((fun l r => Host.dotGeneral dot_S10000x128_S128x128_S10000x128_1_0_0_1_n_n none l r) : FVec F S10000x128 .f32 → FVec F S128x128 .f32 → FVec F S10000x128 .f32),
    binary main_v39 main_v42 main_v43 (addf : FVec F S10000x128 .f32 → FVec F S10000x128 .f32 → FVec F S10000x128 .f32),
    unary main_arg10 main_v44 ((extractStridedSlice S1x128 ![0, 0] · slices_S2x128_S1x128_0_0) : FVec F S2x128 .f32 → FVec F S1x128 .f32),
    reshape main_v44 main_v45 rfl shapeCasts_S1x128_S128,
    unary main_v45 main_v46 (broadcastInDim S1x128 ![1] bcast_S128_S1x128_1 : FVec F S128 .f32 → FVec F S1x128 .f32),
    unary main_v46 main_v47 (broadcastInDim S10000x128 ![0, 1] bcast_S1x128_S10000x128_0_1 : FVec F S1x128 .f32 → FVec F S10000x128 .f32),
    binary main_v43 main_v47 main_v48 (addf : FVec F S10000x128 .f32 → FVec F S10000x128 .f32 → FVec F S10000x128 .f32) ]
noncomputable abbrev ops7_W : List (Ref sig .tc) := [main_v37, main_v38, main_v39, main_v40, main_v41, main_v42, main_v43, main_v44, main_v45, main_v46, main_v47, main_v48]

noncomputable abbrev ops8 : List (HloOp τ sig (Elt F)) := relu3Ops (.of main_v48) main_call4
noncomputable abbrev ops8_W : List (Ref sig .tc) := relu3W main_call4

noncomputable abbrev ops9 : List (HloOp τ sig (Elt F)) := take0Ops (.of main_v49) (.of main_v3) main_call5
noncomputable abbrev ops9_W : List (Ref sig .tc) := take0W main_call5

noncomputable abbrev ops10 : List (HloOp τ sig (Elt F)) :=
  [ nullary main_cst_3 (constant S_ .f32 0x00000000#32),
    unary main_cst_3 main_v51 (broadcastInDim S32x128 ![] bcast_S_S32x128 : FVec F S_ .f32 → FVec F S32x128 .f32),
    unary main_v7 main_v52 (broadcastInDim S320000x1 ![0] bcast_S320000_S320000x1_0 : IVec S320000 32 → IVec S320000x1 32),
    ternary main_v51 main_v52 main_v50 main_v53 ((fun x i u => Host.scatterAdd scatter_S32x128_S320000x1_S320000x128_1_0_0_1 x i u) : FVec F S32x128 .f32 → IVec S320000x1 32 → FVec F S320000x128 .f32 → FVec F S32x128 .f32),
    nullary main_cst_4 (constant S_ .f32 0x461C4000#32),
    unary main_cst_4 main_v54 (broadcastInDim S32x128 ![] bcast_S_S32x128 : FVec F S_ .f32 → FVec F S32x128 .f32),
    binary main_v53 main_v54 main_v55 (Host.divf : FVec F S32x128 .f32 → FVec F S32x128 .f32 → FVec F S32x128 .f32) ]
noncomputable abbrev ops10_W : List (Ref sig .tc) := [main_cst_3, main_v51, main_v52, main_v53, main_cst_4, main_v54, main_v55]

noncomputable abbrev ops11 : List (HloOp τ sig (Elt F)) := take2Ops (.of main_v36) (.of main_v7) main_call6
noncomputable abbrev ops11_W : List (Ref sig .tc) := take2W main_call6

noncomputable abbrev ops12 : List (HloOp τ sig (Elt F)) :=
  [ nullary main_cst_5 (constant S_ .f32 0x00000000#32),
    unary main_cst_5 main_v57 (broadcastInDim S10000x128 ![] bcast_S_S10000x128 : FVec F S_ .f32 → FVec F S10000x128 .f32),
    unary main_v3 main_v58 (broadcastInDim S320000x1 ![0] bcast_S320000_S320000x1_0 : IVec S320000 32 → IVec S320000x1 32),
    ternary main_v57 main_v58 main_v56 main_v59 ((fun x i u => Host.scatterAdd scatter_S10000x128_S320000x1_S320000x128_1_0_0_1 x i u) : FVec F S10000x128 .f32 → IVec S320000x1 32 → FVec F S320000x128 .f32 → FVec F S10000x128 .f32),
    nullary main_cst_6 (constant S_ .f32 0x42000000#32),
    unary main_cst_6 main_v60 (broadcastInDim S10000x128 ![] bcast_S_S10000x128 : FVec F S_ .f32 → FVec F S10000x128 .f32),
    binary main_v59 main_v60 main_v61 (Host.divf : FVec F S10000x128 .f32 → FVec F S10000x128 .f32 → FVec F S10000x128 .f32),
    unary main_arg5 main_v62 ((extractStridedSlice S1x128x128 ![1, 0, 0] · slices_S2x128x128_S1x128x128_1_0_0) : FVec F S2x128x128 .f32 → FVec F S1x128x128 .f32),
    reshape main_v62 main_v63 rfl shapeCasts_S1x128x128_S128x128,
    binary main_v55 main_v63 main_v64 ((fun l r => Host.dotGeneral dot_S32x128_S128x128_S32x128_1_0_0_1_n_n none l r) : FVec F S32x128 .f32 → FVec F S128x128 .f32 → FVec F S32x128 .f32),
    unary main_arg6 main_v65 ((extractStridedSlice S1x128x128 ![1, 0, 0] · slices_S2x128x128_S1x128x128_1_0_0) : FVec F S2x128x128 .f32 → FVec F S1x128x128 .f32),
    reshape main_v65 main_v66 rfl shapeCasts_S1x128x128_S128x128,
    binary main_v36 main_v66 main_v67 ((fun l r => Host.dotGeneral dot_S32x128_S128x128_S32x128_1_0_0_1_n_n none l r) : FVec F S32x128 .f32 → FVec F S128x128 .f32 → FVec F S32x128 .f32),
    binary main_v64 main_v67 main_v68 (addf : FVec F S32x128 .f32 → FVec F S32x128 .f32 → FVec F S32x128 .f32),
    unary main_arg7 main_v69 ((extractStridedSlice S1x128 ![1, 0] · slices_S2x128_S1x128_1_0) : FVec F S2x128 .f32 → FVec F S1x128 .f32),
    reshape main_v69 main_v70 rfl shapeCasts_S1x128_S128,
    unary main_v70 main_v71 (broadcastInDim S1x128 ![1] bcast_S128_S1x128_1 : FVec F S128 .f32 → FVec F S1x128 .f32),
    unary main_v71 main_v72 (broadcastInDim S32x128 ![0, 1] bcast_S1x128_S32x128_0_1 : FVec F S1x128 .f32 → FVec F S32x128 .f32),
    binary main_v68 main_v72 main_v73 (addf : FVec F S32x128 .f32 → FVec F S32x128 .f32 → FVec F S32x128 .f32) ]
noncomputable abbrev ops12_W : List (Ref sig .tc) := [main_cst_5, main_v57, main_v58, main_v59, main_cst_6, main_v60, main_v61, main_v62, main_v63, main_v64, main_v65, main_v66, main_v67, main_v68, main_v69, main_v70, main_v71, main_v72, main_v73]

noncomputable abbrev ops13 : List (HloOp τ sig (Elt F)) := reluOps (.of main_v73) main_call7
noncomputable abbrev ops13_W : List (Ref sig .tc) := reluW main_call7

noncomputable abbrev ops14 : List (HloOp τ sig (Elt F)) :=
  [ unary main_arg8 main_v75 ((extractStridedSlice S1x128x128 ![1, 0, 0] · slices_S2x128x128_S1x128x128_1_0_0) : FVec F S2x128x128 .f32 → FVec F S1x128x128 .f32),
    reshape main_v75 main_v76 rfl shapeCasts_S1x128x128_S128x128,
    binary main_v61 main_v76 main_v77 ((fun l r => Host.dotGeneral dot_S10000x128_S128x128_S10000x128_1_0_0_1_n_n none l r) : FVec F S10000x128 .f32 → FVec F S128x128 .f32 → FVec F S10000x128 .f32),
    unary main_arg9 main_v78 ((extractStridedSlice S1x128x128 ![1, 0, 0] · slices_S2x128x128_S1x128x128_1_0_0) : FVec F S2x128x128 .f32 → FVec F S1x128x128 .f32),
    reshape main_v78 main_v79 rfl shapeCasts_S1x128x128_S128x128,
    binary main_v49 main_v79 main_v80 ((fun l r => Host.dotGeneral dot_S10000x128_S128x128_S10000x128_1_0_0_1_n_n none l r) : FVec F S10000x128 .f32 → FVec F S128x128 .f32 → FVec F S10000x128 .f32),
    binary main_v77 main_v80 main_v81 (addf : FVec F S10000x128 .f32 → FVec F S10000x128 .f32 → FVec F S10000x128 .f32),
    unary main_arg10 main_v82 ((extractStridedSlice S1x128 ![1, 0] · slices_S2x128_S1x128_1_0) : FVec F S2x128 .f32 → FVec F S1x128 .f32),
    reshape main_v82 main_v83 rfl shapeCasts_S1x128_S128,
    unary main_v83 main_v84 (broadcastInDim S1x128 ![1] bcast_S128_S1x128_1 : FVec F S128 .f32 → FVec F S1x128 .f32),
    unary main_v84 main_v85 (broadcastInDim S10000x128 ![0, 1] bcast_S1x128_S10000x128_0_1 : FVec F S1x128 .f32 → FVec F S10000x128 .f32),
    binary main_v81 main_v85 main_v86 (addf : FVec F S10000x128 .f32 → FVec F S10000x128 .f32 → FVec F S10000x128 .f32) ]
noncomputable abbrev ops14_W : List (Ref sig .tc) := [main_v75, main_v76, main_v77, main_v78, main_v79, main_v80, main_v81, main_v82, main_v83, main_v84, main_v85, main_v86]

noncomputable abbrev ops15 : List (HloOp τ sig (Elt F)) := relu3Ops (.of main_v86) main_call8
noncomputable abbrev ops15_W : List (Ref sig .tc) := relu3W main_call8

noncomputable abbrev ops16 : List (HloOp τ sig (Elt F)) :=
  [ binary main_v87 main_arg11 main_v88 ((fun l r => Host.dotGeneral dot_S10000x128_S128x256_S10000x256_1_0_0_1_n_n none l r) : FVec F S10000x128 .f32 → FVec F S128x256 .f32 → FVec F S10000x256 .f32),
    unary main_arg12 main_v89 (broadcastInDim S1x256 ![1] bcast_S256_S1x256_1 : FVec F S256 .f32 → FVec F S1x256 .f32),
    unary main_v89 main_v90 (broadcastInDim S10000x256 ![0, 1] bcast_S1x256_S10000x256_0_1 : FVec F S1x256 .f32 → FVec F S10000x256 .f32),
    binary main_v88 main_v90 main_v91 (addf : FVec F S10000x256 .f32 → FVec F S10000x256 .f32 → FVec F S10000x256 .f32) ]
noncomputable abbrev ops16_W : List (Ref sig .tc) := [main_v88, main_v89, main_v90, main_v91]

end Cert.ReferenceIdeal.Hand

end
-- ==== Proof.Ref.Run.lean ====
import proofs.«101073_g24988119728772_cont_9to1_1483_2_alg».proof.Proof.Ref.Stages
import proofs.«101073_g24988119728772_cont_9to1_1483_2_alg».proof.Proof.Ref.Ops
import proofs.«101073_g24988119728772_cont_9to1_1483_2_alg».proof.Proof.Gen.ReferenceIdeal
import Idealize.ShloMosaic.Lib.StableHlo.Run

set_option maxRecDepth 8192

noncomputable section

namespace Cert.ReferenceIdeal.Hand

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-- The seventeen stretches by number, and what each writes. -/
noncomputable abbrev opsAt : Nat → List (HloOp τ sig (Elt F))
  | 0 => ops0 | 1 => ops1 | 2 => ops2 | 3 => ops3 | 4 => ops4 | 5 => ops5 | 6 => ops6 | 7 => ops7 | 8 => ops8 | 9 => ops9 | 10 => ops10 | 11 => ops11 | 12 => ops12 | 13 => ops13 | 14 => ops14 | 15 => ops15 | 16 => ops16 | _ => []
noncomputable abbrev wrAt : Nat → List (Ref sig .tc)
  | 0 => ops0_W | 1 => ops1_W | 2 => ops2_W | 3 => ops3_W | 4 => ops4_W | 5 => ops5_W | 6 => ops6_W | 7 => ops7_W | 8 => ops8_W | 9 => ops9_W | 10 => ops10_W | 11 => ops11_W | 12 => ops12_W | 13 => ops13_W | 14 => ops14_W | 15 => ops15_W | 16 => ops16_W | _ => []

noncomputable abbrev ops : List (HloOp τ sig (Elt F)) :=
  ops0 ++ (ops1 ++ (ops2 ++ (ops3 ++ (ops4 ++ (ops5 ++ (ops6 ++ (ops7 ++ (ops8 ++ (ops9 ++ (ops10 ++ (ops11 ++ (ops12 ++ (ops13 ++ (ops14 ++ (ops15 ++ (ops16))))))))))))))))

set_option maxHeartbeats 4000000 in
/-- A call is its callee's body at the call's buffers, and the free monad's bind computes: @main is the stretches in a line. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation of a stretch touches TensorCore references only, and writes one reference of the stretch's list. -/
theorem opsAt_ok (k : Nat) : ((opsAt (F := F) k).Forall fun op => op.bufs ⊆ tcRefs τ sig) ∧
    (opsAt (F := F) k).Forall fun op => op.writes ⊆ ((wrAt k).map (Proc.devRef (τ := τ) .tc)).toFinset := by
  iterate 17
    (rcases k with _ | k
     exact ⟨by simp only [opsAt, List.Forall, nullary_bufs_sub, unary_bufs_sub, binary_bufs_sub, ternary_bufs_sub, reshape_bufs_sub, and_self],
      by simp only [opsAt, wrAt, List.Forall]
         (repeat' apply And.intro) <;>
           (simp only [nullary_writes, unary_writes, binary_writes, ternary_writes, reshape_writes, Finset.singleton_subset_iff, List.mem_toFinset]
            exact List.mem_map_of_mem (by decide))⟩)
  exact ⟨trivial, trivial⟩

theorem ops_sub : (ops : List (HloOp τ sig (Elt F))).Forall fun op => op.bufs ⊆ tcRefs τ sig := by
  simp only [ops, List.forall_append]
  exact ⟨(opsAt_ok 0).1, (opsAt_ok 1).1, (opsAt_ok 2).1, (opsAt_ok 3).1, (opsAt_ok 4).1, (opsAt_ok 5).1, (opsAt_ok 6).1, (opsAt_ok 7).1, (opsAt_ok 8).1, (opsAt_ok 9).1, (opsAt_ok 10).1, (opsAt_ok 11).1, (opsAt_ok 12).1, (opsAt_ok 13).1, (opsAt_ok 14).1, (opsAt_ok 15).1, (opsAt_ok 16).1⟩

theorem after_app (l₁ l₂ : List (HloOp τ sig (Elt F))) (V : Valuation τ sig (Elt F)) :
    after (l₁ ++ l₂) V = after l₂ (after l₁ V) := by
  induction l₁ generalizing V with
  | nil => rfl
  | cons op l ih => exact ih _

section Stretches

variable (V0 : Valuation τ sig (Elt F))

/-- The device's buffer contents after the first `k` stretches, from contents `V0`. -/
noncomputable def val : Nat → Valuation τ sig (Elt F)
  | 0 => V0
  | k + 1 => after (opsAt k) (val k)

theorem after_ops : after (ops (F := F)) V0 = val V0 17 := by
  simp only [ops, after_app]
  rfl

/-- A reference a stretch does not write keeps its contents through it. -/
theorem val_keep (k : Nat) (r : Ref sig .tc) (h : r ∉ wrAt k) :
    val V0 (k + 1) (no_index (Proc.devRef .tc r)) = val V0 k (Proc.devRef .tc r) :=
  after_of_writes_sub _ _ (opsAt_ok k).2 h

/-- A reference no stretch writes, an argument's above all, keeps its contents to the end. -/
theorem val_keep_all (r : Ref sig .tc) : ∀ n, (∀ k < n, r ∉ wrAt k) → val V0 n (Proc.devRef .tc r) = V0 (Proc.devRef .tc r)
  | 0, _ => rfl
  | n + 1, h => (val_keep V0 n r (h n n.lt_succ_self)).trans (val_keep_all r n fun k hk => h k (Nat.lt_succ_of_lt hk))

/-- The arguments' contents at launch. -/
noncomputable def args : In F :=
  ⟨V0 (Proc.devRef Proc.tc main_arg0), V0 (Proc.devRef Proc.tc main_arg1), V0 (Proc.devRef Proc.tc main_arg2), V0 (Proc.devRef Proc.tc main_arg3), V0 (Proc.devRef Proc.tc main_arg4), V0 (Proc.devRef Proc.tc main_arg5), V0 (Proc.devRef Proc.tc main_arg6), V0 (Proc.devRef Proc.tc main_arg7), V0 (Proc.devRef Proc.tc main_arg8), V0 (Proc.devRef Proc.tc main_arg9), V0 (Proc.devRef Proc.tc main_arg10), V0 (Proc.devRef Proc.tc main_arg11), V0 (Proc.devRef Proc.tc main_arg12)⟩

local notation "𝐀" => args V0

/-- A stretch's result is its operations composed, each operand at its stage or, an argument, at its launch contents. -/
local macro "stage" "[" ls:Lean.Parser.Tactic.simpLemma,* "]" : tactic => `(tactic| (
  rw [val]
  simp only [opsAt, ops0, ops1, ops2, ops3, ops4, ops5, ops6, ops7, ops8, ops9, ops10, ops11, ops12, ops13, ops14, ops15, ops16, takeOps, take0Ops, take2Ops, reluOps, relu3Ops]
  after_results_simp
  (try simp only [TRef.toBuf, TRef.ofBuf, cast_eq]) <;> (try simp (disch := decide) only [$ls,*]) <;> rfl))

theorem val_v0 : val V0 1 (no_index (Proc.devRef .tc main_v0)) = v0 𝐀 := by stage [val_keep]
theorem val_v3 : val V0 2 (no_index (Proc.devRef .tc main_v3)) = v3 := by stage [val_keep]
theorem val_v7 : val V0 2 (no_index (Proc.devRef .tc main_v7)) = v7 := by stage [val_keep]
theorem val_v11 : val V0 2 (no_index (Proc.devRef .tc main_v11)) = v11 𝐀 := by stage [val_keep]
theorem val_v12 : val V0 3 (no_index (Proc.devRef .tc main_v12)) = take1 (v11 𝐀) v3 := by stage [val_keep, val_v11, val_v3]
theorem val_v17 : val V0 4 (no_index (Proc.devRef .tc main_v17)) = aggA (v11 𝐀) := by stage [val_keep, val_v12, val_v7]
theorem val_v18 : val V0 5 (no_index (Proc.devRef .tc main_v18)) = take2 (v0 𝐀) v7 := by stage [val_keep, val_v0, val_v7]
theorem val_v23 : val V0 6 (no_index (Proc.devRef .tc main_v23)) = aggV (v0 𝐀) := by stage [val_keep, val_v18, val_v3]
theorem val_v35 : val V0 6 (no_index (Proc.devRef .tc main_v35)) = v35 𝐀 := by stage [val_keep, val_v17, val_v0]
theorem val_v36 : val V0 7 (no_index (Proc.devRef .tc main_v36)) = v36 𝐀 := by stage [val_keep, val_v35]
theorem val_v48 : val V0 8 (no_index (Proc.devRef .tc main_v48)) = v48 𝐀 := by stage [val_keep, val_v23, val_v11]
theorem val_v49 : val V0 9 (no_index (Proc.devRef .tc main_v49)) = v49 𝐀 := by stage [val_keep, val_v48]
theorem val_v56 : val V0 12 (no_index (Proc.devRef .tc main_v56)) = take2 (v36 𝐀) v7 := by stage [val_keep, val_v36, val_v7]
theorem val_v61 : val V0 13 (no_index (Proc.devRef .tc main_v61)) = aggV (v36 𝐀) := by stage [val_keep, val_v56, val_v3]
theorem val_v86 : val V0 15 (no_index (Proc.devRef .tc main_v86)) = v86 𝐀 := by stage [val_keep, val_v61, val_v49]
theorem val_v87 : val V0 16 (no_index (Proc.devRef .tc main_v87)) = v87 𝐀 := by stage [val_keep, val_v86]
theorem val_v91 : val V0 17 (no_index (Proc.devRef .tc main_v91)) = v91 𝐀 := by stage [val_keep, val_v87]

end Stretches

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v91) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun x h c =>
      have k : ∀ r : Ref sig .tc, (∀ j < 17, r ∉ wrAt j) → x.2.mem ((c.tc : Thread nD τ).loc r) = m ((c.tc : Thread nD τ).loc r) :=
        fun r hr => (h c r).trans ((congrFun (after_ops (launchContents m c)) _).trans (val_keep_all _ r 17 hr))
      ⟨(h c main_v91).trans ((congrFun (after_ops (launchContents m c)) _).trans (val_v91 _)), k main_arg0 (by decide), k main_arg1 (by decide), k main_arg2 (by decide), k main_arg3 (by decide), k main_arg4 (by decide), k main_arg5 (by decide), k main_arg6 (by decide), k main_arg7 (by decide), k main_arg8 (by decide), k main_arg9 (by decide), k main_arg10 (by decide), k main_arg11 (by decide), k main_arg12 (by decide)⟩)
    (run_seq scopedRefs_eq scopedSems_eq defs main (fun _ => ops) main_eq (fun _ => ops_sub) m ρ)

end Cert.ReferenceIdeal.Hand

end
-- ==== Proof.Ref.ReadTake.lean ====
import proofs.«101073_g24988119728772_cont_9to1_1483_2_alg».proof.Proof.Ref.Stages
import Idealize.ShloMosaic.Lib.ValueIdx
import Idealize.ShloMosaic.Lib.Pipeline.Value
import Idealize.ShloMosaic.PureOps.Reduce
import Idealize.ShloMosaic.Lib.Affine

noncomputable section

open scoped BigOperators

namespace Cert.ReferenceIdeal.Hand

open Idealize.ShloMosaic Idealize.ShloMosaic.ValueIdx
open Cert.ReferenceIdeal Cert.ReferenceIdeal.Facts₀ Cert.ReferenceIdeal.Facts

section Pieces
variable {α : Type}

theorem wrap_apply {s : Shape} (idx zero big : IVec s 32) (i : s.Idx) (hz : zero i = 0#32) (h0 : 0 ≤ (idx i).toInt) :
    select (cmpi .slt idx zero) (addi idx big) idx i = idx i := by
  have e : IntOp.cmpi .slt (idx i) (zero i) = 0#1 := eq_zero_of_ne_one fun h => by
    have := IntOp.cmpi_slt.mp h; rw [hz, BitVec.toInt_zero] at this; omega
  rw [select_apply, show cmpi .slt idx zero i = 0#1 from e, select_zero]

theorem inb_apply {s : Shape} (v zero hi : IVec s 32) (k : s.Idx) (hz : zero k = 0#32) (h0 : 0 ≤ (v k).toInt)
    (h1 : (v k).toInt ≤ (hi k).toInt) : andi (cmpi .sge v zero) (cmpi .sle v hi) k = 1#1 := by
  show IntOp.andi (IntOp.cmpi .sge (v k) (zero k)) (IntOp.cmpi .sle (v k) (hi k)) = 1#1
  rw [IntOp.cmpi_sge.mpr (by rw [hz, BitVec.toInt_zero]; exact h0), IntOp.cmpi_sle.mpr h1]; rfl

theorem reduce_andi_ones {s t u : Shape} {axes : List (Fin s.rank)} (m : IVec s 1) (init : IVec u 1) (h : s.ReducesTo axes t)
    (hu : 0 < u.numel) (hm : ∀ k, m k = 1#1) (hi : init (Shape.Idx.first hu) = 1#1) (j : t.Idx) :
    Host.reduce IntOp.andi m init h hu j = 1#1 := by
  rw [Host.reduce_eq_foldl, hi]
  generalize (((List.finRange s.numel).map s.rowMajor.symm).filter fun i => h.drop i = j) = l
  induction l with
  | nil => rfl
  | cons a l ih =>
    rw [List.foldl_cons, hm a]
    exact ih

end Pieces

section Gather
variable {α : Type}

noncomputable abbrev rowsDims (N R H : Nat)
    (wf : GatherDims.WF ⟨2, ![N, H]⟩ ⟨2, ![R, 1]⟩ ⟨2, ![R, H]⟩ [1] [0] [] [0] [] 1 ![1, H]) :
    GatherDims ⟨2, ![N, H]⟩ ⟨2, ![R, 1]⟩ ⟨2, ![R, H]⟩ where
  offsetDims := [1]
  collapsedSliceDims := [0]
  operandBatchingDims := []
  startIndicesBatchingDims := []
  startIndexMap := [0]
  indexVectorDim := 1
  sliceSizes := ![1, H]
  wf := wf

theorem gather_rows_apply {N R H w : Nat} (hN : 0 < N)
    (wf : GatherDims.WF ⟨2, ![N, H]⟩ ⟨2, ![R, 1]⟩ ⟨2, ![R, H]⟩ [1] [0] [] [0] [] 1 ![1, H])
    (x : (⟨2, ![N, H]⟩ : Shape).Idx → α) (idx : IVec ⟨2, ![R, 1]⟩ w) (p : Fin R) (q : Fin H) :
    Host.gather (rowsDims N R H wf) x idx (ix2 p q)
      = x (ix2 ⟨min (idx (ix2 p (0 : Fin 1))).toInt.toNat (N - 1), by omega⟩ q) := by
  unfold Host.gather
  congr 1
  funext a
  refine Fin.ext ?_
  match a with
  | ⟨0, _⟩ =>
    show (rowsDims N R H wf).start (ix2 p q) idx 0 + (rowsDims N R H wf).batchCoord (ix2 p q) 0
        + (rowsDims N R H wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R H wf).startIndexMap from List.mem_singleton.mpr rfl)]
    have hsi : (rowsDims N R H wf).siIdx (ix2 p q) ⟨List.idxOf (0 : Fin 2) (rowsDims N R H wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show (rowsDims N R H wf).start (ix2 p q) idx 1 + (rowsDims N R H wf).batchCoord (ix2 p q) 1
        + (rowsDims N R H wf).offCoord (ix2 p q) 1 = q.val
    rw [GatherDims.batchCoord_eq_zero _ _ _ List.not_mem_nil]
    unfold GatherDims.start
    rw [dif_neg (show (1 : Fin 2) ∉ (rowsDims N R H wf).startIndexMap from (show (1 : Fin 2) ∉ [(0 : Fin 2)] from by decide))]
    unfold GatherDims.offCoord
    rw [dif_pos (show (1 : Fin 2) ∈ (rowsDims N R H wf).sKept from (GatherDims.mem_sKept _ _).mpr ⟨(show (1 : Fin 2) ∉ [(0 : Fin 2)] from by decide), List.not_mem_nil⟩)]
    simp only [Nat.zero_add]
    rfl

end Gather

variable [Facts]

theorem gather0_eq : gather_S512x128_S32x1_S32x128_1_0_n_n_0_1_1128
    = rowsDims 512 32 128 gather_S512x128_S32x1_S32x128_1_0_n_n_0_1_1128_wf := rfl
theorem gather1_eq : gather_S10000x128_S320000x1_S320000x128_1_0_n_n_0_1_1128
    = rowsDims 10000 320000 128 gather_S10000x128_S320000x1_S320000x128_1_0_n_n_0_1_1128_wf := rfl
theorem gather2_eq : gather_S32x128_S320000x1_S320000x128_1_0_n_n_0_1_1128
    = rowsDims 32 320000 128 gather_S32x128_S320000x1_S320000x128_1_0_n_n_0_1_1128_wf := rfl

variable {F : FTy → Type} [FloatOps F]

theorem rows_apply {α : Type} {R H : Nat} (hb : (⟨1, ![R]⟩ : Shape).BroadcastsInDim ⟨2, ![R, H]⟩ ![0])
    (v : (⟨1, ![R]⟩ : Shape).Idx → α) (p : Fin R) (q : Fin H) :
    broadcastInDim ⟨2, ![R, H]⟩ ![0] hb v (ix2 p q) = v (ix1 p) := by
  refine broadcastInDim_apply _ _ _ (ix2 p q) (ix1 p) fun a => ?_
  match a with
  | ⟨0, _⟩ =>
    show p.val = if R = 1 then 0 else p.val
    split
    · have := p.isLt; omega
    · rfl

theorem take0_apply (x : FVec F S512x128 .f32) (idx : IVec S32 32)
    (hr : ∀ a : Fin 32, 0 ≤ (idx (ix1 a)).toInt ∧ (idx (ix1 a)).toInt < 512) (a : Fin 32) (h : Fin 128) :
    take0 x idx (ix2 a h) = x (ix2 ⟨(idx (ix1 a)).toInt.toNat, by have := hr a; omega⟩ h) := by
  have hidx : ∀ (p : Fin 32) (q : Fin 1), take0_idx idx (ix2 p q) = idx (ix1 p) := fun p q =>
    (rows_apply _ _ p q).trans (wrap_apply idx _ _ (ix1 p) rfl (hr p).1)
  have hk : ∀ k : S32x1.Idx, take0_idx idx k = idx (ix1 (k 0)) := fun k => by
    rw [eq_ix2 k]; exact hidx _ _
  have hinb : ∀ j, take0_inb idx j = 1#1 := fun j =>
    reduce_andi_ones _ _ _ _ (fun k => inb_apply _ _ _ k rfl (by rw [hk]; exact (hr _).1)
      (by rw [hk]; show _ ≤ (511#32 : BitVec 32).toInt
          have := (hr (k 0)).2
          have e : (511#32 : BitVec 32).toInt = 511 := by decide
          omega)) rfl j
  unfold take0
  rw [select_apply, rows_apply, hinb, select_one, gather0_eq, gather_rows_apply (by decide)]
  refine congrArg x (congrArg (fun r => ix2 r h) (Fin.ext ?_))
  show min (take0_idx idx (ix2 a (0 : Fin 1))).toInt.toNat (512 - 1) = (idx (ix1 a)).toInt.toNat
  rw [hidx]
  have := hr a; omega

theorem take1_apply (x : FVec F S10000x128 .f32) (idx : IVec S320000 32)
    (hr : ∀ e : Fin 320000, 0 ≤ (idx (ix1 e)).toInt ∧ (idx (ix1 e)).toInt < 10000) (e : Fin 320000) (h : Fin 128) :
    take1 x idx (ix2 e h) = x (ix2 ⟨(idx (ix1 e)).toInt.toNat, by have := hr e; omega⟩ h) := by
  have hidx : ∀ (p : Fin 320000) (q : Fin 1), take1_idx idx (ix2 p q) = idx (ix1 p) := fun p q =>
    (rows_apply _ _ p q).trans (wrap_apply idx _ _ (ix1 p) rfl (hr p).1)
  have hk : ∀ k : S320000x1.Idx, take1_idx idx k = idx (ix1 (k 0)) := fun k => by
    rw [eq_ix2 k]; exact hidx _ _
  have hinb : ∀ j, take1_inb idx j = 1#1 := fun j =>
    reduce_andi_ones _ _ _ _ (fun k => inb_apply _ _ _ k rfl (by rw [hk]; exact (hr _).1)
      (by rw [hk]; show _ ≤ (9999#32 : BitVec 32).toInt
          have := (hr (k 0)).2
          have e : (9999#32 : BitVec 32).toInt = 9999 := by decide
          omega)) rfl j
  unfold take1
  rw [select_apply, rows_apply, hinb, select_one, gather1_eq, gather_rows_apply (by decide)]
  refine congrArg x (congrArg (fun r => ix2 r h) (Fin.ext ?_))
  show min (take1_idx idx (ix2 e (0 : Fin 1))).toInt.toNat (10000 - 1) = (idx (ix1 e)).toInt.toNat
  rw [hidx]
  have := hr e; omega

theorem take2_apply (x : FVec F S32x128 .f32) (idx : IVec S320000 32)
    (hr : ∀ e : Fin 320000, 0 ≤ (idx (ix1 e)).toInt ∧ (idx (ix1 e)).toInt < 32) (e : Fin 320000) (h : Fin 128) :
    take2 x idx (ix2 e h) = x (ix2 ⟨(idx (ix1 e)).toInt.toNat, by have := hr e; omega⟩ h) := by
  have hidx : ∀ (p : Fin 320000) (q : Fin 1), take2_idx idx (ix2 p q) = idx (ix1 p) := fun p q =>
    (rows_apply _ _ p q).trans (wrap_apply idx _ _ (ix1 p) rfl (hr p).1)
  have hk : ∀ k : S320000x1.Idx, take2_idx idx k = idx (ix1 (k 0)) := fun k => by
    rw [eq_ix2 k]; exact hidx _ _
  have hinb : ∀ j, take2_inb idx j = 1#1 := fun j =>
    reduce_andi_ones _ _ _ _ (fun k => inb_apply _ _ _ k rfl (by rw [hk]; exact (hr _).1)
      (by rw [hk]; show _ ≤ (31#32 : BitVec 32).toInt
          have := (hr (k 0)).2
          have e : (31#32 : BitVec 32).toInt = 31 := by decide
          omega)) rfl j
  unfold take2
  rw [select_apply, rows_apply, hinb, select_one, gather2_eq, gather_rows_apply (by decide)]
  refine congrArg x (congrArg (fun r => ix2 r h) (Fin.ext ?_))
  show min (take2_idx idx (ix2 e (0 : Fin 1))).toInt.toNat (32 - 1) = (idx (ix1 e)).toInt.toNat
  rw [hidx]
  have := hr e; omega

end Cert.ReferenceIdeal.Hand

end
-- ==== Proof.Ref.ReadScatter.lean ====
import proofs.«101073_g24988119728772_cont_9to1_1483_2_alg».proof.Proof.Ref.ReadTake
import Idealize.ShloMosaic.Lib.StableHlo.Predicate
import Mathlib.Logic.Equiv.Fin.Basic
import Mathlib.Algebra.BigOperators.Fin

noncomputable section

open scoped BigOperators

namespace Cert.ReferenceIdeal.Hand

open Idealize.ShloMosaic Idealize.ShloMosaic.ValueIdx Idealize.ShloMosaic.StableHlo.Predicate
open Cert.ReferenceIdeal Cert.ReferenceIdeal.Facts₀ Cert.ReferenceIdeal.Facts

section Scatter

noncomputable abbrev rowsScatter (N R H : Nat) (wf : ScatterDims.WF ⟨2, ![N, H]⟩ ⟨2, ![R, 1]⟩ ⟨2, ![R, H]⟩ [1] [0] [0] 1) :
    ScatterDims ⟨2, ![N, H]⟩ ⟨2, ![R, 1]⟩ ⟨2, ![R, H]⟩ where
  updateWindowDims := [1]
  insertedWindowDims := [0]
  scatterDimsToOperandDims := [0]
  indexVectorDim := 1
  wf := wf

variable {N R H w : Nat} (wf : ScatterDims.WF ⟨2, ![N, H]⟩ ⟨2, ![R, 1]⟩ ⟨2, ![R, H]⟩ [1] [0] [0] 1)
  (idx : IVec ⟨2, ![R, 1]⟩ w)

theorem rowsScatter_start0 (e : Fin R) (h : Fin H) :
    (rowsScatter N R H wf).start (ix2 e h) idx 0 = (idx (ix2 e (0 : Fin 1))).toInt := by
  unfold ScatterDims.start
  rw [dif_pos (show (0 : Fin 2) ∈ (rowsScatter N R H wf).scatterDimsToOperandDims from List.mem_singleton.mpr rfl)]
  have hsi : (rowsScatter N R H wf).siIdx (ix2 e h) ⟨List.idxOf (0 : Fin 2) (rowsScatter N R H wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem rowsScatter_start1 (e : Fin R) (h : Fin H) : (rowsScatter N R H wf).start (ix2 e h) idx 1 = 0 := by
  unfold ScatterDims.start
  rw [dif_neg (show (1 : Fin 2) ∉ (rowsScatter N R H wf).scatterDimsToOperandDims from
    (show (1 : Fin 2) ∉ [(0 : Fin 2)] from by decide))]

theorem rowsScatter_window0 (e : Fin R) (h : Fin H) : (rowsScatter N R H wf).window (ix2 e h) 0 = 0 := by
  unfold ScatterDims.window
  rw [dif_neg (show (0 : Fin 2) ∉ (rowsScatter N R H wf).sKept from by
    simp [ScatterDims.sKept, Shape.kept, List.mem_filter])]

theorem rowsScatter_window1 (e : Fin R) (h : Fin H) : (rowsScatter N R H wf).window (ix2 e h) 1 = h.val := by
  unfold ScatterDims.window
  rw [dif_pos (show (1 : Fin 2) ∈ (rowsScatter N R H wf).sKept from by
    simp [ScatterDims.sKept, Shape.kept, List.mem_filter, List.mem_finRange])]
  rfl

theorem rowsScatter_resultIdx?_eq_some (e : Fin R) (h : Fin H) (i : (⟨2, ![N, H]⟩ : Shape).Idx) :
    (rowsScatter N R H wf).resultIdx? (ix2 e h) idx = some i
      ↔ (idx (ix2 e (0 : Fin 1))).toInt = ((i 0).val : Int) ∧ h = i 1 := by
  have s0 := rowsScatter_start0 wf idx e h
  have s1 := rowsScatter_start1 wf idx e h
  have w0 := rowsScatter_window0 wf (N := N) e h
  have w1 := rowsScatter_window1 wf (N := N) e h
  have hi0 : (i 0).val < N := (i 0).isLt
  have hi1 : (i 1).val < H := (i 1).isLt
  unfold ScatterDims.resultIdx?
  constructor
  · intro hres
    split at hres
    · rename_i hc
      have hi := Option.some.inj hres
      have e0 : ((i 0).val : Int) = (idx (ix2 e (0 : Fin 1))).toInt := by
        have := congrArg (fun f => ((f 0 : Fin N).val : Int)) hi
        simp only at this
        rw [← this]
        have hc0 := hc 0
        rw [s0, w0] at hc0
        show (((rowsScatter N R H wf).start (ix2 e h) idx 0 + ((rowsScatter N R H wf).window (ix2 e h) 0 : Nat)).toNat : Int) = _
        rw [s0, w0]
        have := hc0.1
        simp only [Nat.cast_zero, add_zero] at this ⊢
        exact Int.toNat_of_nonneg this
      have e1 : (i 1).val = h.val := by
        have := congrArg (fun f => (f 1 : Fin H).val) hi
        simp only at this
        rw [← this]
        show ((rowsScatter N R H wf).start (ix2 e h) idx 1 + ((rowsScatter N R H wf).window (ix2 e h) 1 : Nat)).toNat = _
        rw [s1, w1]
        simp
      exact ⟨e0.symm, Fin.ext e1.symm⟩
    · exact absurd hres (by simp)
  · rintro ⟨h0, h1⟩
    have hc : ∀ a, 0 ≤ (rowsScatter N R H wf).start (ix2 e h) idx a + ((rowsScatter N R H wf).window (ix2 e h) a : Nat)
        ∧ (rowsScatter N R H wf).start (ix2 e h) idx a + ((rowsScatter N R H wf).window (ix2 e h) a : Nat)
          < ((⟨2, ![N, H]⟩ : Shape).size a : Nat) := by
      intro a
      match a with
      | ⟨0, _⟩ =>
        show 0 ≤ (rowsScatter N R H wf).start (ix2 e h) idx 0 + ((rowsScatter N R H wf).window (ix2 e h) 0 : Nat)
          ∧ (rowsScatter N R H wf).start (ix2 e h) idx 0 + ((rowsScatter N R H wf).window (ix2 e h) 0 : Nat) < (N : Int)
        rw [s0, w0, h0]; constructor <;> omega
      | ⟨1, _⟩ =>
        show 0 ≤ (rowsScatter N R H wf).start (ix2 e h) idx 1 + ((rowsScatter N R H wf).window (ix2 e h) 1 : Nat)
          ∧ (rowsScatter N R H wf).start (ix2 e h) idx 1 + ((rowsScatter N R H wf).window (ix2 e h) 1 : Nat) < (H : Int)
        rw [s1, w1]; have := h.isLt; constructor <;> omega
    rw [dif_pos hc]
    congr 1
    funext a
    refine Fin.ext ?_
    match a with
    | ⟨0, _⟩ =>
      show ((rowsScatter N R H wf).start (ix2 e h) idx 0 + ((rowsScatter N R H wf).window (ix2 e h) 0 : Nat)).toNat = (i 0).val
      rw [s0, w0, h0]; simp
    | ⟨1, _⟩ =>
      show ((rowsScatter N R H wf).start (ix2 e h) idx 1 + ((rowsScatter N R H wf).window (ix2 e h) 1 : Nat)).toNat = (i 1).val
      rw [s1, w1, h1]; simp

theorem hostScatterAdd_rows_apply (x : (⟨2, ![N, H]⟩ : Shape).Idx → EReal) (upd : (⟨2, ![R, H]⟩ : Shape).Idx → EReal)
    (r : Fin N) (h : Fin H) :
    Ideal.hostScatterAdd (rowsScatter N R H wf) x idx upd (ix2 r h)
      = x (ix2 r h) + ∑ e : Fin R, if (idx (ix2 e (0 : Fin 1))).toInt = (r.val : Int) then upd (ix2 e h) else 0 := by
  unfold Ideal.hostScatterAdd
  congr 1
  rw [Finset.sum_filter, sum_idx2]
  refine Finset.sum_congr rfl fun e _ => ?_
  have hterm : ∀ h' : Fin H,
      (if (rowsScatter N R H wf).resultIdx? (ix2 e h') idx = some (ix2 r h) then upd (ix2 e h') else 0)
        = if h' = h then (if (idx (ix2 e (0 : Fin 1))).toInt = (r.val : Int) then upd (ix2 e h) else 0) else 0 := by
    intro h'
    by_cases hh : h' = h
    · subst hh
      rw [if_pos rfl]
      exact if_congr ((rowsScatter_resultIdx?_eq_some wf idx e h' (ix2 r h')).trans
        ⟨fun c => c.1, fun c => ⟨c, rfl⟩⟩) rfl rfl
    · rw [if_neg hh, if_neg]
      intro c
      exact hh ((rowsScatter_resultIdx?_eq_some wf idx e h' (ix2 r h)).mp c).2
  rw [Finset.sum_congr rfl fun h' _ => hterm h', Finset.sum_ite_eq' Finset.univ h]
  simp

end Scatter

variable [Facts]

theorem scatter_attr_eq : scatter_S32x128_S320000x1_S320000x128_1_0_0_1
    = rowsScatter 32 320000 128 scatter_S32x128_S320000x1_S320000x128_1_0_0_1_wf := rfl
theorem scatter_node_eq : scatter_S10000x128_S320000x1_S320000x128_1_0_0_1
    = rowsScatter 10000 320000 128 scatter_S10000x128_S320000x1_S320000x128_1_0_0_1_wf := rfl

theorem st_v3_apply (e : Fin 320000) : v3 (ix1 e) = BitVec.ofNat 32 (e.val / 32) := by
  unfold v3
  refine (shapeCast_apply _ _ (ix1 e)
    (ix2 (⟨e.val / 32, by have := e.isLt; omega⟩ : Fin 10000) (⟨e.val % 32, by omega⟩ : Fin 32)) ?_).trans ?_
  · rw [Shape.rowMajor_val_two, Shape.rowMajor_val_one]
    show e.val / 32 * 32 + e.val % 32 = e.val
    omega
  · exact (rows_apply _ _ _ _).trans rfl

theorem st_v7_apply (e : Fin 320000) : v7 (ix1 e) = BitVec.ofNat 32 (e.val % 32) := by
  unfold v7
  refine (shapeCast_apply _ _ (ix1 e)
    (ix2 (⟨e.val / 32, by have := e.isLt; omega⟩ : Fin 10000) (⟨e.val % 32, by omega⟩ : Fin 32)) ?_).trans ?_
  · rw [Shape.rowMajor_val_two, Shape.rowMajor_val_one]
    show e.val / 32 * 32 + e.val % 32 = e.val
    omega
  · refine (broadcastInDim_apply _ _ _ _ (ix2 (0 : Fin 1) (⟨e.val % 32, by omega⟩ : Fin 32)) fun a => ?_).trans ?_
    · match a with
      | ⟨0, _⟩ => rfl
      | ⟨1, _⟩ => rfl
    · refine (shapeCast_apply _ _ _ (ix1 (⟨e.val % 32, by omega⟩ : Fin 32)) ?_).trans rfl
      rw [Shape.rowMajor_val_two, Shape.rowMajor_val_one]
      show e.val % 32 = 0 * 32 + e.val % 32
      omega

theorem st_v3_inRange (e : Fin 320000) : 0 ≤ (v3 (ix1 e)).toInt ∧ (v3 (ix1 e)).toInt < 10000 := by
  have := e.isLt
  rw [st_v3_apply, toInt_ofNat_small _ (by omega)]
  constructor <;> omega

theorem st_v7_inRange (e : Fin 320000) : 0 ≤ (v7 (ix1 e)).toInt ∧ (v7 (ix1 e)).toInt < 32 := by
  rw [st_v7_apply, toInt_ofNat_small _ (by omega)]
  constructor <;> omega

variable {F : FTy → Type} [FloatOps F]

theorem take1_nodes (X : FVec F S10000x128 .f32) (e : Fin 320000) (h : Fin 128) :
    take1 X v3 (ix2 e h) = X (ix2 (⟨e.val / 32, by have := e.isLt; omega⟩ : Fin 10000) h) := by
  rw [take1_apply X v3 st_v3_inRange e h]
  refine congrArg X (congrArg (fun r => ix2 r h) (Fin.ext ?_))
  show (v3 (ix1 e)).toInt.toNat = e.val / 32
  have := e.isLt
  rw [st_v3_apply, toInt_ofNat_small _ (by omega)]
  exact Int.toNat_natCast _

theorem take2_attrs (Y : FVec F S32x128 .f32) (e : Fin 320000) (h : Fin 128) :
    take2 Y v7 (ix2 e h) = Y (ix2 (⟨e.val % 32, by omega⟩ : Fin 32) h) := by
  rw [take2_apply Y v7 st_v7_inRange e h]
  refine congrArg Y (congrArg (fun r => ix2 r h) (Fin.ext ?_))
  show (v7 (ix1 e)).toInt.toNat = e.val % 32
  rw [st_v7_apply, toInt_ofNat_small _ (by omega)]
  exact Int.toNat_natCast _

noncomputable abbrev edge (n : Fin 10000) (a : Fin 32) : Fin 320000 := ⟨32 * n.val + a.val, by have := n.isLt; have := a.isLt; omega⟩

theorem sum_edges {β : Type} [AddCommMonoid β] (g : Fin 320000 → β) :
    ∑ e, g e = ∑ n : Fin 10000, ∑ a : Fin 32, g (edge n a) := by
  rw [← Equiv.sum_comp (finProdFinEquiv : Fin 10000 × Fin 32 ≃ Fin 320000) g, Fintype.sum_prod_type]
  refine Finset.sum_congr rfl fun n _ => Finset.sum_congr rfl fun a _ => congrArg g (Fin.ext ?_)
  show a.val + 32 * n.val = 32 * n.val + a.val
  omega

theorem scatter_attr_apply (Z : FVec Ideal S32x128 .f32) (U : FVec Ideal S320000x128 .f32) (a : Fin 32) (h : Fin 128) :
    Host.scatterAdd scatter_S32x128_S320000x1_S320000x128_1_0_0_1 Z
        (broadcastInDim S320000x1 ![0] bcast_S320000_S320000x1_0 v7) U (ix2 a h)
      = Z (ix2 a h) + ∑ n : Fin 10000, U (ix2 (edge n a) h) := by
  show Ideal.hostScatterAdd scatter_S32x128_S320000x1_S320000x128_1_0_0_1 Z _ U (ix2 a h) = _
  rw [scatter_attr_eq, hostScatterAdd_rows_apply, sum_edges]
  congr 1
  refine Finset.sum_congr rfl fun n _ => ?_
  have hc : ∀ a' : Fin 32,
      ((broadcastInDim S320000x1 ![0] bcast_S320000_S320000x1_0 v7 (ix2 (edge n a') (0 : Fin 1))).toInt = (a.val : Int))
        ↔ a' = a := by
    intro a'
    rw [rows_apply, st_v7_apply, toInt_ofNat_small _ (by omega)]
    have := a'.isLt; have := a.isLt
    constructor
    · intro hh; apply Fin.ext; show a'.val = a.val
      have : ((32 * n.val + a'.val) % 32 : Nat) = a.val := by exact_mod_cast hh
      omega
    · intro hh; subst hh
      show (((32 * n.val + a'.val) % 32 : Nat) : Int) = (a'.val : Int)
      have : (32 * n.val + a'.val) % 32 = a'.val := by omega
      rw [this]
  rw [Finset.sum_congr rfl fun a' _ => if_congr (hc a') rfl rfl, Finset.sum_ite_eq' Finset.univ a]
  simp

theorem scatter_node_apply (Z : FVec Ideal S10000x128 .f32) (U : FVec Ideal S320000x128 .f32) (n : Fin 10000) (h : Fin 128) :
    Host.scatterAdd scatter_S10000x128_S320000x1_S320000x128_1_0_0_1 Z
        (broadcastInDim S320000x1 ![0] bcast_S320000_S320000x1_0 v3) U (ix2 n h)
      = Z (ix2 n h) + ∑ a : Fin 32, U (ix2 (edge n a) h) := by
  show Ideal.hostScatterAdd scatter_S10000x128_S320000x1_S320000x128_1_0_0_1 Z _ U (ix2 n h) = _
  rw [scatter_node_eq, hostScatterAdd_rows_apply, sum_edges]
  congr 1
  have hc : ∀ (n' : Fin 10000) (a : Fin 32),
      ((broadcastInDim S320000x1 ![0] bcast_S320000_S320000x1_0 v3 (ix2 (edge n' a) (0 : Fin 1))).toInt = (n.val : Int))
        ↔ n' = n := by
    intro n' a
    have := n'.isLt; have := n.isLt; have := a.isLt
    rw [rows_apply, st_v3_apply, toInt_ofNat_small _ (by show (32 * n'.val + a.val) / 32 < 2 ^ 31; omega)]
    constructor
    · intro hh; apply Fin.ext; show n'.val = n.val
      have : ((32 * n'.val + a.val) / 32 : Nat) = n.val := by exact_mod_cast hh
      omega
    · intro hh; subst hh
      show (((32 * n'.val + a.val) / 32 : Nat) : Int) = (n'.val : Int)
      have : (32 * n'.val + a.val) / 32 = n'.val := by omega
      rw [this]
  rw [Finset.sum_congr rfl fun n' _ => Finset.sum_congr rfl fun a _ => if_congr (hc n' a) rfl rfl]
  rw [Finset.sum_comm]
  refine Finset.sum_congr rfl fun a _ => ?_
  rw [Finset.sum_ite_eq' Finset.univ n (fun n' => U (ix2 (edge n' a) h))]
  simp

end Cert.ReferenceIdeal.Hand

end
-- ==== Proof.Ref.ReadDot.lean ====
import proofs.«101073_g24988119728772_cont_9to1_1483_2_alg».proof.Proof.Ref.Stages
import Idealize.ShloMosaic.Lib.StackMember
import Idealize.ShloMosaic.Lib.ValueIdx
import Idealize.ShloMosaic.Lib.Pipeline.Value
import Idealize.ShloMosaic.Lib.StableHlo.Predicate

noncomputable section

open scoped BigOperators

namespace Cert.ReferenceIdeal.Hand

open Idealize.ShloMosaic Idealize.ShloMosaic.ValueIdx Idealize.ShloMosaic.StackMember Idealize.ShloMosaic.StableHlo.Predicate
open Cert.ReferenceIdeal Cert.ReferenceIdeal.Facts₀ Cert.ReferenceIdeal.Facts

variable [Facts]

/-- Each product of the program contracts its left operand's second axis with its right operand's first. -/
theorem dot_in_apply (A : FVec Ideal S10000x256 .f32) (B : FVec Ideal S256x128 .f32) (n : Fin 10000) (h : Fin 128) :
    Host.dotGeneral dot_S10000x256_S256x128_S10000x128_1_0_0_1_n_n none A B (ix2 n h) = ∑ k : Fin 256, A (ix2 n k) * B (ix2 k h) :=
  dotGeneral_plain_apply none A B n h
theorem dot_attr_apply (A : FVec Ideal S32x128 .f32) (B : FVec Ideal S128x128 .f32) (a : Fin 32) (h : Fin 128) :
    Host.dotGeneral dot_S32x128_S128x128_S32x128_1_0_0_1_n_n none A B (ix2 a h) = ∑ k : Fin 128, A (ix2 a k) * B (ix2 k h) :=
  dotGeneral_plain_apply none A B a h
theorem dot_node_apply (A : FVec Ideal S10000x128 .f32) (B : FVec Ideal S128x128 .f32) (n : Fin 10000) (h : Fin 128) :
    Host.dotGeneral dot_S10000x128_S128x128_S10000x128_1_0_0_1_n_n none A B (ix2 n h) = ∑ k : Fin 128, A (ix2 n k) * B (ix2 k h) :=
  dotGeneral_plain_apply none A B n h
theorem dot_out_apply (A : FVec Ideal S10000x128 .f32) (B : FVec Ideal S128x256 .f32) (n : Fin 10000) (j : Fin 256) :
    Host.dotGeneral dot_S10000x128_S128x256_S10000x256_1_0_0_1_n_n none A B (ix2 n j) = ∑ k : Fin 128, A (ix2 n k) * B (ix2 k j) :=
  dotGeneral_plain_apply none A B n j

variable {F : FTy → Type} [FloatOps F]

/-- Layer `l`'s matrix reads, at `(k, h)`, the stacked array's `(l, k, h)`: the slice starts at `l` and the reshape only drops the unit axis. -/
theorem mat_apply {off : Fin S2x128x128.rank → Nat} (hs : S2x128x128.Slices off S1x128x128) (W : FVec F S2x128x128 .f32) (l : Fin 2)
    (e : off = ![l.val, 0, 0]) (k h : Fin 128) : mat hs W (ix2 k h) = W (ix3 l k h) := by
  subst e
  refine (shapeCast_apply _ _ (ix2 k h) (ix3 (0 : Fin 1) k h) ?_).trans ?_
  · rw [Shape.rowMajor_val_three, Shape.rowMajor_val_two]
    show (0 * 128 + k.val) * 128 + h.val = k.val * 128 + h.val
    omega
  · refine extractStridedSlice_apply _ _ _ _ (ix3 l k h) fun a => ?_
    match a with
    | ⟨0, _⟩ => rfl
    | ⟨1, _⟩ => show k.val = 0 + k.val; omega
    | ⟨2, _⟩ => show h.val = 0 + h.val; omega

/-- Likewise layer `l`'s bias vector reads, at `h`, the stacked array's `(l, h)`. -/
theorem bias_apply {off : Fin S2x128.rank → Nat} (hs : S2x128.Slices off S1x128) (b : FVec F S2x128 .f32) (l : Fin 2)
    (e : off = ![l.val, 0]) (h : Fin 128) : bias hs b (ix1 h) = b (ix2 l h) := by
  subst e
  refine (shapeCast_apply _ _ (ix1 h) (ix2 (0 : Fin 1) h) ?_).trans ?_
  · rw [Shape.rowMajor_val_two, Shape.rowMajor_val_one]
    show 0 * 128 + h.val = h.val
    omega
  · refine extractStridedSlice_apply _ _ _ _ (ix2 l h) fun a => ?_
    match a with
    | ⟨0, _⟩ => rfl
    | ⟨1, _⟩ => show h.val = 0 + h.val; omega

theorem mat0_apply (W : FVec F S2x128x128 .f32) (k h : Fin 128) : mat slices_S2x128x128_S1x128x128_0_0_0 W (ix2 k h) = W (ix3 0 k h) :=
  mat_apply _ W 0 rfl k h
theorem mat1_apply (W : FVec F S2x128x128 .f32) (k h : Fin 128) : mat slices_S2x128x128_S1x128x128_1_0_0 W (ix2 k h) = W (ix3 1 k h) :=
  mat_apply _ W 1 rfl k h
theorem bias0_apply (b : FVec F S2x128 .f32) (h : Fin 128) : bias slices_S2x128_S1x128_0_0 b (ix1 h) = b (ix2 0 h) := bias_apply _ b 0 rfl h
theorem bias1_apply (b : FVec F S2x128 .f32) (h : Fin 128) : bias slices_S2x128_S1x128_1_0 b (ix1 h) = b (ix2 1 h) := bias_apply _ b 1 rfl h

end Cert.ReferenceIdeal.Hand

end
-- ==== Proof.Ref.Read.lean ====
import proofs.«101073_g24988119728772_cont_9to1_1483_2_alg».proof.Proof.Ref.ReadScatter
import proofs.«101073_g24988119728772_cont_9to1_1483_2_alg».proof.Proof.Ref.ReadDot
import proofs.«101073_g24988119728772_cont_9to1_1483_2_alg».proof.Proof.Spec
import proofs.«101073_g24988119728772_cont_9to1_1483_2_alg».proof.Proof.Spec.Lits

noncomputable section

open scoped BigOperators

namespace Cert.ReferenceIdeal.Hand

open Idealize.ShloMosaic Idealize.ShloMosaic.ValueIdx Idealize.ShloMosaic.StableHlo.Predicate
open Cert.ReferenceIdeal Cert.ReferenceIdeal.Facts₀ Cert.ReferenceIdeal.Facts
open Cert.Spec (Args rHa0 rHv0 rAggA0 rAggV0 rHa1 rHv1 rAggV1 rHv2 ROut)

variable [Facts]

/-- A vector laid along every row, through a one-row matrix, reads at `(r, h)` the vector at `h`. -/
theorem rowvec_apply {α : Type} {R H : Nat} (h₁ : (⟨1, ![H]⟩ : Shape).BroadcastsInDim ⟨2, ![1, H]⟩ ![1])
    (h₂ : (⟨2, ![1, H]⟩ : Shape).BroadcastsInDim ⟨2, ![R, H]⟩ ![0, 1]) (v : (⟨1, ![H]⟩ : Shape).Idx → α) (r : Fin R) (h : Fin H) :
    broadcastInDim ⟨2, ![R, H]⟩ ![0, 1] h₂ (broadcastInDim ⟨2, ![1, H]⟩ ![1] h₁ v) (ix2 r h) = v (ix1 h) :=
  by rw [← ij_eta (ix2 r h), Shape.Idx.eq_ofFin (ix1 h)]; exact bcast_cols h₁ h₂ v r h

theorem hostDivf_apply {s : Shape} (x y : FVec Ideal s .f32) (i : s.Idx) : Host.divf x y i = Ideal.div (x i) (y i) := rfl

/-- Over the complete edge list every attribute receives every node's row: the sum over the nodes, over their number. -/
theorem aggA_apply (X : FVec Ideal S10000x128 .f32) (a : Fin 32) (h : Fin 128) :
    aggA X (ix2 a h) = Ideal.div (∑ n : Fin 10000, X (ix2 n h)) ((10000 : ℝ) : EReal) := by
  unfold aggA
  rw [hostDivf_apply, scatter_attr_apply, show (broadcastInDim S32x128 ![] bcast_S_S32x128 (constant (F := Ideal) S_ .f32 0x00000000#32)) (ix2 a h) = 0 from Cert.Spec.lit_zero, zero_add,
    Finset.sum_congr rfl fun n _ => (take1_nodes X (edge n a) h).trans
      (congrArg (fun r => X (ix2 r h)) (Fin.ext (show (32 * n.val + a.val) / 32 = n.val by have := a.isLt; omega)))]
  exact congrArg _ Cert.Spec.lit_10000

/-- And every node receives every attribute's row: the sum over the attributes, over their number. -/
theorem aggV_apply (Y : FVec Ideal S32x128 .f32) (n : Fin 10000) (h : Fin 128) :
    aggV Y (ix2 n h) = Ideal.div (∑ a : Fin 32, Y (ix2 a h)) ((32 : ℝ) : EReal) := by
  unfold aggV
  rw [hostDivf_apply, scatter_node_apply, show (broadcastInDim S10000x128 ![] bcast_S_S10000x128 (constant (F := Ideal) S_ .f32 0x00000000#32)) (ix2 n h) = 0 from Cert.Spec.lit_zero, zero_add,
    Finset.sum_congr rfl fun a _ => (take2_attrs Y (edge n a) h).trans
      (congrArg (fun r => Y (ix2 r h)) (Fin.ext (show (32 * n.val + a.val) % 32 = a.val by have := a.isLt; omega)))]
  exact congrArg _ Cert.Spec.lit_32

/-- An update read at an index: two products and the bias, then the maximum with zero. -/
theorem preA_apply (g x : FVec Ideal S32x128 .f32) (W U : FVec Ideal S128x128 .f32) (b : FVec Ideal S128 .f32) (a : Fin 32) (h : Fin 128) :
    relu (preA g x W U b) (ix2 a h) = max ((∑ k : Fin 128, g (ix2 a k) * W (ix2 k h)) + (∑ k : Fin 128, x (ix2 a k) * U (ix2 k h)) + b (ix1 h)) 0 := by
  unfold relu preA rowsA
  rw [maximumf_apply, addf_apply, addf_apply, dot_attr_apply, dot_attr_apply, rowvec_apply]
  exact congrArg _ Cert.Spec.lit_zero
theorem preV_apply (g x : FVec Ideal S10000x128 .f32) (W U : FVec Ideal S128x128 .f32) (b : FVec Ideal S128 .f32) (n : Fin 10000) (h : Fin 128) :
    relu_3 (preV g x W U b) (ix2 n h) = max ((∑ k : Fin 128, g (ix2 n k) * W (ix2 k h)) + (∑ k : Fin 128, x (ix2 n k) * U (ix2 k h)) + b (ix1 h)) 0 := by
  unfold relu_3 preV rowsV
  rw [maximumf_apply, addf_apply, addf_apply, dot_node_apply, dot_node_apply, rowvec_apply]
  exact congrArg _ Cert.Spec.lit_zero

section Chain
variable (A : In Ideal)

/-- The thirteen arguments as plain functions of coordinates. -/
noncomputable abbrev AA : Args := Args.ofArrays A.a0 A.a1 A.a2 A.a3 A.a4 A.a5 A.a6 A.a7 A.a8 A.a9 A.a10 A.a11 A.a12

/-- A word that reads inside `[0, 512)` signed reads the same unsigned. -/
theorem toNat_of_inRange (w : BitVec 32) (h0 : 0 ≤ w.toInt) (h1 : w.toInt < 512) : w.toInt.toNat = w.toNat % 512 := by
  have hc := BitVec.toInt_eq_toNat_cond w
  have hlt := w.isLt
  split at hc <;> omega

theorem v0_apply (hr : (AA A).InRange) (a : Fin 32) (h : Fin 128) : v0 A (ix2 a h) = rHa0 (AA A) a h := by
  unfold v0
  rw [take0_apply A.a2 A.a1 (fun a => hr a) a h]
  exact congrArg A.a2 (congrArg (fun r => ix2 r h) (Fin.ext (toNat_of_inRange _ (hr a).1 (hr a).2)))

theorem v11_apply (n : Fin 10000) (h : Fin 128) : v11 A (ix2 n h) = rHv0 (AA A) n h := by
  unfold v11 rowsV
  rw [addf_apply, dot_in_apply, rowvec_apply]
  rfl

theorem v36_apply (hr : (AA A).InRange) (a : Fin 32) (h : Fin 128) : v36 A (ix2 a h) = rHa1 (AA A) a h := by
  unfold v36 v35
  rw [preA_apply]
  simp only [aggA_apply, v11_apply, v0_apply A hr, mat0_apply, bias0_apply]
  rfl

theorem v49_apply (hr : (AA A).InRange) (n : Fin 10000) (h : Fin 128) : v49 A (ix2 n h) = rHv1 (AA A) n h := by
  unfold v49 v48
  rw [preV_apply]
  simp only [aggV_apply, v11_apply, v0_apply A hr, mat0_apply, bias0_apply]
  rfl

theorem v87_apply (hr : (AA A).InRange) (n : Fin 10000) (h : Fin 128) : v87 A (ix2 n h) = rHv2 (AA A) n h := by
  unfold v87 v86
  rw [preV_apply]
  simp only [aggV_apply, v36_apply A hr, v49_apply A hr, mat1_apply, bias1_apply]
  rfl

theorem v91_apply (hr : (AA A).InRange) (n : Fin 10000) (j : Fin 256) : v91 A (ix2 n j) = ROut (AA A) n j := by
  unfold v91
  rw [addf_apply, dot_out_apply, rowvec_apply]
  simp only [v87_apply A hr]
  rfl

end Chain

variable (a0 : FVec Ideal S10000x256 .f32) (a1 : IVec S32 32) (a2 : FVec Ideal S512x128 .f32) (a3 : FVec Ideal S256x128 .f32)
  (a4 : FVec Ideal S128 .f32) (a5 a6 : FVec Ideal S2x128x128 .f32) (a7 : FVec Ideal S2x128 .f32)
  (a8 a9 : FVec Ideal S2x128x128 .f32) (a10 : FVec Ideal S2x128 .f32) (a11 : FVec Ideal S128x256 .f32)
  (a12 : FVec Ideal S256 .f32)

theorem out_eq (hr : (Args.ofArrays a0 a1 a2 a3 a4 a5 a6 a7 a8 a9 a10 a11 a12).InRange) :
    out (F := Ideal) a0 a1 a2 a3 a4 a5 a6 a7 a8 a9 a10 a11 a12 = Cert.Spec.toArr2 (ROut (Args.ofArrays a0 a1 a2 a3 a4 a5 a6 a7 a8 a9 a10 a11 a12)) :=
  Cert.Spec.arr2_ext fun n j => v91_apply ⟨a0, a1, a2, a3, a4, a5, a6, a7, a8, a9, a10, a11, a12⟩ hr n j

end Cert.ReferenceIdeal.Hand

end
-- ==== Proof.Spec.Bridge.lean ====
import proofs.«101073_g24988119728772_cont_9to1_1483_2_alg».proof.Proof.Spec
import Mathlib.Algebra.BigOperators.Ring.Finset
import Mathlib.Data.Fintype.Card
import Mathlib.Tactic.Ring
import Mathlib.Tactic.NormNum
import Mathlib.Tactic.Lift

noncomputable section

open scoped BigOperators

namespace Cert.Spec

open Idealize.ShloMosaic

theorem coe_sum {ι : Type} (s : Finset ι) (f : ι → ℝ) :
    ∑ i ∈ s, ((f i : ℝ) : EReal) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- The mean over the nodes of `v n · W + b` is `(mean of v) · W + b`: over the reals, swap the two sums and pull the factor out. -/
theorem mean_proj (v : Fin 10000 → Fin 256 → EReal) (W : Fin 256 → EReal) (b : EReal)
    (hv : ∀ n k, IsReal (v n k)) (hW : ∀ k, IsReal (W k)) (hb : IsReal b) :
    Ideal.div (∑ n, ((∑ k, v n k * W k) + b)) ((10000 : ℝ) : EReal)
      = (∑ k, (∑ n, v n k) * ((1 / 10000 : ℝ) : EReal) * W k) + b := by
  lift v to Fin 10000 → Fin 256 → ℝ using hv
  lift W to Fin 256 → ℝ using hW
  lift b to ℝ using hb
  rw [Ideal.div_coe (by norm_num)]
  simp only [← EReal.coe_mul, coe_sum, ← EReal.coe_add]
  refine congrArg _ ?_
  rw [Finset.sum_add_distrib, Finset.sum_comm, Finset.sum_const, Finset.card_univ, Fintype.card_fin, nsmul_eq_mul, add_mul]
  congr 1
  · rw [Finset.sum_mul]; exact Finset.sum_congr rfl fun k _ => by rw [← Finset.sum_mul]; ring
  · rw [Nat.cast_ofNat]; ring

variable (A : Args)

theorem qa_toNat_lt (hr : A.InRange) (a : Fin 32) : (A.qa a).toNat < 512 := by
  have h := hr a
  have := (A.qa a).isLt
  rw [BitVec.toInt_eq_toNat_cond] at h
  split at h <;> omega

/-- An index word in `[0, 512)` equals exactly the column number it names, so the one-hot product picks that embedding row. -/
theorem kHa0_eq (hr : A.InRange) (a : Fin 32) (h : Fin 128) : kHa0 A a h = rHa0 A a h := by
  have hlt := qa_toNat_lt A hr a
  have hi : ∀ r : Fin 512, BitVec.ofNat 32 r.val = A.qa a ↔ r = Fin.ofNat 512 (A.qa a).toNat := fun r => by
    have := r.isLt
    rw [← BitVec.toNat_inj, BitVec.toNat_ofNat, Fin.ext_iff, Fin.val_ofNat]; omega
  unfold kHa0 rHa0
  rw [Finset.sum_eq_single (Fin.ofNat 512 (A.qa a).toNat)]
  · rw [kOneHot, if_pos ((hi _).2 rfl), one_mul]
  · intro r _ hne; rw [kOneHot, if_neg fun e => hne ((hi r).1 e), zero_mul]
  · intro e; exact absurd (Finset.mem_univ _) e

/-- Both chains agree stage by stage: the gathered row is the one-hot product, the node mean commutes with the projection, a division by `n` is the product with `1/n`, and the layers add the same three terms in another order. -/
theorem bridge (A : Args) (hf : A.Finite) (hr : A.InRange) : ∀ n j, KOut A n j = ROut A n j := by
  have e0 := kHa0_eq A hr
  have eH : ∀ h, rAggA0 A h = kMeanH A h := fun h =>
    mean_proj A.v (A.Win · h) (A.bin h) hf.v (hf.Win · h) (hf.bin h)
  have eA0 : ∀ h, rAggV0 A h = kMeanA0 A h := fun h => by
    rw [rAggV0, kMeanA0, Ideal.div_coe (by norm_num)]; simp only [e0]
  have e1 : ∀ a h, rHa1 A a h = kHa1 A a h := fun a h => by simp only [rHa1, kHa1, eH, e0]
  have eA1 : ∀ h, rAggV1 A h = kMeanA1 A h := fun h => by
    rw [rAggV1, kMeanA1, Ideal.div_coe (by norm_num)]; simp only [e1]
  have e2 : ∀ n h, rHv1 A n h = kH1 A n h := fun n h => by
    simp only [rHv1, kH1, kC0, eA0]; rw [add_assoc, add_left_comm]; rfl
  have e3 : ∀ n h, rHv2 A n h = kH2 A n h := fun n h => by
    simp only [rHv2, kH2, kC1, eA1, e2]; rw [add_assoc, add_left_comm]
  intro n j
  simp only [KOut, ROut, e3]

end Cert.Spec

end
-- ==== Proof.PreDecode.lean ====
import proofs.«101073_g24988119728772_cont_9to1_1483_2_alg».proof.Pre_finite_inputs
import proofs.«101073_g24988119728772_cont_9to1_1483_2_alg».proof.Proof.Gen.Pre_finite_inputs
import proofs.«101073_g24988119728772_cont_9to1_1483_2_alg».proof.Proof.Spec
import Idealize.ShloMosaic.Lib.ReduceAll
import Idealize.ShloMosaic.Lib.StableHlo.Predicate

noncomputable section

namespace Cert.PreDecode

open Idealize.ShloMosaic Idealize.ShloMosaic.ValueIdx Cert.Pre_finite_inputs Cert.Spec

/-- The pattern `0x7F800000` is `+∞`, and `max x (-x) < +∞` fails at both infinities. -/
theorem isReal_of_cmp (x : EReal)
    (h : Ideal.cmp .olt (max x (-x)) (Ideal.ofBits .f32 0x7F800000#32) = 1#1) : IsReal x := by
  rw [show Ideal.ofBits .f32 0x7F800000#32 = (⊤ : EReal) by simp [Ideal.ofBits, Ideal.ieee]] at h
  have h' := of_decide_eq_true ((StableHlo.Predicate.ofBool_eq_one_iff _).1 h)
  induction x using EReal.rec with
  | bot => exact absurd h' (by simp)
  | coe r => exact ⟨EReal.coe_ne_top r, EReal.coe_ne_bot r⟩
  | top => exact absurd h' (by simp)

/-- The predicate is a conjunction of one-bit words, the index range outermost, then the arrays from the last to the first; an and-reduction that is 1 makes every reduced word 1. -/
theorem of_pre [Cert.Pre_finite_inputs.Facts]
    (a0 : FVec Ideal S10000x256 .f32) (a1 : IVec S32 32) (a2 : FVec Ideal S512x128 .f32)
    (a3 : FVec Ideal S256x128 .f32) (a4 : FVec Ideal S128 .f32) (a5 a6 : FVec Ideal S2x128x128 .f32)
    (a7 : FVec Ideal S2x128 .f32) (a8 a9 : FVec Ideal S2x128x128 .f32) (a10 : FVec Ideal S2x128 .f32)
    (a11 : FVec Ideal S128x256 .f32) (a12 : FVec Ideal S256 .f32)
    (h : Cert.Pre_finite_inputs.fn (F := Ideal) a0 a1 a2 a3 a4 a5 a6 a7 a8 a9 a10 a11 a12 = fun _ => 1#1) :
    (Args.ofArrays a0 a1 a2 a3 a4 a5 a6 a7 a8 a9 a10 a11 a12).Finite
      ∧ (Args.ofArrays a0 a1 a2 a3 a4 a5 a6 a7 a8 a9 a10 a11 a12).InRange := by
  have s := fun (x y : IVec S_ 1) (h : andi x y ix0 = 1#1) => IntOp.andi_eq_one.1 h
  have e := congrFun h ix0
  dsimp only [fn, fn_part1, fn_part2, fn_part3] at e
  obtain ⟨e, eq⟩ := s _ _ e
  iterate 8 replace e := (s _ _ e).1
  obtain ⟨e, e4⟩ := s _ _ e
  obtain ⟨e, e3⟩ := s _ _ e
  replace e := (s _ _ e).1
  refine ⟨⟨fun n k => isReal_of_cmp _ (Host.reduce_andi_all _ _ _ _ ix0 e (ix2 n k)),
    fun k c => isReal_of_cmp _ (Host.reduce_andi_all _ _ _ _ ix0 e3 (ix2 k c)),
    fun c => isReal_of_cmp _ (Host.reduce_andi_all _ _ _ _ ix0 e4 (ix1 c))⟩, fun a => ?_⟩
  obtain ⟨hge, hlt⟩ : IntOp.cmpi .sge (a1 (ix1 a)) 0#32 = 1#1 ∧ IntOp.cmpi .slt (a1 (ix1 a)) 512#32 = 1#1 :=
    IntOp.andi_eq_one.1 (Host.reduce_andi_all _ _ _ _ ix0 eq (ix1 a))
  exact ⟨of_decide_eq_true ((StableHlo.Predicate.ofBool_eq_one_iff _).1 hge),
    of_decide_eq_true ((StableHlo.Predicate.ofBool_eq_one_iff _).1 hlt)⟩

end Cert.PreDecode

end
-- ==== Proof.lean ====
import proofs.«101073_g24988119728772_cont_9to1_1483_2_alg».proof.Defs
import proofs.«101073_g24988119728772_cont_9to1_1483_2_alg».proof.Proof.Gen.Kernel
import proofs.«101073_g24988119728772_cont_9to1_1483_2_alg».proof.Proof.Gen.KernelIdeal
import proofs.«101073_g24988119728772_cont_9to1_1483_2_alg».proof.Proof.Gen.ReferenceIdeal
import proofs.«101073_g24988119728772_cont_9to1_1483_2_alg».proof.Proof.Gen.Pre_finite_inputs
import proofs.«101073_g24988119728772_cont_9to1_1483_2_alg».proof.Proof.K.Run
import proofs.«101073_g24988119728772_cont_9to1_1483_2_alg».proof.Proof.KI.Final
import proofs.«101073_g24988119728772_cont_9to1_1483_2_alg».proof.Proof.Ref.Run
import proofs.«101073_g24988119728772_cont_9to1_1483_2_alg».proof.Proof.Ref.Read
import proofs.«101073_g24988119728772_cont_9to1_1483_2_alg».proof.Proof.Spec.Bridge
import proofs.«101073_g24988119728772_cont_9to1_1483_2_alg».proof.Proof.Spec.LitsK
import proofs.«101073_g24988119728772_cont_9to1_1483_2_alg».proof.Proof.PreDecode
import Idealize.ShloMosaic.Adequacy
import Idealize.ShloMosaic.Init

noncomputable section

namespace Cert.Proof

open Idealize.ShloMosaic Idealize.SL.Sem

theorem frame_Kernel : Cert.frame_Kernel :=
  fun m ρ _ => (θ_run (Cert.Kernel.defs (F := Bits)) _ _).mono (fun _ h c => (h c).2) (Cert.Kernel.Hand.run_main (F := Bits) m ρ)

theorem frame_KernelIdeal : Cert.frame_KernelIdeal :=
  fun m ρ _ => (θ_run (Cert.KernelIdeal.defs (F := Ideal)) _ _).mono (fun _ h c => (h c).2) (Cert.KernelIdeal.Hand.run_main (F := Ideal) m ρ)

theorem frame_ReferenceIdeal : Cert.frame_ReferenceIdeal :=
  fun m ρ _ => (θ_run (Cert.ReferenceIdeal.defs (F := Ideal)) _ _).mono (fun _ h c => (h c).2) (Cert.ReferenceIdeal.Hand.run (F := Ideal) m ρ)

/-- From memories that agree on the arguments both idealized programs end with the kernel's closed form; the reference's closed form equals it where the inputs are real and the indices in range. -/
theorem algebraic : Cert.algebraic_KernelIdeal_ReferenceIdeal := by
  intro m g m' g' hpre hagree
  refine ⟨fun c => Cert.Spec.toArr2 (Cert.Spec.KOut (Cert.KernelIdeal.Hand.argsOf m c)), ?_, ?_⟩
  · exact (θ_run _ _ _).mono (fun r h c => ⟨(h c).1.trans (Cert.KernelIdeal.Hand.value m g c), (h c).2⟩)
      (Cert.KernelIdeal.Hand.run_main (F := Ideal) m g)
  refine (θ_run (Cert.ReferenceIdeal.defs (F := Ideal)) _ _).mono (fun r h c => ⟨(h c).1.trans ?_, (h c).2⟩)
    (Cert.ReferenceIdeal.Hand.run (F := Ideal) m' g')
  obtain ⟨h0, h1, h2, h3, h4, h5, h6, h7, h8, h9, h10, h11, h12⟩ := hagree c
  obtain ⟨hf, hr⟩ := Cert.PreDecode.of_pre _ _ _ _ _ _ _ _ _ _ _ _ _ (hpre c)
  rw [h0, h1, h2, h3, h4, h5, h6, h7, h8, h9, h10, h11, h12, Cert.ReferenceIdeal.Hand.out_eq _ _ _ _ _ _ _ _ _ _ _ _ _ hr]
  exact congrArg Cert.Spec.toArr2 (funext fun n => funext fun j => (Cert.Spec.bridge _ hf hr n j).symm)

/-- Over the complete bipartite graph every segment sum is a sum over all nodes or all attributes, and the input projection is linear: the two programs compute one function of their arguments. -/
theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, Cert.KernelIdeal.Hand.named_inv10000_statement, algebraic⟩

end Cert.Proof

end
